-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x32x300x151 : Shape := ⟨4, ![6, 32, 300, 151]⟩
abbrev S6x32x300x4 : Shape := ⟨4, ![6, 32, 300, 4]⟩
abbrev S32x64 : Shape := ⟨2, ![32, 64]⟩
abbrev S32x64x4 : Shape := ⟨3, ![32, 64, 4]⟩
abbrev S6x32x300x51 : Shape := ⟨4, ![6, 32, 300, 51]⟩
abbrev S_ : Shape := ⟨0, ![]⟩

class Facts : Prop where
  bcast_S_S6x32x300x151 : S_.BroadcastsInDim S6x32x300x151 (![] : Fin 0 → Fin S6x32x300x151.rank)
  reducesTo_S6x32x300x151_S_d0_1_2_3 : S6x32x300x151.ReducesTo [0, 1, 2, 3] S_
  h_S_ : 0 < S_.numel
  bcast_S_S6x32x300x4 : S_.BroadcastsInDim S6x32x300x4 (![] : Fin 0 → Fin S6x32x300x4.rank)
  reducesTo_S6x32x300x4_S_d0_1_2_3 : S6x32x300x4.ReducesTo [0, 1, 2, 3] S_
  bcast_S_S32x64x4 : S_.BroadcastsInDim S32x64x4 (![] : Fin 0 → Fin S32x64x4.rank)
  reducesTo_S32x64x4_S_d0_1_2 : S32x64x4.ReducesTo [0, 1, 2] S_
  bcast_S_S6x32x300x51 : S_.BroadcastsInDim S6x32x300x51 (![] : Fin 0 → Fin S6x32x300x51.rank)
  reducesTo_S6x32x300x51_S_d0_1_2_3 : S6x32x300x51.ReducesTo [0, 1, 2, 3] S_
  bcast_S_S32x64 : S_.BroadcastsInDim S32x64 (![] : Fin 0 → Fin S32x64.rank)
  reducesTo_S32x64_S_d0_1 : S32x64.ReducesTo [0, 1] S_

variable [Facts]

def fn_part3 {F : FTy → Type} [FloatOps F] (main_arg9 : IVec S32x64 32) (main_v47 : IVec S_ 1) (main_v49 : IVec S32x64 1) (main_c_19 : IVec S_ 32) : IVec S_ 1 :=
  let main_v50 : IVec S32x64 32 := broadcastInDim S32x64 ![] bcast_S_S32x64 main_c_19
  let main_v51 : IVec S32x64 1 := cmpi .slt main_arg9 main_v50
  let main_v52 : IVec S32x64 1 := andi main_v49 main_v51
  let main_c_20 : IVec S_ 1 := constantI S_ 1 1#1
  let main_v53 : IVec S_ 1 := (fun x v => Host.reduce IntOp.andi x v reducesTo_S32x64_S_d0_1 h_S_) main_v52 main_c_20
  let main_v54 : IVec S_ 1 := andi main_v47 main_v53
  main_v54

def fn_part2 {F : FTy → Type} [FloatOps F] (main_arg2 : IVec S32x64 32) (main_arg6 : IVec S32x64 32) (main_arg9 : IVec S32x64 32) (main_v33 : IVec S_ 1) : IVec S_ 1 :=
  let main_c_12 : IVec S_ 32 := constantI S_ 32 0#32
  let main_v34 : IVec S32x64 32 := broadcastInDim S32x64 ![] bcast_S_S32x64 main_c_12
  let main_v35 : IVec S32x64 1 := cmpi .sge main_arg2 main_v34
  let main_c_13 : IVec S_ 32 := constantI S_ 32 151#32
  let main_v36 : IVec S32x64 32 := broadcastInDim S32x64 ![] bcast_S_S32x64 main_c_13
  let main_v37 : IVec S32x64 1 := cmpi .slt main_arg2 main_v36
  let main_v38 : IVec S32x64 1 := andi main_v35 main_v37
  let main_c_14 : IVec S_ 1 := constantI S_ 1 1#1
  let main_v39 : IVec S_ 1 := (fun x v => Host.reduce IntOp.andi x v reducesTo_S32x64_S_d0_1 h_S_) main_v38 main_c_14
  let main_v40 : IVec S_ 1 := andi main_v33 main_v39
  let main_c_15 : IVec S_ 32 := constantI S_ 32 0#32
  let main_v41 : IVec S32x64 32 := broadcastInDim S32x64 ![] bcast_S_S32x64 main_c_15
  let main_v42 : IVec S32x64 1 := cmpi .sge main_arg6 main_v41
  let main_c_16 : IVec S_ 32 := constantI S_ 32 151#32
  let main_v43 : IVec S32x64 32 := broadcastInDim S32x64 ![] bcast_S_S32x64 main_c_16
  let main_v44 : IVec S32x64 1 := cmpi .slt main_arg6 main_v43
  let main_v45 : IVec S32x64 1 := andi main_v42 main_v44
  let main_c_17 : IVec S_ 1 := constantI S_ 1 1#1
  let main_v46 : IVec S_ 1 := (fun x v => Host.reduce IntOp.andi x v reducesTo_S32x64_S_d0_1 h_S_) main_v45 main_c_17
  let main_v47 : IVec S_ 1 := andi main_v40 main_v46
  let main_c_18 : IVec S_ 32 := constantI S_ 32 0#32
  let main_v48 : IVec S32x64 32 := broadcastInDim S32x64 ![] bcast_S_S32x64 main_c_18
  let main_v49 : IVec S32x64 1 := cmpi .sge main_arg9 main_v48
  let main_c_19 : IVec S_ 32 := constantI S_ 32 51#32
  fn_part3 (F := F) main_arg9 main_v47 main_v49 main_c_19

def fn_part1 {F : FTy → Type} [FloatOps F] (main_arg2 : IVec S32x64 32) (main_arg5 : FVec F S6x32x300x4 .f32) (main_arg6 : IVec S32x64 32) (main_arg7 : FVec F S32x64x4 .f32) (main_arg8 : FVec F S6x32x300x51 .f32) (main_arg9 : IVec S32x64 32) (main_v13 : IVec S_ 1) (main_v16 : IVec S6x32x300x151 1) : IVec S_ 1 :=
  let main_c_5 : IVec S_ 1 := constantI S_ 1 1#1
  let main_v17 : IVec S_ 1 := (fun x v => Host.reduce IntOp.andi x v reducesTo_S6x32x300x151_S_d0_1_2_3 h_S_) main_v16 main_c_5
  let main_v18 : IVec S_ 1 := andi main_v13 main_v17
  let main_v19 : FVec F S6x32x300x4 .f32 := Host.absf main_arg5
  let main_cst_6 : FVec F S_ .f32 := constant S_ .f32 0x7F800000#32
  let main_v20 : FVec F S6x32x300x4 .f32 := broadcastInDim S6x32x300x4 ![] bcast_S_S6x32x300x4 main_cst_6
  let main_v21 : IVec S6x32x300x4 1 := cmpf .olt main_v19 main_v20
  let main_c_7 : IVec S_ 1 := constantI S_ 1 1#1
  let main_v22 : IVec S_ 1 := (fun x v => Host.reduce IntOp.andi x v reducesTo_S6x32x300x4_S_d0_1_2_3 h_S_) main_v21 main_c_7
  let main_v23 : IVec S_ 1 := andi main_v18 main_v22
  let main_v24 : FVec F S32x64x4 .f32 := Host.absf main_arg7
  let main_cst_8 : FVec F S_ .f32 := constant S_ .f32 0x7F800000#32
  let main_v25 : FVec F S32x64x4 .f32 := broadcastInDim S32x64x4 ![] bcast_S_S32x64x4 main_cst_8
  let main_v26 : IVec S32x64x4 1 := cmpf .olt main_v24 main_v25
  let main_c_9 : IVec S_ 1 := constantI S_ 1 1#1
  let main_v27 : IVec S_ 1 := (fun x v => Host.reduce IntOp.andi x v reducesTo_S32x64x4_S_d0_1_2 h_S_) main_v26 main_c_9
  let main_v28 : IVec S_ 1 := andi main_v23 main_v27
  let main_v29 : FVec F S6x32x300x51 .f32 := Host.absf main_arg8
  let main_cst_10 : FVec F S_ .f32 := constant S_ .f32 0x7F800000#32
  let main_v30 : FVec F S6x32x300x51 .f32 := broadcastInDim S6x32x300x51 ![] bcast_S_S6x32x300x51 main_cst_10
  let main_v31 : IVec S6x32x300x51 1 := cmpf .olt main_v29 main_v30
  let main_c_11 : IVec S_ 1 := constantI S_ 1 1#1
  let main_v32 : IVec S_ 1 := (fun x v => Host.reduce IntOp.andi x v reducesTo_S6x32x300x51_S_d0_1_2_3 h_S_) main_v31 main_c_11
  let main_v33 : IVec S_ 1 := andi main_v28 main_v32
  fn_part2 (F := F) main_arg2 main_arg6 main_arg9 main_v33

def fn {F : FTy → Type} [FloatOps F] (main_arg0 : FVec F S6x32x300x151 .f32) (main_arg1 : FVec F S6x32x300x4 .f32) (main_arg2 : IVec S32x64 32) (main_arg3 : FVec F S32x64x4 .f32) (main_arg4 : FVec F S6x32x300x151 .f32) (main_arg5 : FVec F S6x32x300x4 .f32) (main_arg6 : IVec S32x64 32) (main_arg7 : FVec F S32x64x4 .f32) (main_arg8 : FVec F S6x32x300x51 .f32) (main_arg9 : IVec S32x64 32) : IVec S_ 1 :=
  let main_v0 : FVec F S6x32x300x151 .f32 := Host.absf main_arg0
  let main_cst : FVec F S_ .f32 := constant S_ .f32 0x7F800000#32
  let main_v1 : FVec F S6x32x300x151 .f32 := broadcastInDim S6x32x300x151 ![] bcast_S_S6x32x300x151 main_cst
  let main_v2 : IVec S6x32x300x151 1 := cmpf .olt main_v0 main_v1
  let main_c : IVec S_ 1 := constantI S_ 1 1#1
  let main_v3 : IVec S_ 1 := (fun x v => Host.reduce IntOp.andi x v reducesTo_S6x32x300x151_S_d0_1_2_3 h_S_) main_v2 main_c
  let main_v4 : FVec F S6x32x300x4 .f32 := Host.absf main_arg1
  let main_cst_0 : FVec F S_ .f32 := constant S_ .f32 0x7F800000#32
  let main_v5 : FVec F S6x32x300x4 .f32 := broadcastInDim S6x32x300x4 ![] bcast_S_S6x32x300x4 main_cst_0
  let main_v6 : IVec S6x32x300x4 1 := cmpf .olt main_v4 main_v5
  let main_c_1 : IVec S_ 1 := constantI S_ 1 1#1
  let main_v7 : IVec S_ 1 := (fun x v => Host.reduce IntOp.andi x v reducesTo_S6x32x300x4_S_d0_1_2_3 h_S_) main_v6 main_c_1
  let main_v8 : IVec S_ 1 := andi main_v3 main_v7
  let main_v9 : FVec F S32x64x4 .f32 := Host.absf main_arg3
  let main_cst_2 : FVec F S_ .f32 := constant S_ .f32 0x7F800000#32
  let main_v10 : FVec F S32x64x4 .f32 := broadcastInDim S32x64x4 ![] bcast_S_S32x64x4 main_cst_2
  let main_v11 : IVec S32x64x4 1 := cmpf .olt main_v9 main_v10
  let main_c_3 : IVec S_ 1 := constantI S_ 1 1#1
  let main_v12 : IVec S_ 1 := (fun x v => Host.reduce IntOp.andi x v reducesTo_S32x64x4_S_d0_1_2 h_S_) main_v11 main_c_3
  let main_v13 : IVec S_ 1 := andi main_v8 main_v12
  let main_v14 : FVec F S6x32x300x151 .f32 := Host.absf main_arg4
  let main_cst_4 : FVec F S_ .f32 := constant S_ .f32 0x7F800000#32
  let main_v15 : FVec F S6x32x300x151 .f32 := broadcastInDim S6x32x300x151 ![] bcast_S_S6x32x300x151 main_cst_4
  let main_v16 : IVec S6x32x300x151 1 := cmpf .olt main_v14 main_v15
  fn_part1 (F := F) main_arg2 main_arg5 main_arg6 main_arg7 main_arg8 main_arg9 main_v13 main_v16
-- ==== Kernel.lean ====
abbrev S6x32x300x151 : Shape := ⟨4, ![6, 32, 300, 151]⟩
abbrev S6x32x300x4 : Shape := ⟨4, ![6, 32, 300, 4]⟩
abbrev S32x64 : Shape := ⟨2, ![32, 64]⟩
abbrev S32x64x4 : Shape := ⟨3, ![32, 64, 4]⟩
abbrev S6x32x300x51 : Shape := ⟨4, ![6, 32, 300, 51]⟩
abbrev S1x32x300x151 : Shape := ⟨4, ![1, 32, 300, 151]⟩
abbrev S32x300x151 : Shape := ⟨3, ![32, 300, 151]⟩
abbrev S9600x151 : Shape := ⟨2, ![9600, 151]⟩
abbrev S1x32x300x4 : Shape := ⟨4, ![1, 32, 300, 4]⟩
abbrev S32x300x4 : Shape := ⟨3, ![32, 300, 4]⟩
abbrev S9600x4 : Shape := ⟨2, ![9600, 4]⟩
abbrev S1x32x300x51 : Shape := ⟨4, ![1, 32, 300, 51]⟩
abbrev S32x300x51 : Shape := ⟨3, ![32, 300, 51]⟩
abbrev S9600x51 : Shape := ⟨2, ![9600, 51]⟩
abbrev S2048x4 : Shape := ⟨2, ![2048, 4]⟩
abbrev S4x2048 : Shape := ⟨2, ![4, 2048]⟩
abbrev S2048 : Shape := ⟨1, ![2048]⟩
abbrev S151 : Shape := ⟨1, ![151]⟩
abbrev S151x1 : Shape := ⟨2, ![151, 1]⟩
abbrev S1x2048 : Shape := ⟨2, ![1, 2048]⟩
abbrev S151x2048 : Shape := ⟨2, ![151, 2048]⟩
abbrev S51 : Shape := ⟨1, ![51]⟩
abbrev S51x1 : Shape := ⟨2, ![51, 1]⟩
abbrev S51x2048 : Shape := ⟨2, ![51, 2048]⟩
abbrev S9600x2048 : Shape := ⟨2, ![9600, 2048]⟩
abbrev S320x151 : Shape := ⟨2, ![320, 151]⟩
abbrev S320x4 : Shape := ⟨2, ![320, 4]⟩
abbrev S320x51 : Shape := ⟨2, ![320, 51]⟩
abbrev S320x2048 : Shape := ⟨2, ![320, 2048]⟩
abbrev S320 : Shape := ⟨1, ![320]⟩
abbrev S320x1 : Shape := ⟨2, ![320, 1]⟩
abbrev S151x512 : Shape := ⟨2, ![151, 512]⟩
abbrev S4x512 : Shape := ⟨2, ![4, 512]⟩
abbrev S51x512 : Shape := ⟨2, ![51, 512]⟩
abbrev S320x512 : Shape := ⟨2, ![320, 512]⟩
abbrev S1x512 : Shape := ⟨2, ![1, 512]⟩
abbrev S512 : Shape := ⟨1, ![512]⟩
abbrev S32x300x2048 : Shape := ⟨3, ![32, 300, 2048]⟩

abbrev nBuf : Space → Nat
  | .hbm => 55
  | .vmem => 17
  | .smem => 0
  | _ => 0

abbrev bufTy : (tb : Table) → Fin (tcTables nBuf tb) → BufTy
  | .hbm, ⟨0, _⟩ => ⟨S6x32x300x151, .f32⟩
  | .hbm, ⟨1, _⟩ => ⟨S6x32x300x4, .f32⟩
  | .hbm, ⟨2, _⟩ => ⟨S32x64, .i32⟩
  | .hbm, ⟨3, _⟩ => ⟨S32x64x4, .f32⟩
  | .hbm, ⟨4, _⟩ => ⟨S6x32x300x151, .f32⟩
  | .hbm, ⟨5, _⟩ => ⟨S6x32x300x4, .f32⟩
  | .hbm, ⟨6, _⟩ => ⟨S32x64, .i32⟩
  | .hbm, ⟨7, _⟩ => ⟨S32x64x4, .f32⟩
  | .hbm, ⟨8, _⟩ => ⟨S6x32x300x51, .f32⟩
  | .hbm, ⟨9, _⟩ => ⟨S32x64, .i32⟩
  | .hbm, ⟨10, _⟩ => ⟨S1x32x300x151, .f32⟩
  | .hbm, ⟨11, _⟩ => ⟨S32x300x151, .f32⟩
  | .hbm, ⟨12, _⟩ => ⟨S9600x151, .f32⟩
  | .hbm, ⟨13, _⟩ => ⟨S1x32x300x4, .f32⟩
  | .hbm, ⟨14, _⟩ => ⟨S32x300x4, .f32⟩
  | .hbm, ⟨15, _⟩ => ⟨S9600x4, .f32⟩
  | .hbm, ⟨16, _⟩ => ⟨S1x32x300x151, .f32⟩
  | .hbm, ⟨17, _⟩ => ⟨S32x300x151, .f32⟩
  | .hbm, ⟨18, _⟩ => ⟨S9600x151, .f32⟩
  | .hbm, ⟨19, _⟩ => ⟨S1x32x300x4, .f32⟩
  | .hbm, ⟨20, _⟩ => ⟨S32x300x4, .f32⟩
  | .hbm, ⟨21, _⟩ => ⟨S9600x4, .f32⟩
  | .hbm, ⟨22, _⟩ => ⟨S1x32x300x51, .f32⟩
  | .hbm, ⟨23, _⟩ => ⟨S32x300x51, .f32⟩
  | .hbm, ⟨24, _⟩ => ⟨S9600x51, .f32⟩
  | .hbm, ⟨25, _⟩ => ⟨S2048x4, .f32⟩
  | .hbm, ⟨26, _⟩ => ⟨S4x2048, .f32⟩
  | .hbm, ⟨27, _⟩ => ⟨S2048x4, .f32⟩
  | .hbm, ⟨28, _⟩ => ⟨S4x2048, .f32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S151, .i32⟩
  | .hbm, ⟨33, _⟩ => ⟨S151x1, .i32⟩
  | .hbm, ⟨34, _⟩ => ⟨S1x2048, .i32⟩
  | .hbm, ⟨35, _⟩ => ⟨S151x2048, .i32⟩
  | .hbm, ⟨36, _⟩ => ⟨S151x2048, .i32⟩
  | .hbm, ⟨37, _⟩ => ⟨S151x2048, .i1⟩
  | .hbm, ⟨38, _⟩ => ⟨S151x2048, .bf16⟩
  | .hbm, ⟨39, _⟩ => ⟨S151, .i32⟩
  | .hbm, ⟨40, _⟩ => ⟨S151x1, .i32⟩
  | .hbm, ⟨41, _⟩ => ⟨S1x2048, .i32⟩
  | .hbm, ⟨42, _⟩ => ⟨S151x2048, .i32⟩
  | .hbm, ⟨43, _⟩ => ⟨S151x2048, .i32⟩
  | .hbm, ⟨44, _⟩ => ⟨S151x2048, .i1⟩
  | .hbm, ⟨45, _⟩ => ⟨S151x2048, .bf16⟩
  | .hbm, ⟨46, _⟩ => ⟨S51, .i32⟩
  | .hbm, ⟨47, _⟩ => ⟨S51x1, .i32⟩
  | .hbm, ⟨48, _⟩ => ⟨S1x2048, .i32⟩
  | .hbm, ⟨49, _⟩ => ⟨S51x2048, .i32⟩
  | .hbm, ⟨50, _⟩ => ⟨S51x2048, .i32⟩
  | .hbm, ⟨51, _⟩ => ⟨S51x2048, .i1⟩
  | .hbm, ⟨52, _⟩ => ⟨S51x2048, .bf16⟩
  | .hbm, ⟨53, _⟩ => ⟨S9600x2048, .f32⟩
  | .hbm, ⟨54, _⟩ => ⟨S32x300x2048, .f32⟩
  | .local _ .vmem, ⟨0, _⟩ => ⟨S320x151, .f32⟩
  | .local _ .vmem, ⟨1, _⟩ => ⟨S320x151, .f32⟩
  | .local _ .vmem, ⟨2, _⟩ => ⟨S320x4, .f32⟩
  | .local _ .vmem, ⟨3, _⟩ => ⟨S320x4, .f32⟩
  | .local _ .vmem, ⟨4, _⟩ => ⟨S151x2048, .bf16⟩
  | .local _ .vmem, ⟨5, _⟩ => ⟨S4x2048, .f32⟩
  | .local _ .vmem, ⟨6, _⟩ => ⟨S320x151, .f32⟩
  | .local _ .vmem, ⟨7, _⟩ => ⟨S320x151, .f32⟩
  | .local _ .vmem, ⟨8, _⟩ => ⟨S320x4, .f32⟩
  | .local _ .vmem, ⟨9, _⟩ => ⟨S320x4, .f32⟩
  | .local _ .vmem, ⟨10, _⟩ => ⟨S151x2048, .bf16⟩
  | .local _ .vmem, ⟨11, _⟩ => ⟨S4x2048, .f32⟩
  | .local _ .vmem, ⟨12, _⟩ => ⟨S320x51, .f32⟩
  | .local _ .vmem, ⟨13, _⟩ => ⟨S320x51, .f32⟩
  | .local _ .vmem, ⟨14, _⟩ => ⟨S51x2048, .bf16⟩
  | .local _ .vmem, ⟨15, _⟩ => ⟨S320x2048, .f32⟩
  | .local _ .vmem, ⟨16, _⟩ => ⟨S320x2048, .f32⟩
  | _, _ => ⟨S6x32x300x151, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x151 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S151x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x151 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S151x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x51 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S51x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S320x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S6x32x300x151_S1x32x300x151_5_0_0_0 : S6x32x300x151.Slices ![5, 0, 0, 0] S1x32x300x151
  shapeCasts_S1x32x300x151_S32x300x151 : S1x32x300x151.ShapeCasts S32x300x151
  shapeCasts_S32x300x151_S9600x151 : S32x300x151.ShapeCasts S9600x151
  slices_S6x32x300x4_S1x32x300x4_5_0_0_0 : S6x32x300x4.Slices ![5, 0, 0, 0] S1x32x300x4
  shapeCasts_S1x32x300x4_S32x300x4 : S1x32x300x4.ShapeCasts S32x300x4
  shapeCasts_S32x300x4_S9600x4 : S32x300x4.ShapeCasts S9600x4
  slices_S6x32x300x51_S1x32x300x51_5_0_0_0 : S6x32x300x51.Slices ![5, 0, 0, 0] S1x32x300x51
  shapeCasts_S1x32x300x51_S32x300x51 : S1x32x300x51.ShapeCasts S32x300x51
  shapeCasts_S32x300x51_S9600x51 : S32x300x51.ShapeCasts S9600x51
  shapeCasts_S32x64x4_S2048x4 : S32x64x4.ShapeCasts S2048x4
  transposes_S2048x4_S4x2048_1_0 : S2048x4.Transposes [1, 0] S4x2048
  shapeCasts_S32x64_S2048 : S32x64.ShapeCasts S2048
  bcast_S151_S151x1_0 : S151.BroadcastsInDim S151x1 (![0] : Fin 1 → Fin S151x1.rank)
  bcast_S2048_S1x2048_1 : S2048.BroadcastsInDim S1x2048 (![1] : Fin 1 → Fin S1x2048.rank)
  bcast_S151x1_S151x2048_0_1 : S151x1.BroadcastsInDim S151x2048 (![0, 1] : Fin 2 → Fin S151x2048.rank)
  bcast_S1x2048_S151x2048_0_1 : S1x2048.BroadcastsInDim S151x2048 (![0, 1] : Fin 2 → Fin S151x2048.rank)
  bcast_S51_S51x1_0 : S51.BroadcastsInDim S51x1 (![0] : Fin 1 → Fin S51x1.rank)
  bcast_S51x1_S51x2048_0_1 : S51x1.BroadcastsInDim S51x2048 (![0, 1] : Fin 2 → Fin S51x2048.rank)
  bcast_S1x2048_S51x2048_0_1 : S1x2048.BroadcastsInDim S51x2048 (![0, 1] : Fin 2 → Fin S51x2048.rank)
  inb_S320x151_S320x151_0_0 : ∀ a, (![0, 0] : Fin 2 → Nat) a + S320x151.size a ≤ S320x151.size a
  h_S320x151 : 0 < S320x151.numel
  shapeCasts_S320x151_S320x151 : S320x151.ShapeCasts S320x151
  reduces_S320x151_S320 : S320x151.Reduces [1] S320
  shapeCasts_S320_S320x1 : S320.ShapeCasts S320x1
  broadcasts_S320x1_S320x151 : S320x1.Broadcasts S320x151
  bitsLt_bf16_f32 : FTy.bits .bf16 < FTy.bits .f32
  inb_S320x51_S320x51_0_0 : ∀ a, (![0, 0] : Fin 2 → Nat) a + S320x51.size a ≤ S320x51.size a
  h_S320x51 : 0 < S320x51.numel
  shapeCasts_S320x51_S320x51 : S320x51.ShapeCasts S320x51
  reduces_S320x51_S320 : S320x51.Reduces [1] S320
  broadcasts_S320x1_S320x51 : S320x1.Broadcasts S320x51
  inb_S320x4_S320x4_0_0 : ∀ a, (![0, 0] : Fin 2 → Nat) a + S320x4.size a ≤ S320x4.size a
  h_S320x4 : 0 < S320x4.numel
  shapeCasts_S320x4_S320x4 : S320x4.ShapeCasts S320x4
  slices_S320x4_o0_0_S320x1 : S320x4.Slices ![0, 0] S320x1
  shapeCasts_S320x1_S320 : S320x1.ShapeCasts S320
  slices_S320x4_o0_1_S320x1 : S320x4.Slices ![0, 1] S320x1
  slices_S320x4_o0_2_S320x1 : S320x4.Slices ![0, 2] S320x1
  slices_S320x4_o0_3_S320x1 : S320x4.Slices ![0, 3] S320x1
  inb_S151x2048_S151x512_0_0 : ∀ a, (![0, 0] : Fin 2 → Nat) a + S151x512.size a ≤ S151x2048.size a
  h_S151x512 : 0 < S151x512.numel
  shapeCasts_S151x512_S151x512 : S151x512.ShapeCasts S151x512
  inb_S4x2048_S4x512_0_0 : ∀ a, (![0, 0] : Fin 2 → Nat) a + S4x512.size a ≤ S4x2048.size a
  h_S4x512 : 0 < S4x512.numel
  shapeCasts_S4x512_S4x512 : S4x512.ShapeCasts S4x512
  inb_S51x2048_S51x512_0_0 : ∀ a, (![0, 0] : Fin 2 → Nat) a + S51x512.size a ≤ S51x2048.size a
  h_S51x512 : 0 < S51x512.numel
  shapeCasts_S51x512_S51x512 : S51x512.ShapeCasts S51x512
  slices_S4x512_o0_0_S1x512 : S4x512.Slices ![0, 0] S1x512
  shapeCasts_S1x512_S512 : S1x512.ShapeCasts S512
  slices_S4x512_o1_0_S1x512 : S4x512.Slices ![1, 0] S1x512
  slices_S4x512_o2_0_S1x512 : S4x512.Slices ![2, 0] S1x512
  slices_S4x512_o3_0_S1x512 : S4x512.Slices ![3, 0] S1x512
  shapeCasts_S512_S1x512 : S512.ShapeCasts S1x512
  broadcasts_S320x1_S320x512 : S320x1.Broadcasts S320x512
  broadcasts_S1x512_S320x512 : S1x512.Broadcasts S320x512
  inb_S320x2048_S320x512_0_0 : ∀ a, (![0, 0] : Fin 2 → Nat) a + S320x512.size a ≤ S320x2048.size a
  h_S320x512 : 0 < S320x512.numel
  inb_S151x2048_S151x512_0_512 : ∀ a, (![0, 512] : Fin 2 → Nat) a + S151x512.size a ≤ S151x2048.size a
  inb_S4x2048_S4x512_0_512 : ∀ a, (![0, 512] : Fin 2 → Nat) a + S4x512.size a ≤ S4x2048.size a
  inb_S51x2048_S51x512_0_512 : ∀ a, (![0, 512] : Fin 2 → Nat) a + S51x512.size a ≤ S51x2048.size a
  inb_S320x2048_S320x512_0_512 : ∀ a, (![0, 512] : Fin 2 → Nat) a + S320x512.size a ≤ S320x2048.size a
  inb_S151x2048_S151x512_0_1024 : ∀ a, (![0, 1024] : Fin 2 → Nat) a + S151x512.size a ≤ S151x2048.size a
  inb_S4x2048_S4x512_0_1024 : ∀ a, (![0, 1024] : Fin 2 → Nat) a + S4x512.size a ≤ S4x2048.size a
  inb_S51x2048_S51x512_0_1024 : ∀ a, (![0, 1024] : Fin 2 → Nat) a + S51x512.size a ≤ S51x2048.size a
  inb_S320x2048_S320x512_0_1024 : ∀ a, (![0, 1024] : Fin 2 → Nat) a + S320x512.size a ≤ S320x2048.size a
  inb_S151x2048_S151x512_0_1536 : ∀ a, (![0, 1536] : Fin 2 → Nat) a + S151x512.size a ≤ S151x2048.size a
  inb_S4x2048_S4x512_0_1536 : ∀ a, (![0, 1536] : Fin 2 → Nat) a + S4x512.size a ≤ S4x2048.size a
  inb_S51x2048_S51x512_0_1536 : ∀ a, (![0, 1536] : Fin 2 → Nat) a + S51x512.size a ≤ S51x2048.size a
  inb_S320x2048_S320x512_0_1536 : ∀ a, (![0, 1536] : Fin 2 → Nat) a + S320x512.size a ≤ S320x2048.size a
  shapeCasts_S9600x2048_S32x300x2048 : S9600x2048.ShapeCasts S32x300x2048
  dot_S320x151_S151x512_S320x512_1_0_0_1_n_n_wf : DotDims.WF S320x151 S151x512 S320x512 [1] [0] [0] [1] [] []
  dot_S320x51_S51x512_S320x512_1_0_0_1_n_n_wf : DotDims.WF S320x51 S51x512 S320x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x151.size a ≤ S9600x151.size a
  hwx0_0 : ∀ i : grid0.Coords, EltTy.bits .f32 = 32 ∨ (Rect.block (s := S9600x151) S320x151.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S320x4.size a ≤ S9600x4.size a
  hwx0_1 : ∀ i : grid0.Coords, EltTy.bits .f32 = 32 ∨ (Rect.block (s := S9600x4) S320x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S151x2048.size a ≤ S151x2048.size a
  hwx0_2 : ∀ i : grid0.Coords, EltTy.bits .bf16 = 32 ∨ (Rect.block (s := S151x2048) S151x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x2048.size a
  hwx0_3 : ∀ i : grid0.Coords, EltTy.bits .f32 = 32 ∨ (Rect.block (s := S4x2048) S4x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S320x151.size a ≤ S9600x151.size a
  hwx0_4 : ∀ i : grid0.Coords, EltTy.bits .f32 = 32 ∨ (Rect.block (s := S9600x151) S320x151.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S320x4.size a ≤ S9600x4.size a
  hwx0_5 : ∀ i : grid0.Coords, EltTy.bits .f32 = 32 ∨ (Rect.block (s := S9600x4) S320x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S151x2048.size a ≤ S151x2048.size a
  hwx0_6 : ∀ i : grid0.Coords, EltTy.bits .bf16 = 32 ∨ (Rect.block (s := S151x2048) S151x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x2048.size a ≤ S4x2048.size a
  hwx0_7 : ∀ i : grid0.Coords, EltTy.bits .f32 = 32 ∨ (Rect.block (s := S4x2048) S4x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S320x51.size a ≤ S9600x51.size a
  hwx0_8 : ∀ i : grid0.Coords, EltTy.bits .f32 = 32 ∨ (Rect.block (s := S9600x51) S320x51.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S51x2048.size a ≤ S51x2048.size a
  hwx0_9 : ∀ i : grid0.Coords, EltTy.bits .bf16 = 32 ∨ (Rect.block (s := S51x2048) S51x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S320x2048.size a ≤ S9600x2048.size a
  hwx0_10 : ∀ i : grid0.Coords, EltTy.bits .f32 = 32 ∨ (Rect.block (s := S9600x2048) S320x2048.size (cc0_transform_10 i) (hinb0_10 i)).WholeWords (EltTy.packing .f32)

variable [Facts₀]

def dot_S320x151_S151x512_S320x512_1_0_0_1_n_n : DotDims S320x151 S151x512 S320x512 where
  lhsContracting := [1]
  rhsContracting := [0]
  lhsNonContracting := [0]
  rhsNonContracting := [1]
  lhsBatch := []
  rhsBatch := []
  wf := dot_S320x151_S151x512_S320x512_1_0_0_1_n_n_wf
def dot_S320x51_S51x512_S320x512_1_0_0_1_n_n : DotDims S320x51 S51x512 S320x512 where
  lhsContracting := [1]
  rhsContracting := [0]
  lhsNonContracting := [0]
  rhsNonContracting := [1]
  lhsBatch := []
  rhsBatch := []
  wf := dot_S320x51_S51x512_S320x512_1_0_0_1_n_n_wf

abbrev win0_0 : Pipeline.Window sig grid0 :=
  Pipeline.Window.ofSpec (Memref.whole main_v2) S320x151.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S320x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S151x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S320x151.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S320x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35) S151x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S4x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S320x51.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v42) S51x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S320x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S6x32x300x151 : Shape := ⟨4, ![6, 32, 300, 151]⟩
abbrev S6x32x300x4 : Shape := ⟨4, ![6, 32, 300, 4]⟩
abbrev S32x64 : Shape := ⟨2, ![32, 64]⟩
abbrev S32x64x4 : Shape := ⟨3, ![32, 64, 4]⟩
abbrev S6x32x300x51 : Shape := ⟨4, ![6, 32, 300, 51]⟩
abbrev S1x32x300x151 : Shape := ⟨4, ![1, 32, 300, 151]⟩
abbrev S32x300x151 : Shape := ⟨3, ![32, 300, 151]⟩
abbrev S9600x151 : Shape := ⟨2, ![9600, 151]⟩
abbrev S_ : Shape := ⟨0, ![]⟩
abbrev S9600 : Shape := ⟨1, ![9600]⟩
abbrev S9600x1 : Shape := ⟨2, ![9600, 1]⟩
abbrev S1x32x300x4 : Shape := ⟨4, ![1, 32, 300, 4]⟩
abbrev S32x300x4 : Shape := ⟨3, ![32, 300, 4]⟩
abbrev S9600x4 : Shape := ⟨2, ![9600, 4]⟩
abbrev S2048 : Shape := ⟨1, ![2048]⟩
abbrev S2048x4 : Shape := ⟨2, ![2048, 4]⟩
abbrev S2048x1 : Shape := ⟨2, ![2048, 1]⟩
abbrev S9600x2048 : Shape := ⟨2, ![9600, 2048]⟩
abbrev S9600x1x4 : Shape := ⟨3, ![9600, 1, 4]⟩
abbrev S1x2048x4 : Shape := ⟨3, ![1, 2048, 4]⟩
abbrev S9600x2048x4 : Shape := ⟨3, ![9600, 2048, 4]⟩
abbrev S9600x2 : Shape := ⟨2, ![9600, 2]⟩
abbrev S9600x1x2 : Shape := ⟨3, ![9600, 1, 2]⟩
abbrev S2048x2 : Shape := ⟨2, ![2048, 2]⟩
abbrev S1x2048x2 : Shape := ⟨3, ![1, 2048, 2]⟩
abbrev S9600x2048x2 : Shape := ⟨3, ![9600, 2048, 2]⟩
abbrev S9600x2048x1 : Shape := ⟨3, ![9600, 2048, 1]⟩
abbrev S1x2048 : Shape := ⟨2, ![1, 2048]⟩
abbrev S1x32x300x51 : Shape := ⟨4, ![1, 32, 300, 51]⟩
abbrev S32x300x51 : Shape := ⟨3, ![32, 300, 51]⟩
abbrev S9600x51 : Shape := ⟨2, ![9600, 51]⟩
abbrev S32x300x2048 : Shape := ⟨3, ![32, 300, 2048]⟩

abbrev nBuf : Space → Nat
  | .hbm => 397
  | .vmem => 0
  | .smem => 0
  | _ => 0

abbrev hbmTy0_0 (i : Nat) : BufTy := match i % 128 with
  | 0 => ⟨S6x32x300x151, .f32⟩
  | 1 => ⟨S6x32x300x4, .f32⟩
  | 2 => ⟨S32x64, .i32⟩
  | 3 => ⟨S32x64x4, .f32⟩
  | 4 => ⟨S6x32x300x151, .f32⟩
  | 5 => ⟨S6x32x300x4, .f32⟩
  | 6 => ⟨S32x64, .i32⟩
  | 7 => ⟨S32x64x4, .f32⟩
  | 8 => ⟨S6x32x300x51, .f32⟩
  | 9 => ⟨S32x64, .i32⟩
  | 10 => ⟨S1x32x300x151, .f32⟩
  | 11 => ⟨S32x300x151, .f32⟩
  | 12 => ⟨S9600x151, .f32⟩
  | 13 => ⟨S_, .f32⟩
  | 14 => ⟨S9600, .f32⟩
  | 15 => ⟨S_, .f32⟩
  | 16 => ⟨S9600, .f32⟩
  | 17 => ⟨S9600, .f32⟩
  | 18 => ⟨S9600x1, .f32⟩
  | 19 => ⟨S9600x151, .f32⟩
  | 20 => ⟨S9600x151, .f32⟩
  | 21 => ⟨S9600x151, .f32⟩
  | 22 => ⟨S_, .f32⟩
  | 23 => ⟨S9600, .f32⟩
  | 24 => ⟨S9600x1, .f32⟩
  | 25 => ⟨S9600x151, .f32⟩
  | 26 => ⟨S9600x151, .f32⟩
  | 27 => ⟨S1x32x300x4, .f32⟩
  | 28 => ⟨S32x300x4, .f32⟩
  | 29 => ⟨S9600x4, .f32⟩
  | 30 => ⟨S2048, .i32⟩
  | 31 => ⟨S2048x4, .f32⟩
  | 32 => ⟨S_, .i32⟩
  | 33 => ⟨S2048, .i32⟩
  | 34 => ⟨S2048, .i1⟩
  | 35 => ⟨S_, .i32⟩
  | 36 => ⟨S2048, .i32⟩
  | 37 => ⟨S2048, .i32⟩
  | 38 => ⟨S2048, .i32⟩
  | 39 => ⟨S2048x1, .i32⟩
  | 40 => ⟨S9600x2048, .f32⟩
  | 41 => ⟨S9600x2048, .f32⟩
  | 42 => ⟨S9600x1x4, .f32⟩
  | 43 => ⟨S1x2048x4, .f32⟩
  | 44 => ⟨S9600x2048x4, .f32⟩
  | 45 => ⟨S9600x2048x4, .f32⟩
  | 46 => ⟨S9600x2048x4, .f32⟩
  | 47 => ⟨S9600x2048x4, .f32⟩
  | 48 => ⟨S_, .f32⟩
  | 49 => ⟨S9600x2048, .f32⟩
  | 50 => ⟨S9600x1, .f32⟩
  | 51 => ⟨S9600x1, .f32⟩
  | 52 => ⟨S9600x1, .f32⟩
  | 53 => ⟨S9600x1, .f32⟩
  | 54 => ⟨S_, .f32⟩
  | 55 => ⟨S9600x1, .f32⟩
  | 56 => ⟨S9600x1, .f32⟩
  | 57 => ⟨S9600x1, .f32⟩
  | 58 => ⟨S_, .f32⟩
  | 59 => ⟨S9600x1, .f32⟩
  | 60 => ⟨S9600x1, .f32⟩
  | 61 => ⟨S9600x1, .f32⟩
  | 62 => ⟨S_, .f32⟩
  | 63 => ⟨S9600x1, .f32⟩
  | 64 => ⟨S9600x1, .f32⟩
  | 65 => ⟨S9600x1, .f32⟩
  | 66 => ⟨S_, .f32⟩
  | 67 => ⟨S9600x1, .f32⟩
  | 68 => ⟨S9600x1, .f32⟩
  | 69 => ⟨S9600x1, .f32⟩
  | 70 => ⟨S9600x4, .f32⟩
  | 71 => ⟨S2048x1, .f32⟩
  | 72 => ⟨S2048x1, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x1, .f32⟩
  | 79 => ⟨S_, .f32⟩
  | 80 => ⟨S2048x1, .f32⟩
  | 81 => ⟨S2048x1, .f32⟩
  | 82 => ⟨S2048x1, .f32⟩
  | 83 => ⟨S_, .f32⟩
  | 84 => ⟨S2048x1, .f32⟩
  | 85 => ⟨S2048x1, .f32⟩
  | 86 => ⟨S2048x1, .f32⟩
  | 87 => ⟨S_, .f32⟩
  | 88 => ⟨S2048x1, .f32⟩
  | 89 => ⟨S2048x1, .f32⟩
  | 90 => ⟨S2048x1, .f32⟩
  | 91 => ⟨S2048x4, .f32⟩
  | 92 => ⟨S9600x1, .f32⟩
  | 93 => ⟨S9600, .f32⟩
  | 94 => ⟨S9600x1, .f32⟩
  | 95 => ⟨S9600, .f32⟩
  | 96 => ⟨S9600, .f32⟩
  | 97 => ⟨S9600x1, .f32⟩
  | 98 => ⟨S9600, .f32⟩
  | 99 => ⟨S9600x1, .f32⟩
  | 100 => ⟨S9600, .f32⟩
  | 101 => ⟨S9600, .f32⟩
  | 102 => ⟨S9600, .f32⟩
  | 103 => ⟨S2048x1, .f32⟩
  | 104 => ⟨S2048, .f32⟩
  | 105 => ⟨S2048x1, .f32⟩
  | 106 => ⟨S2048, .f32⟩
  | 107 => ⟨S2048, .f32⟩
  | 108 => ⟨S2048x1, .f32⟩
  | 109 => ⟨S2048, .f32⟩
  | 110 => ⟨S2048x1, .f32⟩
  | 111 => ⟨S2048, .f32⟩
  | 112 => ⟨S2048, .f32⟩
  | 113 => ⟨S2048, .f32⟩
  | 114 => ⟨S9600x2, .f32⟩
  | 115 => ⟨S9600x1x2, .f32⟩
  | 116 => ⟨S2048x2, .f32⟩
  | 117 => ⟨S1x2048x2, .f32⟩
  | 118 => ⟨S9600x2048x2, .f32⟩
  | 119 => ⟨S9600x2048x2, .f32⟩
  | 120 => ⟨S9600x2048x2, .f32⟩
  | 121 => ⟨S9600x2, .f32⟩
  | 122 => ⟨S9600x1x2, .f32⟩
  | 123 => ⟨S2048x2, .f32⟩
  | 124 => ⟨S1x2048x2, .f32⟩
  | 125 => ⟨S9600x2048x2, .f32⟩
  | 126 => ⟨S9600x2048x2, .f32⟩
  | 127 => ⟨S9600x2048x2, .f32⟩
  | _ => ⟨S6x32x300x151, .f32⟩

abbrev hbmTy0_1 (i : Nat) : BufTy := match i % 128 with
  | 0 => ⟨S9600x2048x2, .f32⟩
  | 1 => ⟨S_, .f32⟩
  | 2 => ⟨S_, .f32⟩
  | 3 => ⟨S9600x2048x2, .f32⟩
  | 4 => ⟨S9600x2048x2, .f32⟩
  | 5 => ⟨S9600x2048x1, .f32⟩
  | 6 => ⟨S9600x2048, .f32⟩
  | 7 => ⟨S9600x2048x1, .f32⟩
  | 8 => ⟨S9600x2048, .f32⟩
  | 9 => ⟨S9600x2048, .f32⟩
  | 10 => ⟨S9600x1, .f32⟩
  | 11 => ⟨S1x2048, .f32⟩
  | 12 => ⟨S9600x2048, .f32⟩
  | 13 => ⟨S9600x2048, .f32⟩
  | 14 => ⟨S9600x2048, .f32⟩
  | 15 => ⟨S9600x2048, .f32⟩
  | 16 => ⟨S9600x2048, .f32⟩
  | 17 => ⟨S9600x2, .f32⟩
  | 18 => ⟨S9600x1x2, .f32⟩
  | 19 => ⟨S2048x2, .f32⟩
  | 20 => ⟨S1x2048x2, .f32⟩
  | 21 => ⟨S9600x2048x2, .f32⟩
  | 22 => ⟨S9600x2048x2, .f32⟩
  | 23 => ⟨S9600x2048x2, .f32⟩
  | 24 => ⟨S9600x2, .f32⟩
  | 25 => ⟨S9600x1x2, .f32⟩
  | 26 => ⟨S2048x2, .f32⟩
  | 27 => ⟨S1x2048x2, .f32⟩
  | 28 => ⟨S9600x2048x2, .f32⟩
  | 29 => ⟨S9600x2048x2, .f32⟩
  | 30 => ⟨S9600x2048x2, .f32⟩
  | 31 => ⟨S9600x2048x2, .f32⟩
  | 32 => ⟨S_, .f32⟩
  | 33 => ⟨S_, .f32⟩
  | 34 => ⟨S9600x2048x2, .f32⟩
  | 35 => ⟨S9600x2048x2, .f32⟩
  | 36 => ⟨S9600x2048x1, .f32⟩
  | 37 => ⟨S9600x2048, .f32⟩
  | 38 => ⟨S9600x2048x1, .f32⟩
  | 39 => ⟨S9600x2048, .f32⟩
  | 40 => ⟨S9600x2048, .f32⟩
  | 41 => ⟨S9600x2048, .f32⟩
  | 42 => ⟨S9600x2048, .f32⟩
  | 43 => ⟨S9600x2048, .f32⟩
  | 44 => ⟨S9600x2048, .f32⟩
  | 45 => ⟨S_, .f32⟩
  | 46 => ⟨S9600x2048, .f32⟩
  | 47 => ⟨S9600x2048, .f32⟩
  | 48 => ⟨S_, .f32⟩
  | 49 => ⟨S9600x2048, .f32⟩
  | 50 => ⟨S9600x2048, .f32⟩
  | 51 => ⟨S9600x2048, .f32⟩
  | 52 => ⟨S_, .f32⟩
  | 53 => ⟨S9600x2048, .f32⟩
  | 54 => ⟨S9600x2048, .f32⟩
  | 55 => ⟨S9600x2048, .f32⟩
  | 56 => ⟨S1x32x300x151, .f32⟩
  | 57 => ⟨S32x300x151, .f32⟩
  | 58 => ⟨S9600x151, .f32⟩
  | 59 => ⟨S_, .f32⟩
  | 60 => ⟨S9600, .f32⟩
  | 61 => ⟨S_, .f32⟩
  | 62 => ⟨S9600, .f32⟩
  | 63 => ⟨S9600, .f32⟩
  | 64 => ⟨S9600x1, .f32⟩
  | 65 => ⟨S9600x151, .f32⟩
  | 66 => ⟨S9600x151, .f32⟩
  | 67 => ⟨S9600x151, .f32⟩
  | 68 => ⟨S_, .f32⟩
  | 69 => ⟨S9600, .f32⟩
  | 70 => ⟨S9600x1, .f32⟩
  | 71 => ⟨S9600x151, .f32⟩
  | 72 => ⟨S9600x151, .f32⟩
  | 73 => ⟨S1x32x300x4, .f32⟩
  | 74 => ⟨S32x300x4, .f32⟩
  | 75 => ⟨S9600x4, .f32⟩
  | 76 => ⟨S2048, .i32⟩
  | 77 => ⟨S2048x4, .f32⟩
  | 78 => ⟨S_, .i32⟩
  | 79 => ⟨S2048, .i32⟩
  | 80 => ⟨S2048, .i1⟩
  | 81 => ⟨S_, .i32⟩
  | 82 => ⟨S2048, .i32⟩
  | 83 => ⟨S2048, .i32⟩
  | 84 => ⟨S2048, .i32⟩
  | 85 => ⟨S2048x1, .i32⟩
  | 86 => ⟨S9600x2048, .f32⟩
  | 87 => ⟨S9600x2048, .f32⟩
  | 88 => ⟨S9600x1x4, .f32⟩
  | 89 => ⟨S1x2048x4, .f32⟩
  | 90 => ⟨S9600x2048x4, .f32⟩
  | 91 => ⟨S9600x2048x4, .f32⟩
  | 92 => ⟨S9600x2048x4, .f32⟩
  | 93 => ⟨S9600x2048x4, .f32⟩
  | 94 => ⟨S_, .f32⟩
  | 95 => ⟨S9600x2048, .f32⟩
  | 96 => ⟨S_, .f32⟩
  | 97 => ⟨S_, .f32⟩
  | 98 => ⟨S9600x2048, .f32⟩
  | 99 => ⟨S9600x2048, .f32⟩
  | 100 => ⟨S9600x2048, .f32⟩
  | 101 => ⟨S9600x1, .f32⟩
  | 102 => ⟨S9600x1, .f32⟩
  | 103 => ⟨S9600x1, .f32⟩
  | 104 => ⟨S9600x1, .f32⟩
  | 105 => ⟨S_, .f32⟩
  | 106 => ⟨S9600x1, .f32⟩
  | 107 => ⟨S9600x1, .f32⟩
  | 108 => ⟨S9600x1, .f32⟩
  | 109 => ⟨S_, .f32⟩
  | 110 => ⟨S9600x1, .f32⟩
  | 111 => ⟨S9600x1, .f32⟩
  | 112 => ⟨S9600x1, .f32⟩
  | 113 => ⟨S_, .f32⟩
  | 114 => ⟨S9600x1, .f32⟩
  | 115 => ⟨S9600x1, .f32⟩
  | 116 => ⟨S9600x1, .f32⟩
  | 117 => ⟨S_, .f32⟩
  | 118 => ⟨S9600x1, .f32⟩
  | 119 => ⟨S9600x1, .f32⟩
  | 120 => ⟨S9600x1, .f32⟩
  | 121 => ⟨S9600x4, .f32⟩
  | 122 => ⟨S2048x1, .f32⟩
  | 123 => ⟨S2048x1, .f32⟩
  | 124 => ⟨S2048x1, .f32⟩
  | 125 => ⟨S2048x1, .f32⟩
  | 126 => ⟨S_, .f32⟩
  | 127 => ⟨S2048x1, .f32⟩
  | _ => ⟨S6x32x300x151, .f32⟩

abbrev hbmTy0_2 (i : Nat) : BufTy := match i % 128 with
  | 0 => ⟨S2048x1, .f32⟩
  | 1 => ⟨S2048x1, .f32⟩
  | 2 => ⟨S_, .f32⟩
  | 3 => ⟨S2048x1, .f32⟩
  | 4 => ⟨S2048x1, .f32⟩
  | 5 => ⟨S2048x1, .f32⟩
  | 6 => ⟨S_, .f32⟩
  | 7 => ⟨S2048x1, .f32⟩
  | 8 => ⟨S2048x1, .f32⟩
  | 9 => ⟨S2048x1, .f32⟩
  | 10 => ⟨S_, .f32⟩
  | 11 => ⟨S2048x1, .f32⟩
  | 12 => ⟨S2048x1, .f32⟩
  | 13 => ⟨S2048x1, .f32⟩
  | 14 => ⟨S2048x4, .f32⟩
  | 15 => ⟨S9600x1, .f32⟩
  | 16 => ⟨S9600, .f32⟩
  | 17 => ⟨S9600x1, .f32⟩
  | 18 => ⟨S9600, .f32⟩
  | 19 => ⟨S9600, .f32⟩
  | 20 => ⟨S9600x1, .f32⟩
  | 21 => ⟨S9600, .f32⟩
  | 22 => ⟨S9600x1, .f32⟩
  | 23 => ⟨S9600, .f32⟩
  | 24 => ⟨S9600, .f32⟩
  | 25 => ⟨S9600, .f32⟩
  | 26 => ⟨S2048x1, .f32⟩
  | 27 => ⟨S2048, .f32⟩
  | 28 => ⟨S2048x1, .f32⟩
  | 29 => ⟨S2048, .f32⟩
  | 30 => ⟨S2048, .f32⟩
  | 31 => ⟨S2048x1, .f32⟩
  | 32 => ⟨S2048, .f32⟩
  | 33 => ⟨S2048x1, .f32⟩
  | 34 => ⟨S2048, .f32⟩
  | 35 => ⟨S2048, .f32⟩
  | 36 => ⟨S2048, .f32⟩
  | 37 => ⟨S9600x2, .f32⟩
  | 38 => ⟨S9600x1x2, .f32⟩
  | 39 => ⟨S2048x2, .f32⟩
  | 40 => ⟨S1x2048x2, .f32⟩
  | 41 => ⟨S9600x2048x2, .f32⟩
  | 42 => ⟨S9600x2048x2, .f32⟩
  | 43 => ⟨S9600x2048x2, .f32⟩
  | 44 => ⟨S9600x2, .f32⟩
  | 45 => ⟨S9600x1x2, .f32⟩
  | 46 => ⟨S2048x2, .f32⟩
  | 47 => ⟨S1x2048x2, .f32⟩
  | 48 => ⟨S9600x2048x2, .f32⟩
  | 49 => ⟨S9600x2048x2, .f32⟩
  | 50 => ⟨S9600x2048x2, .f32⟩
  | 51 => ⟨S9600x2048x2, .f32⟩
  | 52 => ⟨S_, .f32⟩
  | 53 => ⟨S_, .f32⟩
  | 54 => ⟨S9600x2048x2, .f32⟩
  | 55 => ⟨S9600x2048x2, .f32⟩
  | 56 => ⟨S9600x2048x1, .f32⟩
  | 57 => ⟨S9600x2048, .f32⟩
  | 58 => ⟨S9600x2048x1, .f32⟩
  | 59 => ⟨S9600x2048, .f32⟩
  | 60 => ⟨S9600x2048, .f32⟩
  | 61 => ⟨S9600x1, .f32⟩
  | 62 => ⟨S1x2048, .f32⟩
  | 63 => ⟨S9600x2048, .f32⟩
  | 64 => ⟨S9600x2048, .f32⟩
  | 65 => ⟨S9600x2048, .f32⟩
  | 66 => ⟨S9600x2048, .f32⟩
  | 67 => ⟨S9600x2048, .f32⟩
  | 68 => ⟨S9600x2, .f32⟩
  | 69 => ⟨S9600x1x2, .f32⟩
  | 70 => ⟨S2048x2, .f32⟩
  | 71 => ⟨S1x2048x2, .f32⟩
  | 72 => ⟨S9600x2048x2, .f32⟩
  | 73 => ⟨S9600x2048x2, .f32⟩
  | 74 => ⟨S9600x2048x2, .f32⟩
  | 75 => ⟨S9600x2, .f32⟩
  | 76 => ⟨S9600x1x2, .f32⟩
  | 77 => ⟨S2048x2, .f32⟩
  | 78 => ⟨S1x2048x2, .f32⟩
  | 79 => ⟨S9600x2048x2, .f32⟩
  | 80 => ⟨S9600x2048x2, .f32⟩
  | 81 => ⟨S9600x2048x2, .f32⟩
  | 82 => ⟨S9600x2048x2, .f32⟩
  | 83 => ⟨S_, .f32⟩
  | 84 => ⟨S_, .f32⟩
  | 85 => ⟨S9600x2048x2, .f32⟩
  | 86 => ⟨S9600x2048x2, .f32⟩
  | 87 => ⟨S9600x2048x1, .f32⟩
  | 88 => ⟨S9600x2048, .f32⟩
  | 89 => ⟨S9600x2048x1, .f32⟩
  | 90 => ⟨S9600x2048, .f32⟩
  | 91 => ⟨S9600x2048, .f32⟩
  | 92 => ⟨S9600x2048, .f32⟩
  | 93 => ⟨S9600x2048, .f32⟩
  | 94 => ⟨S9600x2048, .f32⟩
  | 95 => ⟨S9600x2048, .f32⟩
  | 96 => ⟨S_, .f32⟩
  | 97 => ⟨S9600x2048, .f32⟩
  | 98 => ⟨S9600x2048, .f32⟩
  | 99 => ⟨S_, .f32⟩
  | 100 => ⟨S9600x2048, .f32⟩
  | 101 => ⟨S9600x2048, .f32⟩
  | 102 => ⟨S9600x2048, .f32⟩
  | 103 => ⟨S_, .f32⟩
  | 104 => ⟨S9600x2048, .f32⟩
  | 105 => ⟨S9600x2048, .f32⟩
  | 106 => ⟨S9600x2048, .f32⟩
  | 107 => ⟨S9600x2048, .f32⟩
  | 108 => ⟨S1x32x300x51, .f32⟩
  | 109 => ⟨S32x300x51, .f32⟩
  | 110 => ⟨S9600x51, .f32⟩
  | 111 => ⟨S_, .f32⟩
  | 112 => ⟨S9600, .f32⟩
  | 113 => ⟨S_, .f32⟩
  | 114 => ⟨S9600, .f32⟩
  | 115 => ⟨S9600, .f32⟩
  | 116 => ⟨S9600x1, .f32⟩
  | 117 => ⟨S9600x51, .f32⟩
  | 118 => ⟨S9600x51, .f32⟩
  | 119 => ⟨S9600x51, .f32⟩
  | 120 => ⟨S_, .f32⟩
  | 121 => ⟨S9600, .f32⟩
  | 122 => ⟨S9600x1, .f32⟩
  | 123 => ⟨S9600x51, .f32⟩
  | 124 => ⟨S9600x51, .f32⟩
  | 125 => ⟨S2048, .i32⟩
  | 126 => ⟨S_, .i32⟩
  | 127 => ⟨S2048, .i32⟩
  | _ => ⟨S6x32x300x151, .f32⟩

abbrev hbmTy0_3 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S9600x2048, .f32⟩
  | 7 => ⟨S9600x2048, .f32⟩
  | 8 => ⟨S_, .f32⟩
  | 9 => ⟨S9600x2048, .f32⟩
  | 10 => ⟨S9600x2048, .f32⟩
  | 11 => ⟨S9600x2048, .f32⟩
  | 12 => ⟨S32x300x2048, .f32⟩
  | _ => ⟨S6x32x300x151, .f32⟩

abbrev hbmTy (i : Nat) : BufTy := match i / 128 with
  | 0 => hbmTy0_0 i
  | 1 => hbmTy0_1 i
  | 2 => hbmTy0_2 i
  | 3 => hbmTy0_3 i
  | _ => ⟨S6x32x300x151, .f32⟩

abbrev bufTy : (tb : Table) → Fin (tcTables nBuf tb) → BufTy
  | .hbm, ⟨i, _⟩ => hbmTy i
  | _, _ => ⟨S6x32x300x151, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_12 : Ref sig .tc := ⟨.hbm, 129, rfl⟩
abbrev main_call0_v0 : Ref sig .tc := ⟨.hbm, 130, rfl⟩
abbrev main_call0_v1 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_13 : Ref sig .tc := ⟨.hbm, 160, rfl⟩
abbrev main_call1_v0 : Ref sig .tc := ⟨.hbm, 161, rfl⟩
abbrev main_call1_v1 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_14 : Ref sig .tc := ⟨.hbm, 173, rfl⟩
abbrev main_v143 : Ref sig .tc := ⟨.hbm, 174, rfl⟩
abbrev main_v144 : Ref sig .tc := ⟨.hbm, 175, rfl⟩
abbrev main_cst_15 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_16 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_17 : Ref sig .tc := ⟨.hbm, 187, rfl⟩
abbrev main_v154 : Ref sig .tc := ⟨.hbm, 188, rfl⟩
abbrev main_cst_18 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_cst_19 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_c_20 : Ref sig .tc := ⟨.hbm, 206, rfl⟩
abbrev main_v170 : Ref sig .tc := ⟨.hbm, 207, rfl⟩
abbrev main_v171 : Ref sig .tc := ⟨.hbm, 208, rfl⟩
abbrev main_c_21 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_22 : Ref sig .tc := ⟨.hbm, 222, rfl⟩
abbrev main_v184 : Ref sig .tc := ⟨.hbm, 223, rfl⟩
abbrev main_cst_23 : Ref sig .tc := ⟨.hbm, 224, rfl⟩
abbrev main_call2_v0 : Ref sig .tc := ⟨.hbm, 225, rfl⟩
abbrev main_call2_v1 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_cst_24 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_cst_25 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_cst_26 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_cst_27 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_cst_28 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_cst_29 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_cst_30 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_cst_31 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_cst_32 : Ref sig .tc := ⟨.hbm, 308, rfl⟩
abbrev main_call3_v0 : Ref sig .tc := ⟨.hbm, 309, rfl⟩
abbrev main_call3_v1 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_cst_33 : Ref sig .tc := ⟨.hbm, 339, rfl⟩
abbrev main_call4_v0 : Ref sig .tc := ⟨.hbm, 340, rfl⟩
abbrev main_call4_v1 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_cst_34 : Ref sig .tc := ⟨.hbm, 352, rfl⟩
abbrev main_v296 : Ref sig .tc := ⟨.hbm, 353, rfl⟩
abbrev main_v297 : Ref sig .tc := ⟨.hbm, 354, rfl⟩
abbrev main_cst_35 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_cst_36 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_cst_37 : Ref sig .tc := ⟨.hbm, 367, rfl⟩
abbrev main_v308 : Ref sig .tc := ⟨.hbm, 368, rfl⟩
abbrev main_cst_38 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_cst_39 : Ref sig .tc := ⟨.hbm, 376, rfl⟩
abbrev main_v315 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_c_40 : Ref sig .tc := ⟨.hbm, 382, rfl⟩
abbrev main_v320 : Ref sig .tc := ⟨.hbm, 383, rfl⟩
abbrev main_v321 : Ref sig .tc := ⟨.hbm, 384, rfl⟩
abbrev main_c_41 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_cst_42 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩

abbrev nD : Nat := 1
abbrev τ : Topo := Topo.v7x

variable {F : FTy → Type} [FloatOps F]

class Facts₀ : Prop where
  slices_S6x32x300x151_S1x32x300x151_5_0_0_0 : S6x32x300x151.Slices ![5, 0, 0, 0] S1x32x300x151
  shapeCasts_S1x32x300x151_S32x300x151 : S1x32x300x151.ShapeCasts S32x300x151
  shapeCasts_S32x300x151_S9600x151 : S32x300x151.ShapeCasts S9600x151
  reducesTo_S9600x151_S9600_d1 : S9600x151.ReducesTo [1] S9600
  h_S_ : 0 < S_.numel
  bcast_S_S9600 : S_.BroadcastsInDim S9600 (![] : Fin 0 → Fin S9600.rank)
  bcast_S9600_S9600x1_0 : S9600.BroadcastsInDim S9600x1 (![0] : Fin 1 → Fin S9600x1.rank)
  bcast_S9600x1_S9600x151_0_1 : S9600x1.BroadcastsInDim S9600x151 (![0, 1] : Fin 2 → Fin S9600x151.rank)
  slices_S6x32x300x4_S1x32x300x4_5_0_0_0 : S6x32x300x4.Slices ![5, 0, 0, 0] S1x32x300x4
  shapeCasts_S1x32x300x4_S32x300x4 : S1x32x300x4.ShapeCasts S32x300x4
  shapeCasts_S32x300x4_S9600x4 : S32x300x4.ShapeCasts S9600x4
  shapeCasts_S32x64_S2048 : S32x64.ShapeCasts S2048
  shapeCasts_S32x64x4_S2048x4 : S32x64x4.ShapeCasts S2048x4
  bcast_S_S2048 : S_.BroadcastsInDim S2048 (![] : Fin 0 → Fin S2048.rank)
  bcast_S2048_S2048x1_0 : S2048.BroadcastsInDim S2048x1 (![0] : Fin 1 → Fin S2048x1.rank)
  bcast_S9600x4_S9600x1x4_0_2 : S9600x4.BroadcastsInDim S9600x1x4 (![0, 2] : Fin 2 → Fin S9600x1x4.rank)
  bcast_S2048x4_S1x2048x4_1_2 : S2048x4.BroadcastsInDim S1x2048x4 (![1, 2] : Fin 2 → Fin S1x2048x4.rank)
  bcast_S9600x1x4_S9600x2048x4_0_1_2 : S9600x1x4.BroadcastsInDim S9600x2048x4 (![0, 1, 2] : Fin 3 → Fin S9600x2048x4.rank)
  bcast_S1x2048x4_S9600x2048x4_0_1_2 : S1x2048x4.BroadcastsInDim S9600x2048x4 (![0, 1, 2] : Fin 3 → Fin S9600x2048x4.rank)
  reducesTo_S9600x2048x4_S9600x2048_d2 : S9600x2048x4.ReducesTo [2] S9600x2048
  slices_S9600x4_S9600x1_0_0 : S9600x4.Slices ![0, 0] S9600x1
  slices_S9600x4_S9600x1_0_1 : S9600x4.Slices ![0, 1] S9600x1
  slices_S9600x4_S9600x1_0_2 : S9600x4.Slices ![0, 2] S9600x1
  slices_S9600x4_S9600x1_0_3 : S9600x4.Slices ![0, 3] S9600x1
  bcast_S_S9600x1 : S_.BroadcastsInDim S9600x1 (![] : Fin 0 → Fin S9600x1.rank)
  concatenates_S9600x1_S9600x1_S9600x1_S9600x1_S9600x4_d1 : Shape.Concatenates [S9600x1, S9600x1, S9600x1, S9600x1] S9600x4 1
  slices_S2048x4_S2048x1_0_0 : S2048x4.Slices ![0, 0] S2048x1
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  bcast_S_S2048x1 : S_.BroadcastsInDim S2048x1 (![] : Fin 0 → Fin S2048x1.rank)
  concatenates_S2048x1_S2048x1_S2048x1_S2048x1_S2048x4_d1 : Shape.Concatenates [S2048x1, S2048x1, S2048x1, S2048x1] S2048x4 1
  shapeCasts_S9600x1_S9600 : S9600x1.ShapeCasts S9600
  shapeCasts_S2048x1_S2048 : S2048x1.ShapeCasts S2048
  slices_S9600x4_S9600x2_0_0 : S9600x4.Slices ![0, 0] S9600x2
  bcast_S9600x2_S9600x1x2_0_2 : S9600x2.BroadcastsInDim S9600x1x2 (![0, 2] : Fin 2 → Fin S9600x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S9600x1x2_S9600x2048x2_0_1_2 : S9600x1x2.BroadcastsInDim S9600x2048x2 (![0, 1, 2] : Fin 3 → Fin S9600x2048x2.rank)
  bcast_S1x2048x2_S9600x2048x2_0_1_2 : S1x2048x2.BroadcastsInDim S9600x2048x2 (![0, 1, 2] : Fin 3 → Fin S9600x2048x2.rank)
  slices_S9600x4_S9600x2_0_2 : S9600x4.Slices ![0, 2] S9600x2
  slices_S2048x4_S2048x2_0_2 : S2048x4.Slices ![0, 2] S2048x2
  bcast_S_S9600x2048x2 : S_.BroadcastsInDim S9600x2048x2 (![] : Fin 0 → Fin S9600x2048x2.rank)
  slices_S9600x2048x2_S9600x2048x1_0_0_0 : S9600x2048x2.Slices ![0, 0, 0] S9600x2048x1
  shapeCasts_S9600x2048x1_S9600x2048 : S9600x2048x1.ShapeCasts S9600x2048
  slices_S9600x2048x2_S9600x2048x1_0_0_1 : S9600x2048x2.Slices ![0, 0, 1] S9600x2048x1
  bcast_S2048_S1x2048_1 : S2048.BroadcastsInDim S1x2048 (![1] : Fin 1 → Fin S1x2048.rank)
  bcast_S9600x1_S9600x2048_0_1 : S9600x1.BroadcastsInDim S9600x2048 (![0, 1] : Fin 2 → Fin S9600x2048.rank)
  bcast_S1x2048_S9600x2048_0_1 : S1x2048.BroadcastsInDim S9600x2048 (![0, 1] : Fin 2 → Fin S9600x2048.rank)
  bcast_S_S9600x2048 : S_.BroadcastsInDim S9600x2048 (![] : Fin 0 → Fin S9600x2048.rank)
  slices_S6x32x300x51_S1x32x300x51_5_0_0_0 : S6x32x300x51.Slices ![5, 0, 0, 0] S1x32x300x51
  shapeCasts_S1x32x300x51_S32x300x51 : S1x32x300x51.ShapeCasts S32x300x51
  shapeCasts_S32x300x51_S9600x51 : S32x300x51.ShapeCasts S9600x51
  reducesTo_S9600x51_S9600_d1 : S9600x51.ReducesTo [1] S9600
  bcast_S9600x1_S9600x51_0_1 : S9600x1.BroadcastsInDim S9600x51 (![0, 1] : Fin 2 → Fin S9600x51.rank)
  shapeCasts_S9600x2048_S32x300x2048 : S9600x2048.ShapeCasts S32x300x2048
  gather_S9600x151_S2048x1_S9600x2048_0_1_n_n_1_1_96001_wf : GatherDims.WF S9600x151 S2048x1 S9600x2048 [0] [1] [] [1] [] 1 ![9600, 1]
  gather_S9600x51_S2048x1_S9600x2048_0_1_n_n_1_1_96001_wf : GatherDims.WF S9600x51 S2048x1 S9600x2048 [0] [1] [] [1] [] 1 ![9600, 1]

variable [Facts₀]

def gather_S9600x151_S2048x1_S9600x2048_0_1_n_n_1_1_96001 : GatherDims S9600x151 S2048x1 S9600x2048 where
  offsetDims := [0]
  collapsedSliceDims := [1]
  operandBatchingDims := []
  startIndicesBatchingDims := []
  startIndexMap := [1]
  indexVectorDim := 1
  sliceSizes := ![9600, 1]
  wf := gather_S9600x151_S2048x1_S9600x2048_0_1_n_n_1_1_96001_wf
def gather_S9600x51_S2048x1_S9600x2048_0_1_n_n_1_1_96001 : GatherDims S9600x51 S2048x1 S9600x2048 where
  offsetDims := [0]
  collapsedSliceDims := [1]
  operandBatchingDims := []
  startIndicesBatchingDims := []
  startIndexMap := [1]
  indexVectorDim := 1
  sliceSizes := ![9600, 1]
  wf := gather_S9600x51_S2048x1_S9600x2048_0_1_n_n_1_1_96001_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

open scoped BigOperators

namespace Cert.Cost

open Idealize.ShloMosaic Idealize.ShloMosaic.ValueIdx

abbrev zeroW : EReal := Ideal.ofBits .f32 0x00000000#32
abbrev halfW : EReal := Ideal.ofBits .f32 0x3F000000#32
abbrev oneW : EReal := Ideal.ofBits .f32 0x3F800000#32
abbrev tinyW : EReal := Ideal.ofBits .f32 0x0DA24260#32
abbrev negInfW : EReal := Ideal.ofBits .f32 0xFF800000#32

def rowMax {C : Nat} (row : Fin C → EReal) : EReal :=
  max negInfW ((Finset.univ : Finset (Fin C)).fold max negInfW row)

def softmaxAt {C : Nat} (row : Fin C → EReal) (k : Fin C) : EReal :=
  Ideal.div (Ideal.exp (row k - rowMax row)) (∑ j : Fin C, Ideal.exp (row j - rowMax row))

def x1 (b : Fin 4 → EReal) : EReal := b 0 - halfW * b 2
def y1 (b : Fin 4 → EReal) : EReal := b 1 - halfW * b 3
def x2 (b : Fin 4 → EReal) : EReal := b 0 + halfW * b 2
def y2 (b : Fin 4 → EReal) : EReal := b 1 + halfW * b 3

def area (b : Fin 4 → EReal) : EReal := (x2 b - x1 b) * (y2 b - y1 b)

def clip0 (x : EReal) : EReal := max zeroW x

def inter (p t : Fin 4 → EReal) : EReal :=
  clip0 (min (x2 p) (x2 t) - max (x1 p) (x1 t)) * clip0 (min (y2 p) (y2 t) - max (y1 p) (y1 t))

def union (p t : Fin 4 → EReal) : EReal := area p + area t - inter p t

def hull (p t : Fin 4 → EReal) : EReal :=
  clip0 (max (x2 p) (x2 t) - min (x1 p) (x1 t)) * clip0 (max (y2 p) (y2 t) - min (y1 p) (y1 t))

def giou (p t : Fin 4 → EReal) : EReal :=
  Ideal.div (inter p t) (union p t) - Ideal.div (hull p t - union p t) (hull p t)

def absE (a : EReal) : EReal := max a (-a)

def l1 (p t : Fin 4 → EReal) : EReal :=
  absE (p 0 - t 0) + absE (p 1 - t 1) + absE (p 2 - t 2) + absE (p 3 - t 3)

def l2 (p t : Fin 4 → EReal) : EReal :=
  Ideal.sqrt (max tinyW ((p 0 - t 0) * (p 0 - t 0) + (p 1 - t 1) * (p 1 - t 1) + (p 2 - t 2) * (p 2 - t 2)
    + (p 3 - t 3) * (p 3 - t 3)))

def branch (pr bb g : EReal) : EReal := oneW * (-pr) + oneW * bb - oneW * g

def total (pr0 bb0 g0 pr1 bb1 g1 pr2 : EReal) : EReal :=
  branch pr0 bb0 g0 + branch pr1 bb1 g1 + oneW * (-pr2)

def cellG (lg0 : Fin 151 → EReal) (pb0 : Fin 4 → EReal) (k0 : Fin 151) (tb0 : Fin 4 → EReal)
    (lg1 : Fin 151 → EReal) (pb1 : Fin 4 → EReal) (k1 : Fin 151) (tb1 : Fin 4 → EReal)
    (lg2 : Fin 51 → EReal) (k2 : Fin 51) : EReal :=
  total (softmaxAt lg0 k0) (l1 pb0 tb0) (giou pb0 tb0) (softmaxAt lg1 k1) (l2 pb1 tb1) (giou pb1 tb1) (softmaxAt lg2 k2)

def cellK (lg0 : Fin 151 → EReal) (pb0 : Fin 4 → EReal) (oh0 : Fin 151 → EReal) (tb0 : Fin 4 → EReal)
    (lg1 : Fin 151 → EReal) (pb1 : Fin 4 → EReal) (oh1 : Fin 151 → EReal) (tb1 : Fin 4 → EReal)
    (lg2 : Fin 51 → EReal) (oh2 : Fin 51 → EReal) : EReal :=
  total (∑ c : Fin 151, softmaxAt lg0 c * oh0 c) (l1 pb0 tb0) (giou pb0 tb0)
    (∑ c : Fin 151, softmaxAt lg1 c * oh1 c) (l2 pb1 tb1) (giou pb1 tb1) (∑ c : Fin 51, softmaxAt lg2 c * oh2 c)

/-- A sum against the indicator of `k` keeps only the `k`-th term. -/
theorem sum_onehot {C : Nat} (f oh : Fin C → EReal) (k : Fin C) (h : ∀ c, oh c = if c = k then 1 else 0) :
    ∑ c : Fin C, f c * oh c = f k := by
  rw [Finset.sum_eq_single k (fun c _ hc => by rw [h c, if_neg hc, mul_zero])
    (fun hk => absurd (Finset.mem_univ k) hk), h k, if_pos rfl, mul_one]

theorem cellK_of_onehot (lg0 : Fin 151 → EReal) (pb0 : Fin 4 → EReal) (oh0 : Fin 151 → EReal) (tb0 : Fin 4 → EReal)
    (lg1 : Fin 151 → EReal) (pb1 : Fin 4 → EReal) (oh1 : Fin 151 → EReal) (tb1 : Fin 4 → EReal)
    (lg2 : Fin 51 → EReal) (oh2 : Fin 51 → EReal) (k0 k1 : Fin 151) (k2 : Fin 51)
    (h0 : ∀ c, oh0 c = if c = k0 then 1 else 0) (h1 : ∀ c, oh1 c = if c = k1 then 1 else 0)
    (h2 : ∀ c, oh2 c = if c = k2 then 1 else 0) :
    cellK lg0 pb0 oh0 tb0 lg1 pb1 oh1 tb1 lg2 oh2 = cellG lg0 pb0 k0 tb0 lg1 pb1 k1 tb1 lg2 k2 := by
  unfold cellK cellG
  rw [sum_onehot _ oh0 k0 h0, sum_onehot _ oh1 k1 h1, sum_onehot _ oh2 k2 h2]

def labOf (C : Nat) (hC : 0 < C) (w : BitVec 32) : Fin C := ⟨min w.toInt.toNat (C - 1), by omega⟩

/-- The matching cost of query `r` against target `t`: class, distance and overlap terms of the object and subject branches plus the relation's class term. -/
def costAt (X0 : FVec Ideal ⟨2, ![9600, 151]⟩ .f32) (B0 : FVec Ideal ⟨2, ![9600, 4]⟩ .f32) (L0 : IVec ⟨1, ![2048]⟩ 32)
    (T0 : FVec Ideal ⟨2, ![2048, 4]⟩ .f32)
    (X1 : FVec Ideal ⟨2, ![9600, 151]⟩ .f32) (B1 : FVec Ideal ⟨2, ![9600, 4]⟩ .f32) (L1 : IVec ⟨1, ![2048]⟩ 32)
    (T1 : FVec Ideal ⟨2, ![2048, 4]⟩ .f32)
    (X2 : FVec Ideal ⟨2, ![9600, 51]⟩ .f32) (L2 : IVec ⟨1, ![2048]⟩ 32) (r : Fin 9600) (t : Fin 2048) : EReal :=
  cellG (fun k => X0 (ix2 r k)) (fun d => B0 (ix2 r d)) (labOf 151 (by decide) (L0 (ix1 t))) (fun d => T0 (ix2 t d))
    (fun k => X1 (ix2 r k)) (fun d => B1 (ix2 r d)) (labOf 151 (by decide) (L1 (ix1 t))) (fun d => T1 (ix2 t d))
    (fun k => X2 (ix2 r k)) (labOf 51 (by decide) (L2 (ix1 t)))

end Cert.Cost

end
-- ==== Proof.KPieces.lean ====
import proofs.«408227_j14096082666122_3_alg».proof.Proof.Gen.KernelIdeal.Frame
import proofs.«408227_j14096082666122_3_alg».proof.Proof.Spec

noncomputable section

namespace Cert.KernelIdeal.Tile

open Cert.KernelIdeal Cert.KernelIdeal.Gen Idealize.ShloMosaic Idealize.ShloMosaic.TcCoe Idealize.ShloMosaic.ValueIdx

variable {F : FTy → Type} [FloatOps F]

section
variable (a0 : Vec F S320x151 .f32) (a1 : Vec F S320x4 .f32) (a2 : Vec F S151x512 .bf16) (a3 : Vec F S4x512 .f32) (a4 : Vec F S320x151 .f32) (a5 : Vec F S320x4 .f32) (a6 : Vec F S151x512 .bf16) (a7 : Vec F S4x512 .f32) (a8 : Vec F S320x51 .f32) (a9 : Vec F S51x512 .bf16)

def tile0 : FVec F S320x512 .f32 :=
  k0_pay64 (k0_pay4 a8) (k0_pay28 a9) (k0_pay43 (k0_pay11 a1) (k0_pay12 a1) (k0_pay13 a1) (k0_pay29 (k0_pay2 a0) a2) (k0_pay34 (k0_pay6 a1) (k0_pay7 a1) (k0_pay8 a1) (k0_pay9 a1) a3) (k0_pay36 (k0_pay31 a3) (k0_pay33 a3)) (k0_pay37 (k0_pay30 a3) (k0_pay32 a3)) (k0_pay38 (k0_pay31 a3) (k0_pay33 a3)) (k0_pay40 (k0_pay10 a1) (k0_pay11 a1) (k0_pay12 a1) (k0_pay13 a1) (k0_pay14 a1) (k0_pay30 a3) (k0_pay31 a3) (k0_pay32 a3) (k0_pay33 a3)) (k0_pay41 (k0_pay10 a1) (k0_pay11 a1) (k0_pay12 a1) (k0_pay13 a1) (k0_pay14 a1) (k0_pay30 a3) (k0_pay31 a3) (k0_pay32 a3) (k0_pay33 a3)) (k0_pay42 (k0_pay10 a1) (k0_pay30 a3) (k0_pay32 a3))) (k0_pay63 (k0_pay20 a5) (k0_pay21 a5) (k0_pay22 a5) (k0_pay23 a5) (k0_pay24 a5) (k0_pay44 (k0_pay3 a4) (k0_pay26 a6)) (k0_pay52 (k0_pay18 a5) (k0_pay19 a5) (k0_pay47 (k0_pay27 a7)) (k0_pay48 (k0_pay27 a7)) (k0_pay49 (k0_pay16 a5) (k0_pay27 a7)) (k0_pay50 (k0_pay17 a5)) (k0_pay51 (k0_pay27 a7))) (k0_pay53 (k0_pay45 (k0_pay27 a7)) (k0_pay47 (k0_pay27 a7))) (k0_pay54 (k0_pay46 (k0_pay27 a7)) (k0_pay48 (k0_pay27 a7))) (k0_pay55 (k0_pay45 (k0_pay27 a7)) (k0_pay47 (k0_pay27 a7))) (k0_pay56 (k0_pay46 (k0_pay27 a7)) (k0_pay48 (k0_pay27 a7))) (k0_pay57 (k0_pay45 (k0_pay27 a7)) (k0_pay46 (k0_pay27 a7)) (k0_pay47 (k0_pay27 a7)) (k0_pay48 (k0_pay27 a7))) (k0_pay58 (k0_pay20 a5) (k0_pay45 (k0_pay27 a7)) (k0_pay47 (k0_pay27 a7))) (k0_pay59 (k0_pay21 a5) (k0_pay46 (k0_pay27 a7)) (k0_pay48 (k0_pay27 a7))) (k0_pay60 (k0_pay22 a5) (k0_pay45 (k0_pay27 a7)) (k0_pay47 (k0_pay27 a7))) (k0_pay61 (k0_pay23 a5)) (k0_pay62 (k0_pay46 (k0_pay27 a7)) (k0_pay48 (k0_pay27 a7))))

def tile1 : FVec F S320x512 .f32 :=
  k0_pay105 (k0_pay4 a8) (k0_pay68 a9) (k0_pay87 (k0_pay10 a1) (k0_pay11 a1) (k0_pay12 a1) (k0_pay13 a1) (k0_pay14 a1) (k0_pay69 (k0_pay2 a0) a2) (k0_pay78 (k0_pay9 a1) (k0_pay73 a3) (k0_pay74 (k0_pay6 a1) a3) (k0_pay75 (k0_pay7 a1) a3) (k0_pay76 a3) (k0_pay77 (k0_pay8 a1))) (k0_pay79 (k0_pay70 a3) (k0_pay72 a3)) (k0_pay80 (k0_pay71 a3) (k0_pay73 a3)) (k0_pay81 (k0_pay70 a3) (k0_pay72 a3)) (k0_pay82 (k0_pay71 a3) (k0_pay73 a3)) (k0_pay83 (k0_pay70 a3) (k0_pay71 a3) (k0_pay72 a3) (k0_pay73 a3)) (k0_pay84 (k0_pay10 a1) (k0_pay12 a1) (k0_pay70 a3) (k0_pay72 a3)) (k0_pay85 (k0_pay11 a1) (k0_pay13 a1) (k0_pay71 a3) (k0_pay73 a3)) (k0_pay86 (F := F))) (k0_pay88 (k0_pay3 a4) (k0_pay66 a6)) (k0_pay94 (k0_pay16 a5) (k0_pay17 a5) (k0_pay18 a5) (k0_pay19 a5) (k0_pay67 a7) (k0_pay89 (k0_pay67 a7)) (k0_pay90 (k0_pay67 a7))) (k0_pay102 (k0_pay21 a5) (k0_pay22 a5) (k0_pay23 a5) (k0_pay24 a5) (k0_pay96 (k0_pay67 a7) (k0_pay90 (k0_pay67 a7))) (k0_pay97 (k0_pay67 a7) (k0_pay89 (k0_pay67 a7))) (k0_pay98 (k0_pay67 a7) (k0_pay90 (k0_pay67 a7))) (k0_pay99 (k0_pay67 a7) (k0_pay89 (k0_pay67 a7)) (k0_pay90 (k0_pay67 a7))) (k0_pay100 (k0_pay20 a5) (k0_pay67 a7) (k0_pay89 (k0_pay67 a7)))) (k0_pay103 (k0_pay21 a5) (k0_pay22 a5) (k0_pay23 a5) (k0_pay24 a5) (k0_pay96 (k0_pay67 a7) (k0_pay90 (k0_pay67 a7))) (k0_pay97 (k0_pay67 a7) (k0_pay89 (k0_pay67 a7))) (k0_pay98 (k0_pay67 a7) (k0_pay90 (k0_pay67 a7))) (k0_pay99 (k0_pay67 a7) (k0_pay89 (k0_pay67 a7)) (k0_pay90 (k0_pay67 a7))) (k0_pay100 (k0_pay20 a5) (k0_pay67 a7) (k0_pay89 (k0_pay67 a7)))) (k0_pay104 (k0_pay20 a5) (k0_pay21 a5) (k0_pay22 a5) (k0_pay23 a5) (k0_pay95 (k0_pay67 a7) (k0_pay89 (k0_pay67 a7))) (k0_pay96 (k0_pay67 a7) (k0_pay90 (k0_pay67 a7))) (k0_pay97 (k0_pay67 a7) (k0_pay89 (k0_pay67 a7))) (k0_pay98 (k0_pay67 a7) (k0_pay90 (k0_pay67 a7))))

def tile2 : FVec F S320x512 .f32 :=
  k0_pay147 (k0_pay4 a8) (k0_pay23 a5) (k0_pay109 a9) (k0_pay129 (k0_pay116 (k0_pay6 a1) (k0_pay7 a1) (k0_pay8 a1) (k0_pay9 a1) (k0_pay111 a3) (k0_pay112 a3) (k0_pay113 a3) (k0_pay114 a3)) (k0_pay126 (k0_pay10 a1) (k0_pay11 a1) (k0_pay12 a1) (k0_pay13 a1) (k0_pay14 a1) (k0_pay117 (k0_pay111 a3) (k0_pay113 a3)) (k0_pay118 (k0_pay112 a3) (k0_pay114 a3)) (k0_pay119 (k0_pay111 a3) (k0_pay113 a3)) (k0_pay120 (k0_pay112 a3) (k0_pay114 a3)) (k0_pay121 (k0_pay111 a3) (k0_pay112 a3) (k0_pay113 a3) (k0_pay114 a3)) (k0_pay122 (k0_pay10 a1) (k0_pay111 a3) (k0_pay113 a3)) (k0_pay123 (k0_pay11 a1) (k0_pay112 a3) (k0_pay114 a3)) (k0_pay124 (k0_pay111 a3) (k0_pay113 a3)) (k0_pay125 (k0_pay12 a1))) (k0_pay127 (k0_pay110 (k0_pay2 a0) a2)) (k0_pay128 (F := F))) (k0_pay130 (k0_pay3 a4) (k0_pay107 a6)) (k0_pay135 (k0_pay16 a5) (k0_pay17 a5) (k0_pay18 a5) (k0_pay19 a5) (k0_pay108 a7)) (k0_pay140 (k0_pay132 (k0_pay108 a7)) (k0_pay134 (k0_pay108 a7))) (k0_pay142 (k0_pay20 a5) (k0_pay21 a5) (k0_pay22 a5) (k0_pay23 a5) (k0_pay24 a5) (k0_pay131 (k0_pay108 a7)) (k0_pay132 (k0_pay108 a7)) (k0_pay133 (k0_pay108 a7)) (k0_pay134 (k0_pay108 a7)) (k0_pay136 (k0_pay108 a7)) (k0_pay137 (k0_pay108 a7)) (k0_pay138 (F := F))) (k0_pay143 (k0_pay20 a5) (k0_pay21 a5) (k0_pay22 a5) (k0_pay23 a5) (k0_pay24 a5) (k0_pay131 (k0_pay108 a7)) (k0_pay132 (k0_pay108 a7)) (k0_pay133 (k0_pay108 a7)) (k0_pay134 (k0_pay108 a7)) (k0_pay136 (k0_pay108 a7)) (k0_pay137 (k0_pay108 a7)) (k0_pay138 (F := F))) (k0_pay144 (k0_pay20 a5) (k0_pay136 (k0_pay108 a7))) (k0_pay145 (k0_pay21 a5) (k0_pay137 (k0_pay108 a7))) (k0_pay146 (k0_pay22 a5) (k0_pay131 (k0_pay108 a7)) (k0_pay133 (k0_pay108 a7)) (k0_pay138 (F := F)))

def tile3 : FVec F S320x512 .f32 :=
  k0_pay1 (k0_pay4 a8) (k0_pay152 a9) (k0_pay172 (k0_pay153 (k0_pay2 a0) (k0_pay148 a2)) (k0_pay158 (k0_pay6 a1) (k0_pay7 a1) (k0_pay8 a1) (k0_pay9 a1) (k0_pay149 a3)) (k0_pay166 (k0_pay10 a1) (k0_pay11 a1) (k0_pay12 a1) (k0_pay13 a1) (k0_pay14 a1) (k0_pay159 (k0_pay149 a3)) (k0_pay160 (k0_pay149 a3)) (k0_pay161 (k0_pay149 a3)) (k0_pay162 (k0_pay149 a3)) (k0_pay163 (k0_pay149 a3)) (k0_pay164 (k0_pay149 a3))) (k0_pay167 (k0_pay10 a1) (k0_pay11 a1) (k0_pay12 a1) (k0_pay13 a1) (k0_pay14 a1) (k0_pay159 (k0_pay149 a3)) (k0_pay160 (k0_pay149 a3)) (k0_pay161 (k0_pay149 a3)) (k0_pay162 (k0_pay149 a3)) (k0_pay163 (k0_pay149 a3)) (k0_pay164 (k0_pay149 a3))) (k0_pay168 (k0_pay11 a1) (k0_pay160 (k0_pay149 a3))) (k0_pay169 (k0_pay13 a1) (k0_pay162 (k0_pay149 a3))) (k0_pay170 (k0_pay10 a1) (k0_pay12 a1) (k0_pay159 (k0_pay149 a3)) (k0_pay161 (k0_pay149 a3))) (k0_pay171 (F := F))) (k0_pay188 (k0_pay21 a5) (k0_pay22 a5) (k0_pay23 a5) (k0_pay180 (k0_pay174 (k0_pay151 a7)) (k0_pay176 (k0_pay151 a7))) (k0_pay181 (k0_pay175 (k0_pay151 a7)) (k0_pay177 (k0_pay151 a7))) (k0_pay182 (k0_pay174 (k0_pay151 a7)) (k0_pay176 (k0_pay151 a7))) (k0_pay183 (k0_pay175 (k0_pay151 a7)) (k0_pay177 (k0_pay151 a7))) (k0_pay185 (k0_pay20 a5) (k0_pay21 a5) (k0_pay22 a5) (k0_pay23 a5) (k0_pay24 a5) (k0_pay174 (k0_pay151 a7)) (k0_pay175 (k0_pay151 a7)) (k0_pay176 (k0_pay151 a7)) (k0_pay177 (k0_pay151 a7))) (k0_pay186 (k0_pay20 a5) (k0_pay21 a5) (k0_pay22 a5) (k0_pay23 a5) (k0_pay24 a5) (k0_pay174 (k0_pay151 a7)) (k0_pay175 (k0_pay151 a7)) (k0_pay176 (k0_pay151 a7)) (k0_pay177 (k0_pay151 a7))) (k0_pay187 (k0_pay20 a5))) (k0_pay189 (k0_pay173 (k0_pay3 a4) (k0_pay150 a6)) (k0_pay179 (k0_pay178 (k0_pay16 a5) (k0_pay17 a5) (k0_pay18 a5) (k0_pay19 a5) (k0_pay151 a7))))

end

section
variable (x0 : Vec F S320x151 .f32) (x1 : Vec F S320x4 .f32) (x2 : Vec F S151x2048 .bf16) (x3 : Vec F S4x2048 .f32) (x4 : Vec F S320x151 .f32) (x5 : Vec F S320x4 .f32) (x6 : Vec F S151x2048 .bf16) (x7 : Vec F S4x2048 .f32) (x8 : Vec F S320x51 .f32) (x9 : Vec F S51x2048 .bf16)

def piece0 : FVec F S320x512 .f32 :=
  tile0 (View.ld x0 r0_0) (View.ld x1 r0_2) (View.ld x2 r0_3) (View.ld x3 r0_4) (View.ld x4 r0_0) (View.ld x5 r0_2) (View.ld x6 r0_3) (View.ld x7 r0_4) (View.ld x8 r0_1) (View.ld x9 r0_5)

def piece1 : FVec F S320x512 .f32 :=
  tile1 (View.ld x0 r0_0) (View.ld x1 r0_2) (View.ld x2 r0_7) (View.ld x3 r0_8) (View.ld x4 r0_0) (View.ld x5 r0_2) (View.ld x6 r0_7) (View.ld x7 r0_8) (View.ld x8 r0_1) (View.ld x9 r0_9)

def piece2 : FVec F S320x512 .f32 :=
  tile2 (View.ld x0 r0_0) (View.ld x1 r0_2) (View.ld x2 r0_11) (View.ld x3 r0_12) (View.ld x4 r0_0) (View.ld x5 r0_2) (View.ld x6 r0_11) (View.ld x7 r0_12) (View.ld x8 r0_1) (View.ld x9 r0_13)

def piece3 : FVec F S320x512 .f32 :=
  tile3 (View.ld x0 r0_0) (View.ld x1 r0_2) (View.ld x2 r0_15) (View.ld x3 r0_16) (View.ld x4 r0_0) (View.ld x5 r0_2) (View.ld x6 r0_15) (View.ld x7 r0_16) (View.ld x8 r0_1) (View.ld x9 r0_17)

theorem out0_10_eq :
    out0_10 x0 x1 x2 x3 x4 x5 x6 x7 x8 x9 = View.canon [⟨r0_18, piece3 x0 x1 x2 x3 x4 x5 x6 x7 x8 x9⟩, ⟨r0_14, piece2 x0 x1 x2 x3 x4 x5 x6 x7 x8 x9⟩, ⟨r0_10, piece1 x0 x1 x2 x3 x4 x5 x6 x7 x8 x9⟩, ⟨r0_6, piece0 x0 x1 x2 x3 x4 x5 x6 x7 x8 x9⟩] := rfl

end

def cellAt (a0 : Vec Ideal S320x151 .f32) (a1 : Vec Ideal S320x4 .f32) (a2 : Vec Ideal S151x512 .bf16) (a3 : Vec Ideal S4x512 .f32) (a4 : Vec Ideal S320x151 .f32) (a5 : Vec Ideal S320x4 .f32) (a6 : Vec Ideal S151x512 .bf16) (a7 : Vec Ideal S4x512 .f32) (a8 : Vec Ideal S320x51 .f32) (a9 : Vec Ideal S51x512 .bf16) (p : Fin 320) (q : Fin 512) : EReal :=
  Cert.Cost.cellK (fun k => a0 (ix2 p k)) (fun d => a1 (ix2 p d)) (fun k => a2 (ix2 k q)) (fun d => a3 (ix2 d q))
    (fun k => a4 (ix2 p k)) (fun d => a5 (ix2 p d)) (fun k => a6 (ix2 k q)) (fun d => a7 (ix2 d q))
    (fun k => a8 (ix2 p k)) (fun k => a9 (ix2 k q))

def Gblk (x0 : Vec Ideal S320x151 .f32) (x1 : Vec Ideal S320x4 .f32) (x2 : Vec Ideal S151x2048 .bf16) (x3 : Vec Ideal S4x2048 .f32) (x4 : Vec Ideal S320x151 .f32) (x5 : Vec Ideal S320x4 .f32) (x6 : Vec Ideal S151x2048 .bf16) (x7 : Vec Ideal S4x2048 .f32) (x8 : Vec Ideal S320x51 .f32) (x9 : Vec Ideal S51x2048 .bf16) : S320x2048.Idx → EReal := fun y =>
  Cert.Cost.cellK (fun k => x0 (ix2 (y 0) k)) (fun d => x1 (ix2 (y 0) d)) (fun k => x2 (ix2 k (y 1))) (fun d => x3 (ix2 d (y 1)))
    (fun k => x4 (ix2 (y 0) k)) (fun d => x5 (ix2 (y 0) d)) (fun k => x6 (ix2 k (y 1))) (fun d => x7 (ix2 d (y 1)))
    (fun k => x8 (ix2 (y 0) k)) (fun k => x9 (ix2 k (y 1)))

end Cert.KernelIdeal.Tile

end
-- ==== Proof.KOps.lean ====
import proofs.«408227_j14096082666122_3_alg».proof.Proof.KPieces
import Idealize.ShloMosaic.Lib.ValueLayout

open Cert.KernelIdeal Cert.KernelIdeal.Gen Idealize.ShloMosaic Idealize.ShloMosaic.TcCoe Idealize.ShloMosaic.ValueIdx

namespace Cert.KernelIdeal.Tile.Ops

variable {α : Type}

theorem sc_col (v : S320.Idx → α) (h : S320.ShapeCasts S320x1) (p : Fin 320) (z : Fin 1) :
    shapeCast S320x1 v h (ix2 p z) = v (ix1 p) :=
  shapeCast_apply v h _ _ (by
    rw [Shape.rowMajor_val_one, Shape.rowMajor_val_two]
    show p.val = p.val * 1 + z.val
    omega)

theorem sc_uncol (v : S320x1.Idx → α) (h : S320x1.ShapeCasts S320) (p : Fin 320) :
    shapeCast S320 v h (ix1 p) = v (ix2 p (0 : Fin 1)) :=
  shapeCast_apply v h _ _ (by
    rw [Shape.rowMajor_val_one, Shape.rowMajor_val_two]
    show p.val * 1 + 0 = p.val
    omega)

theorem bt_col {n : ℕ} (v : S320x1.Idx → α) (h : S320x1.Broadcasts ⟨2, ![320, n]⟩) (p : Fin 320) (k : Fin n) :
    broadcastTo ⟨2, ![320, n]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

theorem sl_col (o : ℕ) (d : Fin 4) (hd : d.val = o) (x : S320x4.Idx → α) (h : S320x4.Slices ![0, o] S320x1) (p : Fin 320)
    (z : Fin 1) : extractStridedSlice S320x1 ![0, o] x h (ix2 p z) = x (ix2 p d) :=
  slice2_axis1_apply o x h p z d (by omega)

theorem sl_row (o : ℕ) (d : Fin 4) (hd : d.val = o) (x : S4x512.Idx → α) (h : S4x512.Slices ![o, 0] S1x512) (z : Fin 1)
    (q : Fin 512) : extractStridedSlice S1x512 ![o, 0] x h (ix2 z q) = x (ix2 d q) :=
  slice2_axis0_apply o x h z q d (by omega)

theorem lift_row {n : ℕ} (h : Shape.Reduces ⟨2, ![320, n]⟩ [1] S320) (p : Fin 320) (k : Fin n) :
    h.lift (ix1 p) k = ix2 p k := by
  funext c; apply Fin.ext
  match c with
  | ⟨0, _⟩ => rfl
  | ⟨1, _⟩ => rfl

theorem red_max {n : ℕ} (v : FVec Ideal ⟨2, ![320, n]⟩ .f32) (h : Shape.Reduces ⟨2, ![320, n]⟩ [1] S320) (hφ : FKind.Formats .f32)
    (hacc : (0xFF800000#32 : BitVec 32) = 0xFF800000#32) (p : Fin 320) :
    multiReduction (F := Ideal) .maximumf ([1] : List (Fin 2)) S320 v 0xFF800000#32 h hφ hacc (ix1 p)
      = (Finset.univ : Finset (Fin n)).fold max (Ideal.ofBits .f32 0xFF800000#32) (fun k => v (ix2 p k)) :=
  (Ideal.multiReduction_maximumf_single v _ h hφ hacc (ix1 p)).trans
    (congrArg (Finset.univ.fold max _) (funext fun k => congrArg v (lift_row h p k)))

theorem red_add {n : ℕ} (v : FVec Ideal ⟨2, ![320, n]⟩ .f32) (h : Shape.Reduces ⟨2, ![320, n]⟩ [1] S320) (hφ : FKind.Formats .f32)
    (hacc : (0x00000000#32 : BitVec 32) = 0x00000000#32) (p : Fin 320) :
    multiReduction (F := Ideal) .add ([1] : List (Fin 2)) S320 v 0x00000000#32 h hφ hacc (ix1 p) = ∑ k : Fin n, v (ix2 p k) :=
  (Ideal.multiReduction_add_single v _ h hφ hacc (ix1 p)).trans
    (Finset.sum_congr rfl fun k _ => congrArg v (lift_row h p k))

/-- A block product with zero accumulator, read at (p, q): the sum over the contracted axis of row p times column q. -/
theorem mm {n : ℕ} (D : DotDims ⟨2, ![320, n]⟩ ⟨2, ![n, 512]⟩ S320x512) (hr : D.contr.rank = 1)
    (hs : D.contr.size ⟨0, by omega⟩ = n)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (l : FVec Ideal ⟨2, ![320, n]⟩ .bf16) (r : FVec Ideal ⟨2, ![n, 512]⟩ .bf16) (p : Fin 320) (q : Fin 512) :
    matmul D none l r (constant (F := Ideal) S320x512 .f32 0x00000000#32) (ix2 p q) = ∑ c : Fin n, l (ix2 p c) * r (ix2 c q) := by
  refine (Ideal.matmul_constant_zero_apply D none l r (ix2 p q)).trans ?_
  rw [← Equiv.sum_comp (contrEquiv1 D n hr hs).symm]
  refine Finset.sum_congr rfl fun c _ => ?_
  have c2 := contrEquiv1_symm_val D n hr hs c
  have l2 : D.lhsIdx (ix2 p q) ((contrEquiv1 D n hr hs).symm c) = ix2 p c := by
    funext ax; apply Fin.ext
    match ax with
    | ⟨0, _⟩ => exact hl0 _ _
    | ⟨1, _⟩ => exact (hl1 _ _).trans c2
  have r2 : D.rhsIdx (ix2 p q) ((contrEquiv1 D n hr hs).symm c) = ix2 c q := by
    funext ax; apply Fin.ext
    match ax with
    | ⟨0, _⟩ => exact (hr0 _ _).trans c2
    | ⟨1, _⟩ => exact hr1 _ _
  rw [l2, r2]

theorem mm151 (l : FVec Ideal S320x151 .bf16) (r : FVec Ideal S151x512 .bf16) (p : Fin 320) (q : Fin 512) :
    matmul dot_S320x151_S151x512_S320x512_1_0_0_1_n_n none l r (constant (F := Ideal) S320x512 .f32 0x00000000#32) (ix2 p q)
      = ∑ c : Fin 151, l (ix2 p c) * r (ix2 c q) :=
  mm _ rfl rfl (fun _ _ => rfl) (fun _ _ => rfl) (fun _ _ => rfl) (fun _ _ => rfl) l r p q

theorem mm51 (l : FVec Ideal S320x51 .bf16) (r : FVec Ideal S51x512 .bf16) (p : Fin 320) (q : Fin 512) :
    matmul dot_S320x51_S51x512_S320x512_1_0_0_1_n_n none l r (constant (F := Ideal) S320x512 .f32 0x00000000#32) (ix2 p q)
      = ∑ c : Fin 51, l (ix2 p c) * r (ix2 c q) :=
  mm _ rfl rfl (fun _ _ => rfl) (fun _ _ => rfl) (fun _ _ => rfl) (fun _ _ => rfl) l r p q

theorem exp_at {s : Shape} {φ : FTy} (a : FVec Ideal s φ) (i : s.Idx) : exp a i = Ideal.exp (a i) := rfl
theorem sqrt_at {s : Shape} {φ : FTy} (a : FVec Ideal s φ) (i : s.Idx) : sqrt a i = Ideal.sqrt (a i) := rfl
theorem absf_at {s : Shape} {φ : FTy} (a : FVec Ideal s φ) (i : s.Idx) : absf a i = max (a i) (-(a i)) := rfl
theorem word_at (b : BitVec 32) : Scalar.ofBits (F := Ideal) .f32 b = Ideal.ofBits .f32 b := rfl

theorem pay2_at (a0 : Vec Ideal S320x151 .f32) (p : Fin 320) (k : Fin 151) :
    k0_pay2 a0 (ix2 p k) = Cert.Cost.softmaxAt (fun j => a0 (ix2 p j)) k := by
  simp only [k0_pay2, truncf_apply, divf_apply, exp_at, subf_apply, maximumf_apply, broadcast_apply, word_at,
    shapeCast_self, bt_col, sc_col, red_max, red_add, Cert.Cost.softmaxAt, Cert.Cost.rowMax]

theorem pay3_at (a4 : Vec Ideal S320x151 .f32) (p : Fin 320) (k : Fin 151) :
    k0_pay3 a4 (ix2 p k) = Cert.Cost.softmaxAt (fun j => a4 (ix2 p j)) k :=
  pay2_at a4 p k

theorem pay4_at (a8 : Vec Ideal S320x51 .f32) (p : Fin 320) (k : Fin 51) :
    k0_pay4 a8 (ix2 p k) = Cert.Cost.softmaxAt (fun j => a8 (ix2 p j)) k := by
  simp only [k0_pay4, truncf_apply, divf_apply, exp_at, subf_apply, maximumf_apply, broadcast_apply, word_at,
    shapeCast_self, bt_col, sc_col, red_max, red_add, Cert.Cost.softmaxAt, Cert.Cost.rowMax]

end Cert.KernelIdeal.Tile.Ops
-- ==== Proof.KTile0.lean ====
import proofs.«408227_j14096082666122_3_alg».proof.Proof.KOps

open Cert.KernelIdeal Cert.KernelIdeal.Gen Idealize.ShloMosaic Idealize.ShloMosaic.TcCoe Idealize.ShloMosaic.ValueIdx

namespace Cert.KernelIdeal.Tile

open Cert.KernelIdeal.Tile.Ops

theorem tile0_apply (a0 : Vec Ideal S320x151 .f32) (a1 : Vec Ideal S320x4 .f32) (a2 : Vec Ideal S151x512 .bf16) (a3 : Vec Ideal S4x512 .f32) (a4 : Vec Ideal S320x151 .f32) (a5 : Vec Ideal S320x4 .f32) (a6 : Vec Ideal S151x512 .bf16) (a7 : Vec Ideal S4x512 .f32) (a8 : Vec Ideal S320x51 .f32) (a9 : Vec Ideal S51x512 .bf16) (p : Fin 320) (q : Fin 512) :
    tile0 a0 a1 a2 a3 a4 a5 a6 a7 a8 a9 (ix2 p q) = cellAt a0 a1 a2 a3 a4 a5 a6 a7 a8 a9 p q := by
  simp only [tile0, cellAt, Cert.Cost.cellK, Cert.Cost.total, Cert.Cost.branch, Cert.Cost.giou, Cert.Cost.l1, Cert.Cost.l2,
    Cert.Cost.inter, Cert.Cost.union, Cert.Cost.hull, Cert.Cost.area, Cert.Cost.x1, Cert.Cost.y1, Cert.Cost.x2, Cert.Cost.y2,
    Cert.Cost.clip0, Cert.Cost.absE,
    k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64,
    mulf_apply, addf_apply, subf_apply, divf_apply, maximumf_apply, minimumf_apply, broadcast_apply, absf_at, sqrt_at, word_at,
    shapeCast_self, sc_col, sc_uncol, shapeCast_a_1a_apply, shapeCast_1a_a_apply, bt_col, broadcastTo_1b_ab_apply,
    sl_col 0 0 rfl, sl_col 1 1 rfl, sl_col 2 2 rfl, sl_col 3 3 rfl, sl_row 0 0 rfl, sl_row 1 1 rfl, sl_row 2 2 rfl, sl_row 3 3 rfl,
    mm151, mm51, pay2_at, pay3_at, pay4_at, Ideal.ofBits_zero_f32, zero_sub]

end Cert.KernelIdeal.Tile
-- ==== Proof.KTile1.lean ====
import proofs.«408227_j14096082666122_3_alg».proof.Proof.KOps

open Cert.KernelIdeal Cert.KernelIdeal.Gen Idealize.ShloMosaic Idealize.ShloMosaic.TcCoe Idealize.ShloMosaic.ValueIdx

namespace Cert.KernelIdeal.Tile

open Cert.KernelIdeal.Tile.Ops

theorem tile1_apply (a0 : Vec Ideal S320x151 .f32) (a1 : Vec Ideal S320x4 .f32) (a2 : Vec Ideal S151x512 .bf16) (a3 : Vec Ideal S4x512 .f32) (a4 : Vec Ideal S320x151 .f32) (a5 : Vec Ideal S320x4 .f32) (a6 : Vec Ideal S151x512 .bf16) (a7 : Vec Ideal S4x512 .f32) (a8 : Vec Ideal S320x51 .f32) (a9 : Vec Ideal S51x512 .bf16) (p : Fin 320) (q : Fin 512) :
    tile1 a0 a1 a2 a3 a4 a5 a6 a7 a8 a9 (ix2 p q) = cellAt a0 a1 a2 a3 a4 a5 a6 a7 a8 a9 p q := by
  simp only [tile1, cellAt, Cert.Cost.cellK, Cert.Cost.total, Cert.Cost.branch, Cert.Cost.giou, Cert.Cost.l1, Cert.Cost.l2,
    Cert.Cost.inter, Cert.Cost.union, Cert.Cost.hull, Cert.Cost.area, Cert.Cost.x1, Cert.Cost.y1, Cert.Cost.x2, Cert.Cost.y2,
    Cert.Cost.clip0, Cert.Cost.absE,
    k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105,
    mulf_apply, addf_apply, subf_apply, divf_apply, maximumf_apply, minimumf_apply, broadcast_apply, absf_at, sqrt_at, word_at,
    shapeCast_self, sc_col, sc_uncol, shapeCast_a_1a_apply, shapeCast_1a_a_apply, bt_col, broadcastTo_1b_ab_apply,
    sl_col 0 0 rfl, sl_col 1 1 rfl, sl_col 2 2 rfl, sl_col 3 3 rfl, sl_row 0 0 rfl, sl_row 1 1 rfl, sl_row 2 2 rfl, sl_row 3 3 rfl,
    mm151, mm51, pay2_at, pay3_at, pay4_at, Ideal.ofBits_zero_f32, zero_sub]

end Cert.KernelIdeal.Tile
-- ==== Proof.KTile2.lean ====
import proofs.«408227_j14096082666122_3_alg».proof.Proof.KOps

open Cert.KernelIdeal Cert.KernelIdeal.Gen Idealize.ShloMosaic Idealize.ShloMosaic.TcCoe Idealize.ShloMosaic.ValueIdx

namespace Cert.KernelIdeal.Tile

open Cert.KernelIdeal.Tile.Ops

theorem tile2_apply (a0 : Vec Ideal S320x151 .f32) (a1 : Vec Ideal S320x4 .f32) (a2 : Vec Ideal S151x512 .bf16) (a3 : Vec Ideal S4x512 .f32) (a4 : Vec Ideal S320x151 .f32) (a5 : Vec Ideal S320x4 .f32) (a6 : Vec Ideal S151x512 .bf16) (a7 : Vec Ideal S4x512 .f32) (a8 : Vec Ideal S320x51 .f32) (a9 : Vec Ideal S51x512 .bf16) (p : Fin 320) (q : Fin 512) :
    tile2 a0 a1 a2 a3 a4 a5 a6 a7 a8 a9 (ix2 p q) = cellAt a0 a1 a2 a3 a4 a5 a6 a7 a8 a9 p q := by
  simp only [tile2, cellAt, Cert.Cost.cellK, Cert.Cost.total, Cert.Cost.branch, Cert.Cost.giou, Cert.Cost.l1, Cert.Cost.l2,
    Cert.Cost.inter, Cert.Cost.union, Cert.Cost.hull, Cert.Cost.area, Cert.Cost.x1, Cert.Cost.y1, Cert.Cost.x2, Cert.Cost.y2,
    Cert.Cost.clip0, Cert.Cost.absE,
    k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147,
    mulf_apply, addf_apply, subf_apply, divf_apply, maximumf_apply, minimumf_apply, broadcast_apply, absf_at, sqrt_at, word_at,
    shapeCast_self, sc_col, sc_uncol, shapeCast_a_1a_apply, shapeCast_1a_a_apply, bt_col, broadcastTo_1b_ab_apply,
    sl_col 0 0 rfl, sl_col 1 1 rfl, sl_col 2 2 rfl, sl_col 3 3 rfl, sl_row 0 0 rfl, sl_row 1 1 rfl, sl_row 2 2 rfl, sl_row 3 3 rfl,
    mm151, mm51, pay2_at, pay3_at, pay4_at, Ideal.ofBits_zero_f32, zero_sub]

end Cert.KernelIdeal.Tile
-- ==== Proof.KTile3.lean ====
import proofs.«408227_j14096082666122_3_alg».proof.Proof.KOps

open Cert.KernelIdeal Cert.KernelIdeal.Gen Idealize.ShloMosaic Idealize.ShloMosaic.TcCoe Idealize.ShloMosaic.ValueIdx

namespace Cert.KernelIdeal.Tile

open Cert.KernelIdeal.Tile.Ops

theorem tile3_apply (a0 : Vec Ideal S320x151 .f32) (a1 : Vec Ideal S320x4 .f32) (a2 : Vec Ideal S151x512 .bf16) (a3 : Vec Ideal S4x512 .f32) (a4 : Vec Ideal S320x151 .f32) (a5 : Vec Ideal S320x4 .f32) (a6 : Vec Ideal S151x512 .bf16) (a7 : Vec Ideal S4x512 .f32) (a8 : Vec Ideal S320x51 .f32) (a9 : Vec Ideal S51x512 .bf16) (p : Fin 320) (q : Fin 512) :
    tile3 a0 a1 a2 a3 a4 a5 a6 a7 a8 a9 (ix2 p q) = cellAt a0 a1 a2 a3 a4 a5 a6 a7 a8 a9 p q := by
  simp only [tile3, cellAt, Cert.Cost.cellK, Cert.Cost.total, Cert.Cost.branch, Cert.Cost.giou, Cert.Cost.l1, Cert.Cost.l2,
    Cert.Cost.inter, Cert.Cost.union, Cert.Cost.hull, Cert.Cost.area, Cert.Cost.x1, Cert.Cost.y1, Cert.Cost.x2, Cert.Cost.y2,
    Cert.Cost.clip0, Cert.Cost.absE,
    k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189,
    mulf_apply, addf_apply, subf_apply, divf_apply, maximumf_apply, minimumf_apply, broadcast_apply, absf_at, sqrt_at, word_at,
    shapeCast_self, sc_col, sc_uncol, shapeCast_a_1a_apply, shapeCast_1a_a_apply, bt_col, broadcastTo_1b_ab_apply,
    sl_col 0 0 rfl, sl_col 1 1 rfl, sl_col 2 2 rfl, sl_col 3 3 rfl, sl_row 0 0 rfl, sl_row 1 1 rfl, sl_row 2 2 rfl, sl_row 3 3 rfl,
    mm151, mm51, pay2_at, pay3_at, pay4_at, Ideal.ofBits_zero_f32, zero_sub]

end Cert.KernelIdeal.Tile
-- ==== Proof.KBody.lean ====
import proofs.«408227_j14096082666122_3_alg».proof.Proof.KPieces
import Idealize.ShloMosaic.Lib.Pipeline.Value

noncomputable section

namespace Cert.KernelIdeal.Tile

open Cert.KernelIdeal Cert.KernelIdeal.Gen Idealize.ShloMosaic Idealize.ShloMosaic.TcCoe Idealize.ShloMosaic.ValueIdx

def Reads (tile : Vec Ideal S320x151 .f32 → Vec Ideal S320x4 .f32 → Vec Ideal S151x512 .bf16 → Vec Ideal S4x512 .f32 → Vec Ideal S320x151 .f32 → Vec Ideal S320x4 .f32 → Vec Ideal S151x512 .bf16 → Vec Ideal S4x512 .f32 → Vec Ideal S320x51 .f32 → Vec Ideal S51x512 .bf16 → FVec Ideal S320x512 .f32) : Prop :=
  ∀ a0 a1 a2 a3 a4 a5 a6 a7 a8 a9 (p : Fin 320) (q : Fin 512), tile a0 a1 a2 a3 a4 a5 a6 a7 a8 a9 (ix2 p q) = cellAt a0 a1 a2 a3 a4 a5 a6 a7 a8 a9 p q

structure TilesRead : Prop where
  t0 : Reads tile0
  t1 : Reads tile1
  t2 : Reads tile2
  t3 : Reads tile3

variable (H : TilesRead) (x0 : Vec Ideal S320x151 .f32) (x1 : Vec Ideal S320x4 .f32) (x2 : Vec Ideal S151x2048 .bf16) (x3 : Vec Ideal S4x2048 .f32) (x4 : Vec Ideal S320x151 .f32) (x5 : Vec Ideal S320x4 .f32) (x6 : Vec Ideal S151x2048 .bf16) (x7 : Vec Ideal S4x2048 .f32) (x8 : Vec Ideal S320x51 .f32) (x9 : Vec Ideal S51x2048 .bf16)
include H

theorem piece0_emb (x : S320x512.Idx) :
    piece0 x0 x1 x2 x3 x4 x5 x6 x7 x8 x9 x = Gblk x0 x1 x2 x3 x4 x5 x6 x7 x8 x9 (r0_6.emb x) := by
  obtain ⟨p, q, rfl⟩ : ∃ (p : Fin 320) (q : Fin 512), x = ix2 p q := ⟨x 0, x 1, eq_ix2 x⟩
  unfold piece0
  rw [H.t0]
  unfold cellAt Gblk
  congr 1 <;> (funext k; dsimp only [View.ld]; refine congrArg _ (funext fun a => Fin.ext ?_); match a with
    | ⟨0, _⟩ => first | rfl | exact (Nat.zero_add _).trans (Nat.one_mul _)
    | ⟨1, _⟩ => first | rfl | exact (Nat.zero_add _).trans (Nat.one_mul _))

theorem piece1_emb (x : S320x512.Idx) :
    piece1 x0 x1 x2 x3 x4 x5 x6 x7 x8 x9 x = Gblk x0 x1 x2 x3 x4 x5 x6 x7 x8 x9 (r0_10.emb x) := by
  obtain ⟨p, q, rfl⟩ : ∃ (p : Fin 320) (q : Fin 512), x = ix2 p q := ⟨x 0, x 1, eq_ix2 x⟩
  unfold piece1
  rw [H.t1]
  unfold cellAt Gblk
  congr 1 <;> (funext k; dsimp only [View.ld]; refine congrArg _ (funext fun a => Fin.ext ?_); match a with
    | ⟨0, _⟩ => first | rfl | exact (Nat.zero_add _).trans (Nat.one_mul _)
    | ⟨1, _⟩ => first | rfl | exact (Nat.zero_add _).trans (Nat.one_mul _))

theorem piece2_emb (x : S320x512.Idx) :
    piece2 x0 x1 x2 x3 x4 x5 x6 x7 x8 x9 x = Gblk x0 x1 x2 x3 x4 x5 x6 x7 x8 x9 (r0_14.emb x) := by
  obtain ⟨p, q, rfl⟩ : ∃ (p : Fin 320) (q : Fin 512), x = ix2 p q := ⟨x 0, x 1, eq_ix2 x⟩
  unfold piece2
  rw [H.t2]
  unfold cellAt Gblk
  congr 1 <;> (funext k; dsimp only [View.ld]; refine congrArg _ (funext fun a => Fin.ext ?_); match a with
    | ⟨0, _⟩ => first | rfl | exact (Nat.zero_add _).trans (Nat.one_mul _)
    | ⟨1, _⟩ => first | rfl | exact (Nat.zero_add _).trans (Nat.one_mul _))

theorem piece3_emb (x : S320x512.Idx) :
    piece3 x0 x1 x2 x3 x4 x5 x6 x7 x8 x9 x = Gblk x0 x1 x2 x3 x4 x5 x6 x7 x8 x9 (r0_18.emb x) := by
  obtain ⟨p, q, rfl⟩ : ∃ (p : Fin 320) (q : Fin 512), x = ix2 p q := ⟨x 0, x 1, eq_ix2 x⟩
  unfold piece3
  rw [H.t3]
  unfold cellAt Gblk
  congr 1 <;> (funext k; dsimp only [View.ld]; refine congrArg _ (funext fun a => Fin.ext ?_); match a with
    | ⟨0, _⟩ => first | rfl | exact (Nat.zero_add _).trans (Nat.one_mul _)
    | ⟨1, _⟩ => first | rfl | exact (Nat.zero_add _).trans (Nat.one_mul _))

/-- The four column bands tile the block, and each band is the cost cell at its own columns. -/
theorem out0_10_apply (y : S320x2048.Idx) :
    out0_10 x0 x1 x2 x3 x4 x5 x6 x7 x8 x9 y = Gblk x0 x1 x2 x3 x4 x5 x6 x7 x8 x9 y := by
  rw [out0_10_eq]
  refine View.canon_apply_of_pieces (Val := Elt Ideal) (e := .f32) (Gblk x0 x1 x2 x3 x4 x5 x6 x7 x8 x9) _ ?_ y (cover0_10 _ _ _ _ y)
  intro pc hpc x
  simp only [List.mem_cons, List.mem_singleton, List.not_mem_nil, or_false] at hpc
  rcases hpc with rfl | rfl | rfl | rfl
  · exact piece3_emb H x0 x1 x2 x3 x4 x5 x6 x7 x8 x9 x
  · exact piece2_emb H x0 x1 x2 x3 x4 x5 x6 x7 x8 x9 x
  · exact piece1_emb H x0 x1 x2 x3 x4 x5 x6 x7 x8 x9 x
  · exact piece0_emb H x0 x1 x2 x3 x4 x5 x6 x7 x8 x9 x

end Cert.KernelIdeal.Tile

end
-- ==== Proof.KValue.lean ====
import proofs.«408227_j14096082666122_3_alg».proof.Proof.KBody
import Idealize.ShloMosaic.Lib.Pipeline.Value
import Idealize.ShloMosaic.Lib.StableHlo.Run

noncomputable section

namespace Cert.KernelIdeal.Val

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

def Gfull (c : Dev nD) : S9600x2048.Idx → EReal := fun i =>
  Cert.Cost.cellK (fun k => (V m c main_v2 : S9600x151.Idx → EReal) (ix2 (i 0) k)) (fun d => (V m c main_v5 : S9600x4.Idx → EReal) (ix2 (i 0) d))
    (fun k => (V m c main_v28 : S151x2048.Idx → EReal) (ix2 k (i 1))) (fun d => (V m c main_v16 : S4x2048.Idx → EReal) (ix2 d (i 1)))
    (fun k => (V m c main_v8 : S9600x151.Idx → EReal) (ix2 (i 0) k)) (fun d => (V m c main_v11 : S9600x4.Idx → EReal) (ix2 (i 0) d))
    (fun k => (V m c main_v35 : S151x2048.Idx → EReal) (ix2 k (i 1))) (fun d => (V m c main_v18 : S4x2048.Idx → EReal) (ix2 d (i 1)))
    (fun k => (V m c main_v14 : S9600x51.Idx → EReal) (ix2 (i 0) k)) (fun k => (V m c main_v42 : S51x2048.Idx → EReal) (ix2 k (i 1)))

theorem cellK_congr {f0 g0 : Fin 151 → EReal} {f1 g1 : Fin 4 → EReal} {f2 g2 : Fin 151 → EReal} {f3 g3 : Fin 4 → EReal}
    {f4 g4 : Fin 151 → EReal} {f5 g5 : Fin 4 → EReal} {f6 g6 : Fin 151 → EReal} {f7 g7 : Fin 4 → EReal}
    {f8 g8 : Fin 51 → EReal} {f9 g9 : Fin 51 → EReal}
    (h0 : f0 = g0) (h1 : f1 = g1) (h2 : f2 = g2) (h3 : f3 = g3) (h4 : f4 = g4) (h5 : f5 = g5) (h6 : f6 = g6) (h7 : f7 = g7)
    (h8 : f8 = g8) (h9 : f9 = g9) :
    Cert.Cost.cellK f0 f1 f2 f3 f4 f5 f6 f7 f8 f9 = Cert.Cost.cellK g0 g1 g2 g3 g4 g5 g6 g7 g8 g9 := by
  subst h0 h1 h2 h3 h4 h5 h6 h7 h8 h9; rfl

/-- Two blocks with the same block index and size on an axis put equal coordinates at the same place of their arrays. -/
theorem emb_tied (w w' : Pipeline.Window sig grid0) (t : Fin grid0.N) (a : Fin w.shape.rank) (a' : Fin w'.shape.rank)
    (hi : w.index t a = w'.index t a') (hs : w.size a = w'.size a') (y : (w.xblock (grid0.coords t)).Idx)
    (y' : (w'.xblock (grid0.coords t)).Idx) (hy : (y a).val = (y' a').val) :
    ((w.rect t).emb y a : ℕ) = ((w'.rect t).emb y' a' : ℕ) := by
  rw [w.rect_emb_val, w'.rect_emb_val, hi, hs, hy]

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

set_option maxHeartbeats 4000000 in
theorem flushed_eq (H : TilesRead) (c : Dev nD) (t : Fin cfg0.N) :
    (dats m 0 c).flushed 10 t = ((cfg0.win 10).blk t).view.read (Elt Ideal) (Gfull m c) := by
  show (cfg0.win 10).cut (grid0.coords t) ((dats m 0 c).after 10 t) = _
  rw [after0_10]
  obtain ⟨⟨a00, a01⟩, ⟨a10, a11⟩, ⟨a20, a21⟩, ⟨a30, a31⟩, ⟨a40, a41⟩, ⟨a50, a51⟩, ⟨a60, a61⟩, ⟨a70, a71⟩, ⟨a80, a81⟩, ⟨a90, a91⟩, ⟨aA0, aA1⟩⟩ := idx_facts t
  funext j
  show out0_10 (iblk m c 0 t) (iblk m c 1 t) (iblk m c 2 t) (iblk m c 3 t) (iblk m c 4 t) (iblk m c 5 t) (iblk m c 6 t) (iblk m c 7 t) (iblk m c 8 t) (iblk m c 9 t) j = Gfull m c (((cfg0.win 10).blk t).view.emb j)
  rw [out0_10_apply H]
  unfold Gblk Gfull
  refine cellK_congr ?_ ?_ ?_ ?_ ?_ ?_ ?_ ?_ ?_ ?_
  · funext k; refine congrArg (V m c main_v2) (funext fun a => Fin.ext ?_)
    match a with
    | ⟨0, _⟩ => exact emb_tied win0_0 win0_10 t 0 0 (a00.trans aA0.symm) rfl (ix2 (j 0) k) j rfl
    | ⟨1, _⟩ => exact win0_0.rect_emb_val_of_index_zero t 1 a01 (ix2 (j 0) k)
  · funext k; refine congrArg (V m c main_v5) (funext fun a => Fin.ext ?_)
    match a with
    | ⟨0, _⟩ => exact emb_tied win0_1 win0_10 t 0 0 (a10.trans aA0.symm) rfl (ix2 (j 0) k) j rfl
    | ⟨1, _⟩ => exact win0_1.rect_emb_val_of_index_zero t 1 a11 (ix2 (j 0) k)
  · funext k; refine congrArg (V m c main_v28) (funext fun a => Fin.ext ?_)
    match a with
    | ⟨0, _⟩ => exact win0_2.rect_emb_val_of_index_zero t 0 a20 (ix2 k (j 1))
    | ⟨1, _⟩ => exact emb_tied win0_2 win0_10 t 1 1 (a21.trans aA1.symm) rfl (ix2 k (j 1)) j rfl
  · funext k; refine congrArg (V m c main_v16) (funext fun a => Fin.ext ?_)
    match a with
    | ⟨0, _⟩ => exact win0_3.rect_emb_val_of_index_zero t 0 a30 (ix2 k (j 1))
    | ⟨1, _⟩ => exact emb_tied win0_3 win0_10 t 1 1 (a31.trans aA1.symm) rfl (ix2 k (j 1)) j rfl
  · funext k; refine congrArg (V m c main_v8) (funext fun a => Fin.ext ?_)
    match a with
    | ⟨0, _⟩ => exact emb_tied win0_4 win0_10 t 0 0 (a40.trans aA0.symm) rfl (ix2 (j 0) k) j rfl
    | ⟨1, _⟩ => exact win0_4.rect_emb_val_of_index_zero t 1 a41 (ix2 (j 0) k)
  · funext k; refine congrArg (V m c main_v11) (funext fun a => Fin.ext ?_)
    match a with
    | ⟨0, _⟩ => exact emb_tied win0_5 win0_10 t 0 0 (a50.trans aA0.symm) rfl (ix2 (j 0) k) j rfl
    | ⟨1, _⟩ => exact win0_5.rect_emb_val_of_index_zero t 1 a51 (ix2 (j 0) k)
  · funext k; refine congrArg (V m c main_v35) (funext fun a => Fin.ext ?_)
    match a with
    | ⟨0, _⟩ => exact win0_6.rect_emb_val_of_index_zero t 0 a60 (ix2 k (j 1))
    | ⟨1, _⟩ => exact emb_tied win0_6 win0_10 t 1 1 (a61.trans aA1.symm) rfl (ix2 k (j 1)) j rfl
  · funext k; refine congrArg (V m c main_v18) (funext fun a => Fin.ext ?_)
    match a with
    | ⟨0, _⟩ => exact win0_7.rect_emb_val_of_index_zero t 0 a70 (ix2 k (j 1))
    | ⟨1, _⟩ => exact emb_tied win0_7 win0_10 t 1 1 (a71.trans aA1.symm) rfl (ix2 k (j 1)) j rfl
  · funext k; refine congrArg (V m c main_v14) (funext fun a => Fin.ext ?_)
    match a with
    | ⟨0, _⟩ => exact emb_tied win0_8 win0_10 t 0 0 (a80.trans aA0.symm) rfl (ix2 (j 0) k) j rfl
    | ⟨1, _⟩ => exact win0_8.rect_emb_val_of_index_zero t 1 a81 (ix2 (j 0) k)
  · funext k; refine congrArg (V m c main_v42) (funext fun a => Fin.ext ?_)
    match a with
    | ⟨0, _⟩ => exact win0_9.rect_emb_val_of_index_zero t 0 a90 (ix2 k (j 1))
    | ⟨1, _⟩ => exact emb_tied win0_9 win0_10 t 1 1 (a91.trans aA1.symm) rfl (ix2 k (j 1)) j rfl

theorem mem_blk (t : Fin cfg0.N) (i : S9600x2048.Idx) :
    i ∈ ((cfg0.win 10).blk t).view.set ↔ ∀ a : Fin 2, win0_10.index t a * S320x2048.size a ≤ (i a).val ∧ (i a).val < win0_10.index t a * S320x2048.size a + S320x2048.size a := by
  show i ∈ ((View.whole main_v43).slice (win0_10.rect t)).set ↔ _
  rw [View.set_slice_whole, Rect.mem_set_unit]
  exact Iff.rfl

theorem cover (i : S9600x2048.Idx) : ∃ t : Fin cfg0.N, (cfg0.win 10).flush t = true ∧ i ∈ ((cfg0.win 10).blk t).view.set := by
  have hi0 : (i 0).val < 9600 := (i 0).isLt
  have hi1 : (i 1).val < 2048 := (i 1).isLt
  let t : Fin cfg0.N := ⟨(i 0).val / 320, by show (i 0).val / 320 < 30; omega⟩
  have ht : t.val = (i 0).val / 320 := rfl
  obtain ⟨-, -, -, -, -, -, -, -, -, -, ⟨aA0, aA1⟩⟩ := idx_facts t
  refine ⟨t, flush0_10 t, ?_⟩
  rw [mem_blk]
  intro a
  match a with
  | ⟨0, _⟩ => show win0_10.index t (0 : Fin 2) * 320 ≤ (i 0).val ∧ (i 0).val < win0_10.index t (0 : Fin 2) * 320 + 320; rw [aA0, ht]; omega
  | ⟨1, _⟩ => show win0_10.index t (1 : Fin 2) * 2048 ≤ (i 1).val ∧ (i 1).val < win0_10.index t (1 : Fin 2) * 2048 + 2048; rw [aA1]; omega

/-- Every entry lies in one row tile, so after the run the array is the cell function everywhere. -/
theorem final (H : TilesRead) (c : Dev nD) : (dats m 0 c).arrAt 10 cfg0.N = Gfull m c :=
  (dats m 0 c).arrAt_eq_of_cover 10 (Gfull m c) (fun t _ => flushed_eq m H c t) cover

theorem tail_eq (H : TilesRead) (c : Dev nD) :
    Pipeline.afterTail₀ cfgs (dats m) 0 (V0 m) [hostOps1] c main_v44
      = shapeCast S32x300x2048 (Gfull m c) shapeCasts_S9600x2048_S32x300x2048 := by
  unfold Pipeline.afterTail₀
  show StableHlo.after hostOps1 _ (Proc.devRef .tc main_v44) = _
  after_results
  have e : Pipeline.withArrays (cfgs 0).spec c (V0 m c) (fun w => (dats m 0 c).arrAt w (cfgs 0).N) (Proc.tc.devRef main_v43) = Gfull m c :=
    (Pipeline.withArrays_arr spec0 launch0.win.arr_inj c _ _ 10).trans (final m H c)
  rw [e]
  rfl

theorem run (H : TilesRead) (ρ : Dev nD → PrngReg) :
    θ_run defs (onTc (τ := τ) (main (F := Ideal))) ⟨m, fun _ => 0, ρ⟩ fun r => ∀ c : Dev nD,
      r.2.mem ((c.tc : Thread nD τ).loc main_v44) = shapeCast S32x300x2048 (Gfull m c) shapeCasts_S9600x2048_S32x300x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
      have R := fun b hs ha => (h c).2 b (Pipeline.mem_restRefs_of b hs ha)
      ⟨(R main_v44 (by decide) (by decide)).trans (tail_eq m H c),
      (R main_arg0 (by decide) (by decide)).trans (W_main_arg0 m (dats m) c),
      (R main_arg1 (by decide) (by decide)).trans (W_main_arg1 m (dats m) c),
      (R main_arg2 (by decide) (by decide)).trans (W_main_arg2 m (dats m) c),
      (R main_arg3 (by decide) (by decide)).trans (W_main_arg3 m (dats m) c),
      (R main_arg4 (by decide) (by decide)).trans (W_main_arg4 m (dats m) c),
      (R main_arg5 (by decide) (by decide)).trans (W_main_arg5 m (dats m) c),
      (R main_arg6 (by decide) (by decide)).trans (W_main_arg6 m (dats m) c),
      (R main_arg7 (by decide) (by decide)).trans (W_main_arg7 m (dats m) c),
      (R main_arg8 (by decide) (by decide)).trans (W_main_arg8 m (dats m) c),
      (R main_arg9 (by decide) (by decide)).trans (W_main_arg9 m (dats m) c)⟩)
    (run_main m ρ)

end Cert.KernelIdeal.Val

end
-- ==== Proof.KHost.lean ====
import proofs.«408227_j14096082666122_3_alg».proof.Proof.Gen.KernelIdeal.Frame
import Idealize.ShloMosaic.Lib.StableHlo.Run
import Idealize.ShloMosaic.Lib.ValueLayout
import Idealize.ShloMosaic.Lib.Pipeline.Value
import Idealize.ShloMosaic.Lib.IdealHost

noncomputable section

namespace Cert.KernelIdeal.HostVal

open Cert.KernelIdeal Cert.KernelIdeal.Gen Idealize.ShloMosaic Idealize.ShloMosaic.TcCoe Idealize.SL.Sem Idealize.ShloMosaic.ValueIdx

theorem uitofp_cmpi_eq_apply {s : Shape} {w : Nat} (A B : IVec s w) (i : s.Idx) :
    (uitofp (F := Ideal) .bf16 (cmpi .eq A B)) i = if A i = B i then (1 : EReal) else 0 := by
  show (((IntOp.cmpi .eq (A i) (B i)).toNat : ℝ) : EReal) = _
  unfold IntOp.cmpi
  by_cases h : A i = B i
  · simp [h]
  · simp [h]

theorem iota_bcast_apply {n T : Nat}
    (h1 : (⟨1, ![n]⟩ : Shape).BroadcastsInDim (⟨2, ![n, 1]⟩ : Shape) ![0])
    (h2 : (⟨2, ![n, 1]⟩ : Shape).BroadcastsInDim (⟨2, ![n, T]⟩ : Shape) ![0, 1])
    (k : Fin n) (t : Fin T) :
    broadcastInDim (⟨2, ![n, T]⟩ : Shape) ![0, 1] h2 (broadcastInDim (⟨2, ![n, 1]⟩ : Shape) ![0] h1 (iotaInDim (⟨1, ![n]⟩ : Shape) 32 0)) (ix2 k t)
      = BitVec.ofNat 32 k.val := by
  have hk := k.isLt
  rw [broadcastInDim_apply _ h2 _ (ix2 k t) (ix2 k (0 : Fin 1)) (fun a => by
        match a with
        | ⟨0, _⟩ => show k.val = if n = 1 then 0 else k.val; split <;> omega
        | ⟨1, _⟩ => show (0 : Fin 1).val = if 1 = 1 then 0 else t.val; rfl)]
  rw [broadcastInDim_apply _ h1 _ (ix2 k (0 : Fin 1)) (ix1 k) (fun a => by
        match a with
        | ⟨0, _⟩ => show k.val = if n = 1 then 0 else k.val; split <;> omega)]
  rfl

theorem lab_bcast_apply {n T : Nat} (lab : IVec (⟨1, ![T]⟩ : Shape) 32)
    (h1 : (⟨1, ![T]⟩ : Shape).BroadcastsInDim (⟨2, ![1, T]⟩ : Shape) ![1])
    (h2 : (⟨2, ![1, T]⟩ : Shape).BroadcastsInDim (⟨2, ![n, T]⟩ : Shape) ![0, 1])
    (k : Fin n) (t : Fin T) :
    broadcastInDim (⟨2, ![n, T]⟩ : Shape) ![0, 1] h2 (broadcastInDim (⟨2, ![1, T]⟩ : Shape) ![1] h1 lab) (ix2 k t)
      = lab (ix1 t) := by
  have ht := t.isLt
  rw [broadcastInDim_apply _ h2 _ (ix2 k t) (ix2 (0 : Fin 1) t) (fun a => by
        match a with
        | ⟨0, _⟩ => show (0 : Fin 1).val = if 1 = 1 then 0 else k.val; rfl
        | ⟨1, _⟩ => show t.val = if T = 1 then 0 else t.val; split <;> omega)]
  rw [broadcastInDim_apply _ h1 _ (ix2 (0 : Fin 1) t) (ix1 t) (fun a => by
        match a with
        | ⟨0, _⟩ => show t.val = if T = 1 then 0 else t.val; split <;> omega)]

section anyF
variable {F : FTy → Type} [FloatOps F]
variable (m : (ℓ : Loc nD τ sig) → Buf (Elt F) ℓ)

theorem V_v2 (c : Dev nD) : (V m c main_v2 : FVec F S9600x151 .f32) =
    shapeCast _ (shapeCast _ (extractStridedSlice S1x32x300x151 ![5, 0, 0, 0] (m ((c.tc : Thread nD τ).loc main_arg0)) slices_S6x32x300x151_S1x32x300x151_5_0_0_0) shapeCasts_S1x32x300x151_S32x300x151) shapeCasts_S32x300x151_S9600x151 := by
  show StableHlo.after hostOps0 _ _ = _
  after_results
  rfl

theorem V_v5 (c : Dev nD) : (V m c main_v5 : FVec F S9600x4 .f32) =
    shapeCast _ (shapeCast _ (extractStridedSlice S1x32x300x4 ![5, 0, 0, 0] (m ((c.tc : Thread nD τ).loc main_arg1)) slices_S6x32x300x4_S1x32x300x4_5_0_0_0) shapeCasts_S1x32x300x4_S32x300x4) shapeCasts_S32x300x4_S9600x4 := by
  show StableHlo.after hostOps0 _ _ = _
  after_results
  rfl

theorem V_v8 (c : Dev nD) : (V m c main_v8 : FVec F S9600x151 .f32) =
    shapeCast _ (shapeCast _ (extractStridedSlice S1x32x300x151 ![5, 0, 0, 0] (m ((c.tc : Thread nD τ).loc main_arg4)) slices_S6x32x300x151_S1x32x300x151_5_0_0_0) shapeCasts_S1x32x300x151_S32x300x151) shapeCasts_S32x300x151_S9600x151 := by
  show StableHlo.after hostOps0 _ _ = _
  after_results
  rfl

theorem V_v11 (c : Dev nD) : (V m c main_v11 : FVec F S9600x4 .f32) =
    shapeCast _ (shapeCast _ (extractStridedSlice S1x32x300x4 ![5, 0, 0, 0] (m ((c.tc : Thread nD τ).loc main_arg5)) slices_S6x32x300x4_S1x32x300x4_5_0_0_0) shapeCasts_S1x32x300x4_S32x300x4) shapeCasts_S32x300x4_S9600x4 := by
  show StableHlo.after hostOps0 _ _ = _
  after_results
  rfl

theorem V_v14 (c : Dev nD) : (V m c main_v14 : FVec F S9600x51 .f32) =
    shapeCast _ (shapeCast _ (extractStridedSlice S1x32x300x51 ![5, 0, 0, 0] (m ((c.tc : Thread nD τ).loc main_arg8)) slices_S6x32x300x51_S1x32x300x51_5_0_0_0) shapeCasts_S1x32x300x51_S32x300x51) shapeCasts_S32x300x51_S9600x51 := by
  show StableHlo.after hostOps0 _ _ = _
  after_results
  rfl

theorem V_v15 (c : Dev nD) : (V m c main_v15 : FVec F S2048x4 .f32) =
    shapeCast _ (m ((c.tc : Thread nD τ).loc main_arg3)) shapeCasts_S32x64x4_S2048x4 := by
  show StableHlo.after hostOps0 _ _ = _
  after_results
  rfl

theorem V_v17 (c : Dev nD) : (V m c main_v17 : FVec F S2048x4 .f32) =
    shapeCast _ (m ((c.tc : Thread nD τ).loc main_arg7)) shapeCasts_S32x64x4_S2048x4 := by
  show StableHlo.after hostOps0 _ _ = _
  after_results
  rfl

theorem V_v19 (c : Dev nD) : (V m c main_v19 : IVec S2048 32) =
    shapeCast _ (m ((c.tc : Thread nD τ).loc main_arg2)) shapeCasts_S32x64_S2048 := by
  show StableHlo.after hostOps0 _ _ = _
  after_results
  rfl

theorem V_v20 (c : Dev nD) : (V m c main_v20 : IVec S2048 32) =
    shapeCast _ (m ((c.tc : Thread nD τ).loc main_arg6)) shapeCasts_S32x64_S2048 := by
  show StableHlo.after hostOps0 _ _ = _
  after_results
  rfl

theorem V_v21 (c : Dev nD) : (V m c main_v21 : IVec S2048 32) =
    shapeCast _ (m ((c.tc : Thread nD τ).loc main_arg9)) shapeCasts_S32x64_S2048 := by
  show StableHlo.after hostOps0 _ _ = _
  after_results
  rfl

theorem tboxT0 (c : Dev nD) (d : Fin 4) (t : Fin 2048) :
    (V m c main_v16 : FVec F S4x2048 .f32) (ix2 d t) = (V m c main_v15 : FVec F S2048x4 .f32) (ix2 t d) := by
  rw [V_v15]
  show (StableHlo.after hostOps0 (fun b => m (c, b)) (Proc.devRef .tc main_v16) : FVec F S4x2048 .f32) (ix2 d t) = _
  after_results
  exact transpose_ix2_apply _ _ d t

theorem tboxT1 (c : Dev nD) (d : Fin 4) (t : Fin 2048) :
    (V m c main_v18 : FVec F S4x2048 .f32) (ix2 d t) = (V m c main_v17 : FVec F S2048x4 .f32) (ix2 t d) := by
  rw [V_v17]
  show (StableHlo.after hostOps0 (fun b => m (c, b)) (Proc.devRef .tc main_v18) : FVec F S4x2048 .f32) (ix2 d t) = _
  after_results
  exact transpose_ix2_apply _ _ d t

end anyF

section ideal
variable (m : (ℓ : Loc nD τ sig) → Buf (Elt Ideal) ℓ)

theorem onehot0 (c : Dev nD) (k : Fin 151) (t : Fin 2048) :
    (V m c main_v28 : FVec Ideal S151x2048 .bf16) (ix2 k t)
      = if BitVec.ofNat 32 k.val = (V m c main_v19 : IVec S2048 32) (ix1 t) then (1 : EReal) else 0 := by
  rw [V_v19]
  show (StableHlo.after hostOps0 (fun b => m (c, b)) (Proc.devRef .tc main_v28) : FVec Ideal S151x2048 .bf16) (ix2 k t) = _
  after_results
  rw [uitofp_cmpi_eq_apply, iota_bcast_apply, lab_bcast_apply]
  rfl

theorem onehot1 (c : Dev nD) (k : Fin 151) (t : Fin 2048) :
    (V m c main_v35 : FVec Ideal S151x2048 .bf16) (ix2 k t)
      = if BitVec.ofNat 32 k.val = (V m c main_v20 : IVec S2048 32) (ix1 t) then (1 : EReal) else 0 := by
  rw [V_v20]
  show (StableHlo.after hostOps0 (fun b => m (c, b)) (Proc.devRef .tc main_v35) : FVec Ideal S151x2048 .bf16) (ix2 k t) = _
  after_results
  rw [uitofp_cmpi_eq_apply, iota_bcast_apply, lab_bcast_apply]
  rfl

theorem onehot2 (c : Dev nD) (k : Fin 51) (t : Fin 2048) :
    (V m c main_v42 : FVec Ideal S51x2048 .bf16) (ix2 k t)
      = if BitVec.ofNat 32 k.val = (V m c main_v21 : IVec S2048 32) (ix1 t) then (1 : EReal) else 0 := by
  rw [V_v21]
  show (StableHlo.after hostOps0 (fun b => m (c, b)) (Proc.devRef .tc main_v42) : FVec Ideal S51x2048 .bf16) (ix2 k t) = _
  after_results
  rw [uitofp_cmpi_eq_apply, iota_bcast_apply, lab_bcast_apply]
  rfl

end ideal

end Cert.KernelIdeal.HostVal
-- ==== Proof.KLink.lean ====
import proofs.«408227_j14096082666122_3_alg».proof.Proof.KValue
import proofs.«408227_j14096082666122_3_alg».proof.Proof.KHost

noncomputable section

namespace Cert.KernelIdeal.Val

open Cert.KernelIdeal Cert.KernelIdeal.Gen Cert.KernelIdeal.Tile Idealize.ShloMosaic Idealize.ShloMosaic.TcCoe Idealize.SL.Sem
open Idealize.ShloMosaic.ValueIdx

theorem toInt_eq_toNat_of_nonneg (w : BitVec 32) (h : 0 ≤ w.toInt) : w.toInt = (w.toNat : Int) := by
  have hc := BitVec.toInt_eq_toNat_cond w
  have hn : w.toNat < 4294967296 := w.isLt
  split at hc
  · exact hc
  · rw [hc] at h; norm_num at h; omega

theorem ofNat_eq_iff_labOf (C : Nat) (hC : 0 < C) (hC' : C ≤ 2147483648) (w : BitVec 32) (h : 0 ≤ w.toInt ∧ w.toInt < C)
    (k : Fin C) : BitVec.ofNat 32 k.val = w ↔ k = Cert.Cost.labOf C hC w := by
  have hw := toInt_eq_toNat_of_nonneg w h.1
  have hlt : w.toNat < C := by have := h.2; rw [hw] at this; exact_mod_cast this
  have hlab : (Cert.Cost.labOf C hC w).val = w.toNat := by
    show min w.toInt.toNat (C - 1) = w.toNat
    rw [hw, Int.toNat_natCast]; omega
  have hk : k.val < C := k.isLt
  constructor
  · intro e
    apply Fin.ext
    rw [hlab, ← e, BitVec.toNat_ofNat]
    exact (Nat.mod_eq_of_lt (by omega)).symm
  · intro e
    have : k.val = w.toNat := by rw [e, hlab]
    rw [this, BitVec.ofNat_toNat, BitVec.setWidth_eq]

variable (m : (ℓ : Loc nD τ sig) → Buf (Elt Ideal) ℓ)

/-- A column of an indicator table picks the labelled class, so the contraction form equals the gathered form. -/
theorem Gfull_eq (c : Dev nD)
    (hL0 : ∀ t : Fin 2048, 0 ≤ ((V m c main_v19 : IVec S2048 32) (ix1 t)).toInt ∧ ((V m c main_v19 : IVec S2048 32) (ix1 t)).toInt < 151)
    (hL1 : ∀ t : Fin 2048, 0 ≤ ((V m c main_v20 : IVec S2048 32) (ix1 t)).toInt ∧ ((V m c main_v20 : IVec S2048 32) (ix1 t)).toInt < 151)
    (hL2 : ∀ t : Fin 2048, 0 ≤ ((V m c main_v21 : IVec S2048 32) (ix1 t)).toInt ∧ ((V m c main_v21 : IVec S2048 32) (ix1 t)).toInt < 51)
    (r : Fin 9600) (t : Fin 2048) :
    Gfull m c (ix2 r t) = Cert.Cost.costAt (V m c main_v2 : FVec Ideal S9600x151 .f32) (V m c main_v5 : FVec Ideal S9600x4 .f32) (V m c main_v19 : IVec S2048 32) (V m c main_v15 : FVec Ideal S2048x4 .f32)
      (V m c main_v8 : FVec Ideal S9600x151 .f32) (V m c main_v11 : FVec Ideal S9600x4 .f32) (V m c main_v20 : IVec S2048 32) (V m c main_v17 : FVec Ideal S2048x4 .f32)
      (V m c main_v14 : FVec Ideal S9600x51 .f32) (V m c main_v21 : IVec S2048 32) r t := by
  unfold Gfull Cert.Cost.costAt
  refine (cellK_congr rfl rfl rfl (funext fun d => HostVal.tboxT0 m c d t) rfl rfl rfl (funext fun d => HostVal.tboxT1 m c d t) rfl rfl).trans ?_
  exact Cert.Cost.cellK_of_onehot _ _ _ _ _ _ _ _ _ _ _ _ _
    (fun k => (HostVal.onehot0 m c k t).trans (if_congr (ofNat_eq_iff_labOf 151 (by decide) (by decide) _ (hL0 t) k) rfl rfl))
    (fun k => (HostVal.onehot1 m c k t).trans (if_congr (ofNat_eq_iff_labOf 151 (by decide) (by decide) _ (hL1 t) k) rfl rfl))
    (fun k => (HostVal.onehot2 m c k t).trans (if_congr (ofNat_eq_iff_labOf 51 (by decide) (by decide) _ (hL2 t) k) rfl rfl))

end Cert.KernelIdeal.Val

end
-- ==== Proof.RSoftmax.lean ====
import proofs.«408227_j14096082666122_3_alg».proof.Proof.RefRead
import proofs.«408227_j14096082666122_3_alg».proof.Proof.Spec
import Idealize.ShloMosaic.PureOps.Reduce
import Idealize.ShloMosaic.PureOps.Ideal
import Idealize.ShloMosaic.PureOps.Ideal.Laws
import Idealize.ShloMosaic.Lib.ValueIdx

noncomputable section

open Cert.ReferenceIdeal Cert.ReferenceIdeal.Gen Cert.ReferenceIdeal.ReadP Idealize.ShloMosaic Idealize.ShloMosaic.TcCoe Idealize.ShloMosaic.ValueIdx
open scoped BigOperators

namespace Cert.ReferenceIdeal.RefVal.Softmax

theorem red151 : Shape.Reduces S9600x151 [(1 : Fin 2)] S9600 := by decide

theorem rowFold151 (X : (⟨S9600x151, .f32⟩ : BufTy).Contents (Elt Ideal)) (init : (⟨S_, .f32⟩ : BufTy).Contents (Elt Ideal))
    (r : Fin 9600) :
    Host.reduce (FloatOps.maximumf (F := Ideal) (φ := .f32)) X init reducesTo_S9600x151_S9600_d1 h_S_ (ix1 r)
      = (Finset.univ : Finset (Fin 151)).fold max (init (Shape.Idx.first h_S_)) (fun k => X (ix2 r k)) := by
  have e := Host.reduce_eq_fold_single (FloatOps.maximumf (F := Ideal) (φ := .f32)) X init reducesTo_S9600x151_S9600_d1 red151 h_S_ (ix1 r)
  have hf : (X ∘ red151.lift (ix1 r)) = fun k : Fin 151 => X (ix2 r k) :=
    funext fun k => congrArg X (funext fun a => Fin.ext (by match a with | ⟨0, _⟩ => rfl | ⟨1, _⟩ => rfl))
  refine e.trans ?_
  show Finset.fold max (init _) (X ∘ red151.lift (ix1 r)) (Finset.univ : Finset (Fin 151)) = _
  rw [hf]
  rfl

theorem red51 : Shape.Reduces S9600x51 [(1 : Fin 2)] S9600 := by decide

theorem rowFold51 (X : (⟨S9600x51, .f32⟩ : BufTy).Contents (Elt Ideal)) (init : (⟨S_, .f32⟩ : BufTy).Contents (Elt Ideal))
    (r : Fin 9600) :
    Host.reduce (FloatOps.maximumf (F := Ideal) (φ := .f32)) X init reducesTo_S9600x51_S9600_d1 h_S_ (ix1 r)
      = (Finset.univ : Finset (Fin 51)).fold max (init (Shape.Idx.first h_S_)) (fun k => X (ix2 r k)) := by
  have e := Host.reduce_eq_fold_single (FloatOps.maximumf (F := Ideal) (φ := .f32)) X init reducesTo_S9600x51_S9600_d1 red51 h_S_ (ix1 r)
  have hf : (X ∘ red51.lift (ix1 r)) = fun k : Fin 51 => X (ix2 r k) :=
    funext fun k => congrArg X (funext fun a => Fin.ext (by match a with | ⟨0, _⟩ => rfl | ⟨1, _⟩ => rfl))
  refine e.trans ?_
  show Finset.fold max (init _) (X ∘ red51.lift (ix1 r)) (Finset.univ : Finset (Fin 51)) = _
  rw [hf]
  rfl

theorem rowFold0 (x : (⟨S6x32x300x151, .f32⟩ : BufTy).Contents (Elt Ideal)) (r : Fin 9600) :
    val_main_v3 (F := Ideal) x (ix1 r)
      = (Finset.univ : Finset (Fin 151)).fold max Cert.Cost.negInfW (fun k => val_main_v2 (F := Ideal) x (ix2 r k)) := by
  unfold val_main_v3
  rw [rowFold151]
  rfl

theorem rowMax0 (x : (⟨S6x32x300x151, .f32⟩ : BufTy).Contents (Elt Ideal)) (r : Fin 9600) :
    val_main_v5 (F := Ideal) x (ix1 r) = Cert.Cost.rowMax (fun j => val_main_v2 (F := Ideal) x (ix2 r j)) := by
  rw [val_main_v5_apply, val_main_v4_apply, val_main_cst_0_apply, rowFold0]
  rfl

theorem expAt0 (x : (⟨S6x32x300x151, .f32⟩ : BufTy).Contents (Elt Ideal)) (r : Fin 9600) (k : Fin 151) :
    val_main_v9 (F := Ideal) x (ix2 r k)
      = Ideal.exp (val_main_v2 (F := Ideal) x (ix2 r k) - Cert.Cost.rowMax (fun j => val_main_v2 (F := Ideal) x (ix2 r j))) := by
  rw [val_main_v9_apply, val_main_v8_apply, val_main_v7_apply, val_main_v6_apply]
  have hi : idx_main_v6 (idx_main_v7 (ix2 r k)) = ix1 r :=
    funext fun a => Fin.ext (by match a with | ⟨0, _⟩ => rfl)
  rw [hi, rowMax0]
  rfl

theorem sumAt0 (x : (⟨S6x32x300x151, .f32⟩ : BufTy).Contents (Elt Ideal)) (r : Fin 9600) :
    val_main_v10 (F := Ideal) x (ix1 r)
      = ∑ j : Fin 151, Ideal.exp (val_main_v2 (F := Ideal) x (ix2 r j) - Cert.Cost.rowMax (fun j => val_main_v2 (F := Ideal) x (ix2 r j))) := by
  rw [val_main_v10_apply, val_main_cst_1_apply]
  show Ideal.ofBits .f32 0x00000000#32 + _ = _
  rw [Ideal.ofBits_zero_f32, zero_add]
  refine Finset.sum_congr rfl fun j _ => ?_
  have hi : idx_main_v10 (ix1 r) j = ix2 r j :=
    funext fun a => Fin.ext (by match a with | ⟨0, _⟩ => rfl | ⟨1, _⟩ => rfl)
  rw [hi, expAt0]

/-- Entry (r, k) of the normalised exponentials is the softmax of row r at k. -/
theorem probs0 (x : (⟨S6x32x300x151, .f32⟩ : BufTy).Contents (Elt Ideal)) (r : Fin 9600) (k : Fin 151) :
    val_main_v13 (F := Ideal) x (ix2 r k) = Cert.Cost.softmaxAt (fun j => val_main_v2 (F := Ideal) x (ix2 r j)) k := by
  rw [val_main_v13_apply, val_main_v12_apply, val_main_v11_apply]
  have hi : idx_main_v11 (idx_main_v12 (ix2 r k)) = ix1 r :=
    funext fun a => Fin.ext (by match a with | ⟨0, _⟩ => rfl)
  rw [hi, sumAt0, expAt0]
  rfl

theorem rowFold1 (x : (⟨S6x32x300x151, .f32⟩ : BufTy).Contents (Elt Ideal)) (r : Fin 9600) :
    val_main_v154 (F := Ideal) x (ix1 r)
      = (Finset.univ : Finset (Fin 151)).fold max Cert.Cost.negInfW (fun k => val_main_v153 (F := Ideal) x (ix2 r k)) := by
  unfold val_main_v154
  rw [rowFold151]
  rfl

theorem rowMax1 (x : (⟨S6x32x300x151, .f32⟩ : BufTy).Contents (Elt Ideal)) (r : Fin 9600) :
    val_main_v156 (F := Ideal) x (ix1 r) = Cert.Cost.rowMax (fun j => val_main_v153 (F := Ideal) x (ix2 r j)) := by
  rw [val_main_v156_apply, val_main_v155_apply, val_main_cst_18_apply, rowFold1]
  rfl

theorem expAt1 (x : (⟨S6x32x300x151, .f32⟩ : BufTy).Contents (Elt Ideal)) (r : Fin 9600) (k : Fin 151) :
    val_main_v160 (F := Ideal) x (ix2 r k)
      = Ideal.exp (val_main_v153 (F := Ideal) x (ix2 r k) - Cert.Cost.rowMax (fun j => val_main_v153 (F := Ideal) x (ix2 r j))) := by
  rw [val_main_v160_apply, val_main_v159_apply, val_main_v158_apply, val_main_v157_apply]
  have hi : idx_main_v157 (idx_main_v158 (ix2 r k)) = ix1 r :=
    funext fun a => Fin.ext (by match a with | ⟨0, _⟩ => rfl)
  rw [hi, rowMax1]
  rfl

theorem sumAt1 (x : (⟨S6x32x300x151, .f32⟩ : BufTy).Contents (Elt Ideal)) (r : Fin 9600) :
    val_main_v161 (F := Ideal) x (ix1 r)
      = ∑ j : Fin 151, Ideal.exp (val_main_v153 (F := Ideal) x (ix2 r j) - Cert.Cost.rowMax (fun j => val_main_v153 (F := Ideal) x (ix2 r j))) := by
  rw [val_main_v161_apply, val_main_cst_19_apply]
  show Ideal.ofBits .f32 0x00000000#32 + _ = _
  rw [Ideal.ofBits_zero_f32, zero_add]
  refine Finset.sum_congr rfl fun j _ => ?_
  have hi : idx_main_v161 (ix1 r) j = ix2 r j :=
    funext fun a => Fin.ext (by match a with | ⟨0, _⟩ => rfl | ⟨1, _⟩ => rfl)
  rw [hi, expAt1]

theorem probs1 (x : (⟨S6x32x300x151, .f32⟩ : BufTy).Contents (Elt Ideal)) (r : Fin 9600) (k : Fin 151) :
    val_main_v164 (F := Ideal) x (ix2 r k) = Cert.Cost.softmaxAt (fun j => val_main_v153 (F := Ideal) x (ix2 r j)) k := by
  rw [val_main_v164_apply, val_main_v163_apply, val_main_v162_apply]
  have hi : idx_main_v162 (idx_main_v163 (ix2 r k)) = ix1 r :=
    funext fun a => Fin.ext (by match a with | ⟨0, _⟩ => rfl)
  rw [hi, sumAt1, expAt1]
  rfl

theorem rowFold2 (x : (⟨S6x32x300x51, .f32⟩ : BufTy).Contents (Elt Ideal)) (r : Fin 9600) :
    val_main_v308 (F := Ideal) x (ix1 r)
      = (Finset.univ : Finset (Fin 51)).fold max Cert.Cost.negInfW (fun k => val_main_v307 (F := Ideal) x (ix2 r k)) := by
  unfold val_main_v308
  rw [rowFold51]
  rfl

theorem rowMax2 (x : (⟨S6x32x300x51, .f32⟩ : BufTy).Contents (Elt Ideal)) (r : Fin 9600) :
    val_main_v310 (F := Ideal) x (ix1 r) = Cert.Cost.rowMax (fun j => val_main_v307 (F := Ideal) x (ix2 r j)) := by
  rw [val_main_v310_apply, val_main_v309_apply, val_main_cst_38_apply, rowFold2]
  rfl

theorem expAt2 (x : (⟨S6x32x300x51, .f32⟩ : BufTy).Contents (Elt Ideal)) (r : Fin 9600) (k : Fin 51) :
    val_main_v314 (F := Ideal) x (ix2 r k)
      = Ideal.exp (val_main_v307 (F := Ideal) x (ix2 r k) - Cert.Cost.rowMax (fun j => val_main_v307 (F := Ideal) x (ix2 r j))) := by
  rw [val_main_v314_apply, val_main_v313_apply, val_main_v312_apply, val_main_v311_apply]
  have hi : idx_main_v311 (idx_main_v312 (ix2 r k)) = ix1 r :=
    funext fun a => Fin.ext (by match a with | ⟨0, _⟩ => rfl)
  rw [hi, rowMax2]
  rfl

theorem sumAt2 (x : (⟨S6x32x300x51, .f32⟩ : BufTy).Contents (Elt Ideal)) (r : Fin 9600) :
    val_main_v315 (F := Ideal) x (ix1 r)
      = ∑ j : Fin 51, Ideal.exp (val_main_v307 (F := Ideal) x (ix2 r j) - Cert.Cost.rowMax (fun j => val_main_v307 (F := Ideal) x (ix2 r j))) := by
  rw [val_main_v315_apply, val_main_cst_39_apply]
  show Ideal.ofBits .f32 0x00000000#32 + _ = _
  rw [Ideal.ofBits_zero_f32, zero_add]
  refine Finset.sum_congr rfl fun j _ => ?_
  have hi : idx_main_v315 (ix1 r) j = ix2 r j :=
    funext fun a => Fin.ext (by match a with | ⟨0, _⟩ => rfl | ⟨1, _⟩ => rfl)
  rw [hi, expAt2]

theorem probs2 (x : (⟨S6x32x300x51, .f32⟩ : BufTy).Contents (Elt Ideal)) (r : Fin 9600) (k : Fin 51) :
    val_main_v318 (F := Ideal) x (ix2 r k) = Cert.Cost.softmaxAt (fun j => val_main_v307 (F := Ideal) x (ix2 r j)) k := by
  rw [val_main_v318_apply, val_main_v317_apply, val_main_v316_apply]
  have hi : idx_main_v316 (idx_main_v317 (ix2 r k)) = ix1 r :=
    funext fun a => Fin.ext (by match a with | ⟨0, _⟩ => rfl)
  rw [hi, sumAt2, expAt2]
  rfl

end Cert.ReferenceIdeal.RefVal.Softmax

end
-- ==== Proof.RGather.lean ====
import proofs.«408227_j14096082666122_3_alg».proof.Proof.RefRead
import proofs.«408227_j14096082666122_3_alg».proof.Proof.Spec
import Idealize.ShloMosaic.Lib.ValueIdx
import Idealize.ShloMosaic.PureOps.Dims
import Idealize.ShloMosaic.PureOps.ShapeOps
import Idealize.ShloMosaic.PureOps.Ideal

noncomputable section

open Cert.ReferenceIdeal Cert.ReferenceIdeal.ReadP Idealize.ShloMosaic Idealize.ShloMosaic.TcCoe Idealize.ShloMosaic.ValueIdx

namespace Cert.ReferenceIdeal.RefVal.Gather

section Col
variable {α : Type}

abbrev colDims (R C T : Nat)
    (wf : GatherDims.WF ⟨2, ![R, C]⟩ ⟨2, ![T, 1]⟩ ⟨2, ![R, T]⟩ [0] [1] [] [1] [] 1 ![R, 1]) :
    GatherDims ⟨2, ![R, C]⟩ ⟨2, ![T, 1]⟩ ⟨2, ![R, T]⟩ where
  offsetDims := [0]
  collapsedSliceDims := [1]
  operandBatchingDims := []
  startIndicesBatchingDims := []
  startIndexMap := [1]
  indexVectorDim := 1
  sliceSizes := ![R, 1]
  wf := wf

/-- A column gather reads row r at the index vector's entry, clamped to the row's range. -/
theorem gather_col_apply {R C T w : Nat} (hC : 0 < C)
    (wf : GatherDims.WF ⟨2, ![R, C]⟩ ⟨2, ![T, 1]⟩ ⟨2, ![R, T]⟩ [0] [1] [] [1] [] 1 ![R, 1])
    (x : (⟨2, ![R, C]⟩ : Shape).Idx → α) (idx : IVec ⟨2, ![T, 1]⟩ w) (r : Fin R) (t : Fin T) :
    Host.gather (colDims R C T wf) x idx (ix2 r t)
      = x (ix2 r ⟨min (idx (ix2 t (0 : Fin 1))).toInt.toNat (C - 1), by omega⟩) := by
  unfold Host.gather
  congr 1
  funext a
  refine Fin.ext ?_
  match a with
  | ⟨0, _⟩ =>
    show (colDims R C T wf).start (ix2 r t) idx 0 + (colDims R C T wf).batchCoord (ix2 r t) 0
      + (colDims R C T wf).offCoord (ix2 r t) 0 = r.val
    rw [GatherDims.batchCoord_eq_zero _ _ _ List.not_mem_nil]
    unfold GatherDims.start
    rw [dif_neg (show (0 : Fin 2) ∉ (colDims R C T wf).startIndexMap from
      (by decide : (0 : Fin 2) ∉ ([1] : List (Fin 2))))]
    simp only [Nat.add_zero, Nat.zero_add]
    unfold GatherDims.offCoord
    rw [dif_pos ((GatherDims.mem_sKept _ _).mpr
      ⟨(by decide : (0 : Fin 2) ∉ ([1] : List (Fin 2))), List.not_mem_nil⟩)]
    rfl
  | ⟨1, _⟩ =>
    show (colDims R C T wf).start (ix2 r t) idx 1 + (colDims R C T wf).batchCoord (ix2 r t) 1
      + (colDims R C T wf).offCoord (ix2 r t) 1 = min (idx (ix2 t (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C T wf).startIndexMap from List.mem_singleton.mpr rfl)]
    have hsi : (colDims R C T wf).siIdx (ix2 r t) ⟨List.idxOf (1 : Fin 2) (colDims R C T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl

theorem gather_col_labOf {R C T : Nat} (hC : 0 < C)
    (wf : GatherDims.WF ⟨2, ![R, C]⟩ ⟨2, ![T, 1]⟩ ⟨2, ![R, T]⟩ [0] [1] [] [1] [] 1 ![R, 1])
    (x : (⟨2, ![R, C]⟩ : Shape).Idx → α) (idx : IVec ⟨2, ![T, 1]⟩ 32) (r : Fin R) (t : Fin T) (l : BitVec 32)
    (hl : idx (ix2 t (0 : Fin 1)) = l) :
    Host.gather (colDims R C T wf) x idx (ix2 r t) = x (ix2 r (Cert.Cost.labOf C hC l)) := by
  subst hl
  rw [gather_col_apply hC]
  rfl

end Col

theorem wrap_of_nonneg (l a : BitVec 32) (h : 0 ≤ l.toInt) :
    Scalar.select (IntOp.cmpi .slt l 0#32) a l = l := by
  have hc : IntOp.cmpi .slt l 0#32 = 0#1 := by
    show BitVec.ofBool (BitVec.slt l 0#32) = 0#1
    have hs : BitVec.slt l 0#32 = false := by
      simp only [BitVec.slt, BitVec.toInt_zero, decide_eq_false_iff_not, not_lt]
      exact h
    rw [hs]; rfl
  rw [hc, select_zero]

theorem class0 (x0 : (⟨S6x32x300x151, .f32⟩ : BufTy).Contents (Elt Ideal))
    (x2 : (⟨S32x64, .i32⟩ : BufTy).Contents (Elt Ideal)) (r : Fin 9600) (t : Fin 2048)
    (h : 0 ≤ (val_main_v17 (F := Ideal) x2 (ix1 t)).toInt ∧ (val_main_v17 (F := Ideal) x2 (ix1 t)).toInt < 151) :
    val_main_v26 (F := Ideal) x0 x2 (ix2 r t)
      = -(val_main_v13 (F := Ideal) x0
          (ix2 r (Cert.Cost.labOf 151 (by decide) (val_main_v17 (F := Ideal) x2 (ix1 t))))) := by
  have hidx : val_main_v24 (F := Ideal) x2 (ix2 t (0 : Fin 1)) = val_main_v17 (F := Ideal) x2 (ix1 t) := by
    rw [val_main_v24_apply,
      show idx_main_v24 (ix2 t (0 : Fin 1)) = ix1 t from funext fun a => by match a with | ⟨0, _⟩ => rfl,
      val_main_v23_apply, val_main_v20_apply, val_main_v19_apply, val_main_c_apply]
    exact wrap_of_nonneg _ _ h.1
  have hg : val_main_v25 (F := Ideal) x0 x2 (ix2 r t)
      = val_main_v13 (F := Ideal) x0
          (ix2 r (Cert.Cost.labOf 151 (by decide) (val_main_v17 (F := Ideal) x2 (ix1 t)))) := by
    show Host.gather (colDims 9600 151 2048 Facts₀.gather_S9600x151_S2048x1_S9600x2048_0_1_n_n_1_1_96001_wf)
      (val_main_v13 (F := Ideal) x0) (val_main_v24 (F := Ideal) x2) (ix2 r t) = _
    exact gather_col_labOf (by decide) _ _ _ r t _ hidx
  rw [val_main_v26_apply, hg]
  rfl

theorem class1 (x4 : (⟨S6x32x300x151, .f32⟩ : BufTy).Contents (Elt Ideal))
    (x6 : (⟨S32x64, .i32⟩ : BufTy).Contents (Elt Ideal)) (r : Fin 9600) (t : Fin 2048)
    (h : 0 ≤ (val_main_v168 (F := Ideal) x6 (ix1 t)).toInt ∧ (val_main_v168 (F := Ideal) x6 (ix1 t)).toInt < 151) :
    val_main_v177 (F := Ideal) x4 x6 (ix2 r t)
      = -(val_main_v164 (F := Ideal) x4
          (ix2 r (Cert.Cost.labOf 151 (by decide) (val_main_v168 (F := Ideal) x6 (ix1 t))))) := by
  have hidx : val_main_v175 (F := Ideal) x6 (ix2 t (0 : Fin 1)) = val_main_v168 (F := Ideal) x6 (ix1 t) := by
    rw [val_main_v175_apply,
      show idx_main_v175 (ix2 t (0 : Fin 1)) = ix1 t from funext fun a => by match a with | ⟨0, _⟩ => rfl,
      val_main_v174_apply, val_main_v171_apply, val_main_v170_apply, val_main_c_20_apply]
    exact wrap_of_nonneg _ _ h.1
  have hg : val_main_v176 (F := Ideal) x4 x6 (ix2 r t)
      = val_main_v164 (F := Ideal) x4
          (ix2 r (Cert.Cost.labOf 151 (by decide) (val_main_v168 (F := Ideal) x6 (ix1 t)))) := by
    show Host.gather (colDims 9600 151 2048 Facts₀.gather_S9600x151_S2048x1_S9600x2048_0_1_n_n_1_1_96001_wf)
      (val_main_v164 (F := Ideal) x4) (val_main_v175 (F := Ideal) x6) (ix2 r t) = _
    exact gather_col_labOf (by decide) _ _ _ r t _ hidx
  rw [val_main_v177_apply, hg]
  rfl

theorem class2 (x8 : (⟨S6x32x300x51, .f32⟩ : BufTy).Contents (Elt Ideal))
    (x9 : (⟨S32x64, .i32⟩ : BufTy).Contents (Elt Ideal)) (r : Fin 9600) (t : Fin 2048)
    (h : 0 ≤ (val_main_v319 (F := Ideal) x9 (ix1 t)).toInt ∧ (val_main_v319 (F := Ideal) x9 (ix1 t)).toInt < 51) :
    val_main_v327 (F := Ideal) x8 x9 (ix2 r t)
      = -(val_main_v318 (F := Ideal) x8
          (ix2 r (Cert.Cost.labOf 51 (by decide) (val_main_v319 (F := Ideal) x9 (ix1 t))))) := by
  have hidx : val_main_v325 (F := Ideal) x9 (ix2 t (0 : Fin 1)) = val_main_v319 (F := Ideal) x9 (ix1 t) := by
    rw [val_main_v325_apply,
      show idx_main_v325 (ix2 t (0 : Fin 1)) = ix1 t from funext fun a => by match a with | ⟨0, _⟩ => rfl,
      val_main_v324_apply, val_main_v321_apply, val_main_v320_apply, val_main_c_40_apply]
    exact wrap_of_nonneg _ _ h.1
  have hg : val_main_v326 (F := Ideal) x8 x9 (ix2 r t)
      = val_main_v318 (F := Ideal) x8
          (ix2 r (Cert.Cost.labOf 51 (by decide) (val_main_v319 (F := Ideal) x9 (ix1 t)))) := by
    show Host.gather (colDims 9600 51 2048 Facts₀.gather_S9600x51_S2048x1_S9600x2048_0_1_n_n_1_1_96001_wf)
      (val_main_v318 (F := Ideal) x8) (val_main_v325 (F := Ideal) x9) (ix2 r t) = _
    exact gather_col_labOf (by decide) _ _ _ r t _ hidx
  rw [val_main_v327_apply, hg]
  rfl

end Cert.ReferenceIdeal.RefVal.Gather

end
-- ==== Proof.RBoxObj.lean ====
import proofs.«408227_j14096082666122_3_alg».proof.Proof.RefRead
import proofs.«408227_j14096082666122_3_alg».proof.Proof.Spec
import Idealize.ShloMosaic.Lib.Pipeline.Value
import Idealize.ShloMosaic.Lib.ValueIdx
import Idealize.ShloMosaic.PureOps.Ideal
import Idealize.ShloMosaic.PureOps.Ideal.Laws
import Mathlib.Algebra.BigOperators.Fin

noncomputable section

open Cert.ReferenceIdeal Cert.ReferenceIdeal.ReadP Idealize.ShloMosaic Idealize.ShloMosaic.TcCoe Idealize.ShloMosaic.ValueIdx

namespace Cert.ReferenceIdeal.RefVal.BoxObj

variable (x1 : (⟨S6x32x300x4, .f32⟩ : BufTy).Contents (Elt Ideal)) (x3 : (⟨S32x64x4, .f32⟩ : BufTy).Contents (Elt Ideal))

local macro "idx2" : tactic => `(tactic| exact funext fun a => Fin.ext (by match a with | ⟨0, _⟩ => rfl | ⟨1, _⟩ => rfl))

theorem dist0 (r : Fin 9600) (t : Fin 2048) :
    val_main_v33 (F := Ideal) x1 x3 (ix2 r t) =
      Cert.Cost.l1 (fun d => val_main_v16 (F := Ideal) x1 (ix2 r d)) (fun d => val_main_v18 (F := Ideal) x3 (ix2 t d)) := by
  rw [val_main_v33_apply, val_main_cst_3_apply, Fin.sum_univ_four]
  simp only [val_main_v32_apply, val_main_v31_apply, val_main_v29_apply, val_main_v27_apply, val_main_v30_apply, val_main_v28_apply]
  rw [show idx_main_v27 (idx_main_v29 (idx_main_v33 (ix2 r t) (0 : Fin 4))) = ix2 r (0 : Fin 4) by idx2,
    show idx_main_v28 (idx_main_v30 (idx_main_v33 (ix2 r t) (0 : Fin 4))) = ix2 t (0 : Fin 4) by idx2,
    show idx_main_v27 (idx_main_v29 (idx_main_v33 (ix2 r t) (1 : Fin 4))) = ix2 r (1 : Fin 4) by idx2,
    show idx_main_v28 (idx_main_v30 (idx_main_v33 (ix2 r t) (1 : Fin 4))) = ix2 t (1 : Fin 4) by idx2,
    show idx_main_v27 (idx_main_v29 (idx_main_v33 (ix2 r t) (2 : Fin 4))) = ix2 r (2 : Fin 4) by idx2,
    show idx_main_v28 (idx_main_v30 (idx_main_v33 (ix2 r t) (2 : Fin 4))) = ix2 t (2 : Fin 4) by idx2,
    show idx_main_v27 (idx_main_v29 (idx_main_v33 (ix2 r t) (3 : Fin 4))) = ix2 r (3 : Fin 4) by idx2,
    show idx_main_v28 (idx_main_v30 (idx_main_v33 (ix2 r t) (3 : Fin 4))) = ix2 t (3 : Fin 4) by idx2]
  rw [Ideal.ofBits_def, Ideal.ofBits_zero_f32, zero_add]
  rfl

theorem qc0 (n : Fin 9600) :
    val_main_v50 (F := Ideal) x1 (ix2 n 0) = Cert.Cost.x1 (fun d => val_main_v16 (F := Ideal) x1 (ix2 n d)) := by
  unfold val_main_v50
  rw [concatenate_apply_piece (t := S9600x4) (1 : Fin 2) _ _ (ix2 n (0 : Fin 4)) 0 (by simp) S9600x1 (val_main_v40 (F := Ideal) x1) rfl rfl 0 rfl (ix2 n (0 : Fin 1))
    (fun b hb => by match b with | ⟨0, _⟩ => rfl | ⟨1, _⟩ => exact absurd rfl hb) rfl]
  rw [val_main_v40_apply, val_main_v34_apply, val_main_v39_apply, val_main_v38_apply, val_main_cst_4_apply, val_main_v36_apply]
  rw [show idx_main_v34 (ix2 n (0 : Fin 1)) = ix2 n (0 : Fin 4) by idx2, show idx_main_v36 (ix2 n (0 : Fin 1)) = ix2 n (2 : Fin 4) by idx2]
  rfl

theorem qc1 (n : Fin 9600) :
    val_main_v50 (F := Ideal) x1 (ix2 n 1) = Cert.Cost.y1 (fun d => val_main_v16 (F := Ideal) x1 (ix2 n d)) := by
  unfold val_main_v50
  rw [concatenate_apply_piece (t := S9600x4) (1 : Fin 2) _ _ (ix2 n (1 : Fin 4)) 1 (by simp) S9600x1 (val_main_v43 (F := Ideal) x1) rfl rfl 1 rfl (ix2 n (0 : Fin 1))
    (fun b hb => by match b with | ⟨0, _⟩ => rfl | ⟨1, _⟩ => exact absurd rfl hb) rfl]
  rw [val_main_v43_apply, val_main_v35_apply, val_main_v42_apply, val_main_v41_apply, val_main_cst_5_apply, val_main_v37_apply]
  rw [show idx_main_v35 (ix2 n (0 : Fin 1)) = ix2 n (1 : Fin 4) by idx2, show idx_main_v37 (ix2 n (0 : Fin 1)) = ix2 n (3 : Fin 4) by idx2]
  rfl

theorem qc2 (n : Fin 9600) :
    val_main_v50 (F := Ideal) x1 (ix2 n 2) = Cert.Cost.x2 (fun d => val_main_v16 (F := Ideal) x1 (ix2 n d)) := by
  unfold val_main_v50
  rw [concatenate_apply_piece (t := S9600x4) (1 : Fin 2) _ _ (ix2 n (2 : Fin 4)) 2 (by simp) S9600x1 (val_main_v46 (F := Ideal) x1) rfl rfl 2 rfl (ix2 n (0 : Fin 1))
    (fun b hb => by match b with | ⟨0, _⟩ => rfl | ⟨1, _⟩ => exact absurd rfl hb) rfl]
  rw [val_main_v46_apply, val_main_v34_apply, val_main_v45_apply, val_main_v44_apply, val_main_cst_6_apply, val_main_v36_apply]
  rw [show idx_main_v34 (ix2 n (0 : Fin 1)) = ix2 n (0 : Fin 4) by idx2, show idx_main_v36 (ix2 n (0 : Fin 1)) = ix2 n (2 : Fin 4) by idx2]
  rfl

theorem qc3 (n : Fin 9600) :
    val_main_v50 (F := Ideal) x1 (ix2 n 3) = Cert.Cost.y2 (fun d => val_main_v16 (F := Ideal) x1 (ix2 n d)) := by
  unfold val_main_v50
  rw [concatenate_apply_piece (t := S9600x4) (1 : Fin 2) _ _ (ix2 n (3 : Fin 4)) 3 (by simp) S9600x1 (val_main_v49 (F := Ideal) x1) rfl rfl 3 rfl (ix2 n (0 : Fin 1))
    (fun b hb => by match b with | ⟨0, _⟩ => rfl | ⟨1, _⟩ => exact absurd rfl hb) rfl]
  rw [val_main_v49_apply, val_main_v35_apply, val_main_v48_apply, val_main_v47_apply, val_main_cst_7_apply, val_main_v37_apply]
  rw [show idx_main_v35 (ix2 n (0 : Fin 1)) = ix2 n (1 : Fin 4) by idx2, show idx_main_v37 (ix2 n (0 : Fin 1)) = ix2 n (3 : Fin 4) by idx2]
  rfl

theorem tc0 (n : Fin 2048) :
    val_main_v67 (F := Ideal) x3 (ix2 n 0) = Cert.Cost.x1 (fun d => val_main_v18 (F := Ideal) x3 (ix2 n d)) := by
  unfold val_main_v67
  rw [concatenate_apply_piece (t := S2048x4) (1 : Fin 2) _ _ (ix2 n (0 : Fin 4)) 0 (by simp) S2048x1 (val_main_v57 (F := Ideal) x3) rfl rfl 0 rfl (ix2 n (0 : Fin 1))
    (fun b hb => by match b with | ⟨0, _⟩ => rfl | ⟨1, _⟩ => exact absurd rfl hb) rfl]
  rw [val_main_v57_apply, val_main_v51_apply, val_main_v56_apply, val_main_v55_apply, val_main_cst_8_apply, val_main_v53_apply]
  rw [show idx_main_v51 (ix2 n (0 : Fin 1)) = ix2 n (0 : Fin 4) by idx2, show idx_main_v53 (ix2 n (0 : Fin 1)) = ix2 n (2 : Fin 4) by idx2]
  rfl

theorem tc1 (n : Fin 2048) :
    val_main_v67 (F := Ideal) x3 (ix2 n 1) = Cert.Cost.y1 (fun d => val_main_v18 (F := Ideal) x3 (ix2 n d)) := by
  unfold val_main_v67
  rw [concatenate_apply_piece (t := S2048x4) (1 : Fin 2) _ _ (ix2 n (1 : Fin 4)) 1 (by simp) S2048x1 (val_main_v60 (F := Ideal) x3) rfl rfl 1 rfl (ix2 n (0 : Fin 1))
    (fun b hb => by match b with | ⟨0, _⟩ => rfl | ⟨1, _⟩ => exact absurd rfl hb) rfl]
  rw [val_main_v60_apply, val_main_v52_apply, val_main_v59_apply, val_main_v58_apply, val_main_cst_9_apply, val_main_v54_apply]
  rw [show idx_main_v52 (ix2 n (0 : Fin 1)) = ix2 n (1 : Fin 4) by idx2, show idx_main_v54 (ix2 n (0 : Fin 1)) = ix2 n (3 : Fin 4) by idx2]
  rfl

theorem tc2 (n : Fin 2048) :
    val_main_v67 (F := Ideal) x3 (ix2 n 2) = Cert.Cost.x2 (fun d => val_main_v18 (F := Ideal) x3 (ix2 n d)) := by
  unfold val_main_v67
  rw [concatenate_apply_piece (t := S2048x4) (1 : Fin 2) _ _ (ix2 n (2 : Fin 4)) 2 (by simp) S2048x1 (val_main_v63 (F := Ideal) x3) rfl rfl 2 rfl (ix2 n (0 : Fin 1))
    (fun b hb => by match b with | ⟨0, _⟩ => rfl | ⟨1, _⟩ => exact absurd rfl hb) rfl]
  rw [val_main_v63_apply, val_main_v51_apply, val_main_v62_apply, val_main_v61_apply, val_main_cst_10_apply, val_main_v53_apply]
  rw [show idx_main_v51 (ix2 n (0 : Fin 1)) = ix2 n (0 : Fin 4) by idx2, show idx_main_v53 (ix2 n (0 : Fin 1)) = ix2 n (2 : Fin 4) by idx2]
  rfl

theorem tc3 (n : Fin 2048) :
    val_main_v67 (F := Ideal) x3 (ix2 n 3) = Cert.Cost.y2 (fun d => val_main_v18 (F := Ideal) x3 (ix2 n d)) := by
  unfold val_main_v67
  rw [concatenate_apply_piece (t := S2048x4) (1 : Fin 2) _ _ (ix2 n (3 : Fin 4)) 3 (by simp) S2048x1 (val_main_v66 (F := Ideal) x3) rfl rfl 3 rfl (ix2 n (0 : Fin 1))
    (fun b hb => by match b with | ⟨0, _⟩ => rfl | ⟨1, _⟩ => exact absurd rfl hb) rfl]
  rw [val_main_v66_apply, val_main_v52_apply, val_main_v65_apply, val_main_v64_apply, val_main_cst_11_apply, val_main_v54_apply]
  rw [show idx_main_v52 (ix2 n (0 : Fin 1)) = ix2 n (1 : Fin 4) by idx2, show idx_main_v54 (ix2 n (0 : Fin 1)) = ix2 n (3 : Fin 4) by idx2]
  rfl

theorem qarea (n : Fin 9600) :
    val_main_v78 (F := Ideal) x1 (ix1 n) = Cert.Cost.area (fun d => val_main_v16 (F := Ideal) x1 (ix2 n d)) := by
  rw [val_main_v78_apply, val_main_v72_apply, val_main_v77_apply, val_main_v69_apply, val_main_v71_apply, val_main_v74_apply,
    val_main_v76_apply, val_main_v68_apply, val_main_v70_apply, val_main_v73_apply, val_main_v75_apply]
  rw [show idx_main_v68 (idx_main_v69 (ix1 n)) = ix2 n (2 : Fin 4) from
      funext fun a => Fin.ext (by match a with | ⟨0, _⟩ => exact Nat.div_one _ | ⟨1, _⟩ => rfl),
    show idx_main_v70 (idx_main_v71 (ix1 n)) = ix2 n (0 : Fin 4) from
      funext fun a => Fin.ext (by match a with | ⟨0, _⟩ => exact Nat.div_one _ | ⟨1, _⟩ => rfl),
    show idx_main_v73 (idx_main_v74 (ix1 n)) = ix2 n (3 : Fin 4) from
      funext fun a => Fin.ext (by match a with | ⟨0, _⟩ => exact Nat.div_one _ | ⟨1, _⟩ => rfl),
    show idx_main_v75 (idx_main_v76 (ix1 n)) = ix2 n (1 : Fin 4) from
      funext fun a => Fin.ext (by match a with | ⟨0, _⟩ => exact Nat.div_one _ | ⟨1, _⟩ => rfl)]
  rw [qc0, qc1, qc2, qc3]
  rfl

theorem tarea (n : Fin 2048) :
    val_main_v89 (F := Ideal) x3 (ix1 n) = Cert.Cost.area (fun d => val_main_v18 (F := Ideal) x3 (ix2 n d)) := by
  rw [val_main_v89_apply, val_main_v83_apply, val_main_v88_apply, val_main_v80_apply, val_main_v82_apply, val_main_v85_apply,
    val_main_v87_apply, val_main_v79_apply, val_main_v81_apply, val_main_v84_apply, val_main_v86_apply]
  rw [show idx_main_v79 (idx_main_v80 (ix1 n)) = ix2 n (2 : Fin 4) from
      funext fun a => Fin.ext (by match a with | ⟨0, _⟩ => exact Nat.div_one _ | ⟨1, _⟩ => rfl),
    show idx_main_v81 (idx_main_v82 (ix1 n)) = ix2 n (0 : Fin 4) from
      funext fun a => Fin.ext (by match a with | ⟨0, _⟩ => exact Nat.div_one _ | ⟨1, _⟩ => rfl),
    show idx_main_v84 (idx_main_v85 (ix1 n)) = ix2 n (3 : Fin 4) from
      funext fun a => Fin.ext (by match a with | ⟨0, _⟩ => exact Nat.div_one _ | ⟨1, _⟩ => rfl),
    show idx_main_v86 (idx_main_v87 (ix1 n)) = ix2 n (1 : Fin 4) from
      funext fun a => Fin.ext (by match a with | ⟨0, _⟩ => exact Nat.div_one _ | ⟨1, _⟩ => rfl)]
  rw [tc0, tc1, tc2, tc3]
  rfl

theorem m96_0 (r : Fin 9600) (t : Fin 2048) :
    val_main_v96 (F := Ideal) x1 x3 (ix3 r t 0) = max (val_main_v50 (F := Ideal) x1 (ix2 r 0)) (val_main_v67 (F := Ideal) x3 (ix2 t 0)) := by
  rw [val_main_v96_apply, val_main_v94_apply, val_main_v91_apply, val_main_v90_apply, val_main_v95_apply, val_main_v93_apply, val_main_v92_apply]
  rw [show idx_main_v90 (idx_main_v91 (idx_main_v94 (ix3 r t (0 : Fin 2)))) = ix2 r (0 : Fin 4) by idx2,
    show idx_main_v92 (idx_main_v93 (idx_main_v95 (ix3 r t (0 : Fin 2)))) = ix2 t (0 : Fin 4) by idx2]
  rfl

theorem m96_1 (r : Fin 9600) (t : Fin 2048) :
    val_main_v96 (F := Ideal) x1 x3 (ix3 r t 1) = max (val_main_v50 (F := Ideal) x1 (ix2 r 1)) (val_main_v67 (F := Ideal) x3 (ix2 t 1)) := by
  rw [val_main_v96_apply, val_main_v94_apply, val_main_v91_apply, val_main_v90_apply, val_main_v95_apply, val_main_v93_apply, val_main_v92_apply]
  rw [show idx_main_v90 (idx_main_v91 (idx_main_v94 (ix3 r t (1 : Fin 2)))) = ix2 r (1 : Fin 4) by idx2,
    show idx_main_v92 (idx_main_v93 (idx_main_v95 (ix3 r t (1 : Fin 2)))) = ix2 t (1 : Fin 4) by idx2]
  rfl

theorem m103_0 (r : Fin 9600) (t : Fin 2048) :
    val_main_v103 (F := Ideal) x1 x3 (ix3 r t 0) = min (val_main_v50 (F := Ideal) x1 (ix2 r 2)) (val_main_v67 (F := Ideal) x3 (ix2 t 2)) := by
  rw [val_main_v103_apply, val_main_v101_apply, val_main_v98_apply, val_main_v97_apply, val_main_v102_apply, val_main_v100_apply, val_main_v99_apply]
  rw [show idx_main_v97 (idx_main_v98 (idx_main_v101 (ix3 r t (0 : Fin 2)))) = ix2 r (2 : Fin 4) by idx2,
    show idx_main_v99 (idx_main_v100 (idx_main_v102 (ix3 r t (0 : Fin 2)))) = ix2 t (2 : Fin 4) by idx2]
  rfl

theorem m103_1 (r : Fin 9600) (t : Fin 2048) :
    val_main_v103 (F := Ideal) x1 x3 (ix3 r t 1) = min (val_main_v50 (F := Ideal) x1 (ix2 r 3)) (val_main_v67 (F := Ideal) x3 (ix2 t 3)) := by
  rw [val_main_v103_apply, val_main_v101_apply, val_main_v98_apply, val_main_v97_apply, val_main_v102_apply, val_main_v100_apply, val_main_v99_apply]
  rw [show idx_main_v97 (idx_main_v98 (idx_main_v101 (ix3 r t (1 : Fin 2)))) = ix2 r (3 : Fin 4) by idx2,
    show idx_main_v99 (idx_main_v100 (idx_main_v102 (ix3 r t (1 : Fin 2)))) = ix2 t (3 : Fin 4) by idx2]
  rfl

theorem m124_0 (r : Fin 9600) (t : Fin 2048) :
    val_main_v124 (F := Ideal) x1 x3 (ix3 r t 0) = min (val_main_v50 (F := Ideal) x1 (ix2 r 0)) (val_main_v67 (F := Ideal) x3 (ix2 t 0)) := by
  rw [val_main_v124_apply, val_main_v122_apply, val_main_v119_apply, val_main_v118_apply, val_main_v123_apply, val_main_v121_apply, val_main_v120_apply]
  rw [show idx_main_v118 (idx_main_v119 (idx_main_v122 (ix3 r t (0 : Fin 2)))) = ix2 r (0 : Fin 4) by idx2,
    show idx_main_v120 (idx_main_v121 (idx_main_v123 (ix3 r t (0 : Fin 2)))) = ix2 t (0 : Fin 4) by idx2]
  rfl

theorem m124_1 (r : Fin 9600) (t : Fin 2048) :
    val_main_v124 (F := Ideal) x1 x3 (ix3 r t 1) = min (val_main_v50 (F := Ideal) x1 (ix2 r 1)) (val_main_v67 (F := Ideal) x3 (ix2 t 1)) := by
  rw [val_main_v124_apply, val_main_v122_apply, val_main_v119_apply, val_main_v118_apply, val_main_v123_apply, val_main_v121_apply, val_main_v120_apply]
  rw [show idx_main_v118 (idx_main_v119 (idx_main_v122 (ix3 r t (1 : Fin 2)))) = ix2 r (1 : Fin 4) by idx2,
    show idx_main_v120 (idx_main_v121 (idx_main_v123 (ix3 r t (1 : Fin 2)))) = ix2 t (1 : Fin 4) by idx2]
  rfl

theorem m131_0 (r : Fin 9600) (t : Fin 2048) :
    val_main_v131 (F := Ideal) x1 x3 (ix3 r t 0) = max (val_main_v50 (F := Ideal) x1 (ix2 r 2)) (val_main_v67 (F := Ideal) x3 (ix2 t 2)) := by
  rw [val_main_v131_apply, val_main_v129_apply, val_main_v126_apply, val_main_v125_apply, val_main_v130_apply, val_main_v128_apply, val_main_v127_apply]
  rw [show idx_main_v125 (idx_main_v126 (idx_main_v129 (ix3 r t (0 : Fin 2)))) = ix2 r (2 : Fin 4) by idx2,
    show idx_main_v127 (idx_main_v128 (idx_main_v130 (ix3 r t (0 : Fin 2)))) = ix2 t (2 : Fin 4) by idx2]
  rfl

theorem m131_1 (r : Fin 9600) (t : Fin 2048) :
    val_main_v131 (F := Ideal) x1 x3 (ix3 r t 1) = max (val_main_v50 (F := Ideal) x1 (ix2 r 3)) (val_main_v67 (F := Ideal) x3 (ix2 t 3)) := by
  rw [val_main_v131_apply, val_main_v129_apply, val_main_v126_apply, val_main_v125_apply, val_main_v130_apply, val_main_v128_apply, val_main_v127_apply]
  rw [show idx_main_v125 (idx_main_v126 (idx_main_v129 (ix3 r t (1 : Fin 2)))) = ix2 r (3 : Fin 4) by idx2,
    show idx_main_v127 (idx_main_v128 (idx_main_v130 (ix3 r t (1 : Fin 2)))) = ix2 t (3 : Fin 4) by idx2]
  rfl

theorem c105_0 (r : Fin 9600) (t : Fin 2048) :
    val_main_v105 (F := Ideal) x1 x3 (ix3 r t 0) =
      Cert.Cost.clip0 (min (val_main_v50 (F := Ideal) x1 (ix2 r 2)) (val_main_v67 (F := Ideal) x3 (ix2 t 2))
        - max (val_main_v50 (F := Ideal) x1 (ix2 r 0)) (val_main_v67 (F := Ideal) x3 (ix2 t 0))) := by
  rw [val_main_v105_apply, val_main_call0_v1_apply, val_main_call0_v0_apply, val_main_cst_12_apply, val_main_v104_apply, m103_0, m96_0]
  rfl

theorem c105_1 (r : Fin 9600) (t : Fin 2048) :
    val_main_v105 (F := Ideal) x1 x3 (ix3 r t 1) =
      Cert.Cost.clip0 (min (val_main_v50 (F := Ideal) x1 (ix2 r 3)) (val_main_v67 (F := Ideal) x3 (ix2 t 3))
        - max (val_main_v50 (F := Ideal) x1 (ix2 r 1)) (val_main_v67 (F := Ideal) x3 (ix2 t 1))) := by
  rw [val_main_v105_apply, val_main_call0_v1_apply, val_main_call0_v0_apply, val_main_cst_12_apply, val_main_v104_apply, m103_1, m96_1]
  rfl

theorem c133_0 (r : Fin 9600) (t : Fin 2048) :
    val_main_v133 (F := Ideal) x1 x3 (ix3 r t 0) =
      Cert.Cost.clip0 (max (val_main_v50 (F := Ideal) x1 (ix2 r 2)) (val_main_v67 (F := Ideal) x3 (ix2 t 2))
        - min (val_main_v50 (F := Ideal) x1 (ix2 r 0)) (val_main_v67 (F := Ideal) x3 (ix2 t 0))) := by
  rw [val_main_v133_apply, val_main_call1_v1_apply, val_main_call1_v0_apply, val_main_cst_13_apply, val_main_v132_apply, m131_0, m124_0]
  rfl

theorem c133_1 (r : Fin 9600) (t : Fin 2048) :
    val_main_v133 (F := Ideal) x1 x3 (ix3 r t 1) =
      Cert.Cost.clip0 (max (val_main_v50 (F := Ideal) x1 (ix2 r 3)) (val_main_v67 (F := Ideal) x3 (ix2 t 3))
        - min (val_main_v50 (F := Ideal) x1 (ix2 r 1)) (val_main_v67 (F := Ideal) x3 (ix2 t 1))) := by
  rw [val_main_v133_apply, val_main_call1_v1_apply, val_main_call1_v0_apply, val_main_cst_13_apply, val_main_v132_apply, m131_1, m124_1]
  rfl

theorem inter0 (r : Fin 9600) (t : Fin 2048) :
    val_main_v110 (F := Ideal) x1 x3 (ix2 r t) =
      Cert.Cost.inter (fun d => val_main_v16 (F := Ideal) x1 (ix2 r d)) (fun d => val_main_v18 (F := Ideal) x3 (ix2 t d)) := by
  rw [val_main_v110_apply, val_main_v107_apply, val_main_v109_apply, val_main_v106_apply, val_main_v108_apply]
  rw [show idx_main_v106 (idx_main_v107 (ix2 r t)) = ix3 r t (0 : Fin 2) from
      funext fun a => Fin.ext (by
        have hr := r.isLt; have ht := t.isLt
        match a with
        | ⟨0, _⟩ => show (r.val * 2048 + t.val) / 2048 = r.val; omega
        | ⟨1, _⟩ => show (r.val * 2048 + t.val) / 1 % 2048 = t.val; omega
        | ⟨2, _⟩ => rfl),
    show idx_main_v108 (idx_main_v109 (ix2 r t)) = ix3 r t (1 : Fin 2) from
      funext fun a => Fin.ext (by
        have hr := r.isLt; have ht := t.isLt
        match a with
        | ⟨0, _⟩ => show (r.val * 2048 + t.val) / 2048 = r.val; omega
        | ⟨1, _⟩ => show (r.val * 2048 + t.val) / 1 % 2048 = t.val; omega
        | ⟨2, _⟩ => rfl)]
  rw [c105_0, c105_1, qc0, qc1, qc2, qc3, tc0, tc1, tc2, tc3]
  rfl

theorem union0 (r : Fin 9600) (t : Fin 2048) :
    val_main_v116 (F := Ideal) x1 x3 (ix2 r t) =
      Cert.Cost.union (fun d => val_main_v16 (F := Ideal) x1 (ix2 r d)) (fun d => val_main_v18 (F := Ideal) x3 (ix2 t d)) := by
  rw [val_main_v116_apply, val_main_v115_apply, val_main_v113_apply, val_main_v111_apply, val_main_v114_apply, val_main_v112_apply, inter0]
  rw [show idx_main_v111 (idx_main_v113 (ix2 r t)) = ix1 r from funext fun a => Fin.ext (by match a with | ⟨0, _⟩ => rfl),
    show idx_main_v112 (idx_main_v114 (ix2 r t)) = ix1 t from funext fun a => Fin.ext (by match a with | ⟨0, _⟩ => rfl)]
  rw [qarea, tarea]
  rfl

theorem hull0 (r : Fin 9600) (t : Fin 2048) :
    val_main_v138 (F := Ideal) x1 x3 (ix2 r t) =
      Cert.Cost.hull (fun d => val_main_v16 (F := Ideal) x1 (ix2 r d)) (fun d => val_main_v18 (F := Ideal) x3 (ix2 t d)) := by
  rw [val_main_v138_apply, val_main_v135_apply, val_main_v137_apply, val_main_v134_apply, val_main_v136_apply]
  rw [show idx_main_v134 (idx_main_v135 (ix2 r t)) = ix3 r t (0 : Fin 2) from
      funext fun a => Fin.ext (by
        have hr := r.isLt; have ht := t.isLt
        match a with
        | ⟨0, _⟩ => show (r.val * 2048 + t.val) / 2048 = r.val; omega
        | ⟨1, _⟩ => show (r.val * 2048 + t.val) / 1 % 2048 = t.val; omega
        | ⟨2, _⟩ => rfl),
    show idx_main_v136 (idx_main_v137 (ix2 r t)) = ix3 r t (1 : Fin 2) from
      funext fun a => Fin.ext (by
        have hr := r.isLt; have ht := t.isLt
        match a with
        | ⟨0, _⟩ => show (r.val * 2048 + t.val) / 2048 = r.val; omega
        | ⟨1, _⟩ => show (r.val * 2048 + t.val) / 1 % 2048 = t.val; omega
        | ⟨2, _⟩ => rfl)]
  rw [c133_0, c133_1, qc0, qc1, qc2, qc3, tc0, tc1, tc2, tc3]
  rfl

/-- The overlap term at (r, t): intersection over union minus the enclosing box's excess over the union, relative to it. -/
theorem giou0 (r : Fin 9600) (t : Fin 2048) :
    val_main_v141 (F := Ideal) x1 x3 (ix2 r t) =
      Cert.Cost.giou (fun d => val_main_v16 (F := Ideal) x1 (ix2 r d)) (fun d => val_main_v18 (F := Ideal) x3 (ix2 t d)) := by
  rw [val_main_v141_apply, val_main_v117_apply, val_main_v140_apply, val_main_v139_apply, inter0, union0, hull0]
  rfl

end Cert.ReferenceIdeal.RefVal.BoxObj
-- ==== Proof.RBoxSub.lean ====
import proofs.«408227_j14096082666122_3_alg».proof.Proof.RefRead
import proofs.«408227_j14096082666122_3_alg».proof.Proof.Spec
import Idealize.ShloMosaic.Lib.Pipeline.Value
import Idealize.ShloMosaic.Lib.ValueIdx
import Idealize.ShloMosaic.PureOps.Ideal
import Mathlib.Algebra.BigOperators.Fin

noncomputable section

open Cert.ReferenceIdeal Cert.ReferenceIdeal.ReadP Idealize.ShloMosaic Idealize.ShloMosaic.TcCoe Idealize.ShloMosaic.ValueIdx

namespace Cert.ReferenceIdeal.RefVal.BoxSub

variable (x5 : (⟨S6x32x300x4, .f32⟩ : BufTy).Contents (Elt Ideal)) (x7 : (⟨S32x64x4, .f32⟩ : BufTy).Contents (Elt Ideal))

theorem v180_at (r : Fin 9600) (t : Fin 2048) (d : Fin 4) :
    val_main_v180 (F := Ideal) x5 (ix3 r t d) = val_main_v167 (F := Ideal) x5 (ix2 r d) := by
  rw [val_main_v180_apply, val_main_v178_apply]
  exact congrArg _ (funext fun a => Fin.ext (by match a with | ⟨0, _⟩ => rfl | ⟨1, _⟩ => rfl))

theorem v181_at (r : Fin 9600) (t : Fin 2048) (d : Fin 4) :
    val_main_v181 (F := Ideal) x7 (ix3 r t d) = val_main_v169 (F := Ideal) x7 (ix2 t d) := by
  rw [val_main_v181_apply, val_main_v179_apply]
  exact congrArg _ (funext fun a => Fin.ext (by match a with | ⟨0, _⟩ => rfl | ⟨1, _⟩ => rfl))

theorem v183_at
    (r : Fin 9600) (t : Fin 2048) (d : Fin 4) :
    val_main_v183 (F := Ideal) x5 x7 (ix3 r t d)
      = (val_main_v167 (F := Ideal) x5 (ix2 r d) - val_main_v169 (F := Ideal) x7 (ix2 t d))
        * (val_main_v167 (F := Ideal) x5 (ix2 r d) - val_main_v169 (F := Ideal) x7 (ix2 t d)) := by
  rw [val_main_v183_apply, val_main_v182_apply, v180_at, v181_at]
  rfl

/-- The subject branch's distance: the root of the sum of squared coordinate differences, clamped below. -/
theorem dist1
    (r : Fin 9600) (t : Fin 2048) :
    val_main_v186 (F := Ideal) x5 x7 (ix2 r t)
      = Cert.Cost.l2 (fun d => val_main_v167 (F := Ideal) x5 (ix2 r d)) (fun d => val_main_v169 (F := Ideal) x7 (ix2 t d)) := by
  rw [val_main_v186_apply, val_main_v185_apply, val_main_call2_v1_apply, val_main_call2_v0_apply, val_main_cst_23_apply,
    val_main_v184_apply, val_main_cst_22_apply, Fin.sum_univ_four]
  have h : ∀ d : Fin 4, idx_main_v184 (ix2 r t) d = ix3 r t d := fun d =>
    funext fun a => Fin.ext (by match a with | ⟨0, _⟩ => rfl | ⟨1, _⟩ => rfl | ⟨2, _⟩ => rfl)
  rw [h 0, h 1, h 2, h 3, v183_at, v183_at, v183_at, v183_at]
  simp only [Ideal.hostUnary_sqrt_def, Ideal.maximumf_def, Ideal.ofBits_def, Ideal.ofBits_zero_f32, zero_add]
  rfl

abbrev qb (n : Fin 9600) : Fin 4 → EReal :=
  fun d => val_main_v167 (F := Ideal) x5 (ix2 n d)

abbrev tb (n : Fin 2048) : Fin 4 → EReal :=
  fun d => val_main_v169 (F := Ideal) x7 (ix2 n d)

theorem v203_0 (n : Fin 9600) :
    val_main_v203 (F := Ideal) x5 (ix2 n 0) = val_main_v193 (F := Ideal) x5 (ix2 n 0) := by
  unfold val_main_v203
  refine concatenate_apply_piece (t := S9600x4) 1 _ _ (ix2 n 0) 0 ?_ S9600x1 (val_main_v193 (F := Ideal) x5) rfl rfl 0 rfl (ix2 n 0) (fun b hb => ?_) rfl
  · show 0 < 4; decide
  · match b with
    | ⟨0, _⟩ => rfl
    | ⟨1, _⟩ => exact absurd rfl hb

theorem v203_1 (n : Fin 9600) :
    val_main_v203 (F := Ideal) x5 (ix2 n 1) = val_main_v196 (F := Ideal) x5 (ix2 n 0) := by
  unfold val_main_v203
  refine concatenate_apply_piece (t := S9600x4) 1 _ _ (ix2 n 1) 1 ?_ S9600x1 (val_main_v196 (F := Ideal) x5) rfl rfl 1 rfl (ix2 n 0) (fun b hb => ?_) rfl
  · show 1 < 4; decide
  · match b with
    | ⟨0, _⟩ => rfl
    | ⟨1, _⟩ => exact absurd rfl hb

theorem v203_2 (n : Fin 9600) :
    val_main_v203 (F := Ideal) x5 (ix2 n 2) = val_main_v199 (F := Ideal) x5 (ix2 n 0) := by
  unfold val_main_v203
  refine concatenate_apply_piece (t := S9600x4) 1 _ _ (ix2 n 2) 2 ?_ S9600x1 (val_main_v199 (F := Ideal) x5) rfl rfl 2 rfl (ix2 n 0) (fun b hb => ?_) rfl
  · show 2 < 4; decide
  · match b with
    | ⟨0, _⟩ => rfl
    | ⟨1, _⟩ => exact absurd rfl hb

theorem v203_3 (n : Fin 9600) :
    val_main_v203 (F := Ideal) x5 (ix2 n 3) = val_main_v202 (F := Ideal) x5 (ix2 n 0) := by
  unfold val_main_v203
  refine concatenate_apply_piece (t := S9600x4) 1 _ _ (ix2 n 3) 3 ?_ S9600x1 (val_main_v202 (F := Ideal) x5) rfl rfl 3 rfl (ix2 n 0) (fun b hb => ?_) rfl
  · show 3 < 4; decide
  · match b with
    | ⟨0, _⟩ => rfl
    | ⟨1, _⟩ => exact absurd rfl hb

theorem v220_0 (n : Fin 2048) :
    val_main_v220 (F := Ideal) x7 (ix2 n 0) = val_main_v210 (F := Ideal) x7 (ix2 n 0) := by
  unfold val_main_v220
  refine concatenate_apply_piece (t := S2048x4) 1 _ _ (ix2 n 0) 0 ?_ S2048x1 (val_main_v210 (F := Ideal) x7) rfl rfl 0 rfl (ix2 n 0) (fun b hb => ?_) rfl
  · show 0 < 4; decide
  · match b with
    | ⟨0, _⟩ => rfl
    | ⟨1, _⟩ => exact absurd rfl hb

theorem v220_1 (n : Fin 2048) :
    val_main_v220 (F := Ideal) x7 (ix2 n 1) = val_main_v213 (F := Ideal) x7 (ix2 n 0) := by
  unfold val_main_v220
  refine concatenate_apply_piece (t := S2048x4) 1 _ _ (ix2 n 1) 1 ?_ S2048x1 (val_main_v213 (F := Ideal) x7) rfl rfl 1 rfl (ix2 n 0) (fun b hb => ?_) rfl
  · show 1 < 4; decide
  · match b with
    | ⟨0, _⟩ => rfl
    | ⟨1, _⟩ => exact absurd rfl hb

theorem v220_2 (n : Fin 2048) :
    val_main_v220 (F := Ideal) x7 (ix2 n 2) = val_main_v216 (F := Ideal) x7 (ix2 n 0) := by
  unfold val_main_v220
  refine concatenate_apply_piece (t := S2048x4) 1 _ _ (ix2 n 2) 2 ?_ S2048x1 (val_main_v216 (F := Ideal) x7) rfl rfl 2 rfl (ix2 n 0) (fun b hb => ?_) rfl
  · show 2 < 4; decide
  · match b with
    | ⟨0, _⟩ => rfl
    | ⟨1, _⟩ => exact absurd rfl hb

theorem v220_3 (n : Fin 2048) :
    val_main_v220 (F := Ideal) x7 (ix2 n 3) = val_main_v219 (F := Ideal) x7 (ix2 n 0) := by
  unfold val_main_v220
  refine concatenate_apply_piece (t := S2048x4) 1 _ _ (ix2 n 3) 3 ?_ S2048x1 (val_main_v219 (F := Ideal) x7) rfl rfl 3 rfl (ix2 n 0) (fun b hb => ?_) rfl
  · show 3 < 4; decide
  · match b with
    | ⟨0, _⟩ => rfl
    | ⟨1, _⟩ => exact absurd rfl hb

theorem qc_0 (n : Fin 9600) :
    val_main_v203 (F := Ideal) x5 (ix2 n 0) = Cert.Cost.x1 (qb x5 n) := by
  rw [v203_0, val_main_v193_apply, val_main_v192_apply, val_main_v191_apply, val_main_cst_24_apply,
    val_main_v187_apply, val_main_v189_apply,
    show idx_main_v187 (ix2 n 0) = ix2 n 0 from funext fun a => Fin.ext (by match a with | ⟨0, _⟩ => rfl | ⟨1, _⟩ => rfl),
    show idx_main_v189 (ix2 n 0) = ix2 n 2 from funext fun a => Fin.ext (by match a with | ⟨0, _⟩ => rfl | ⟨1, _⟩ => rfl)]
  rfl

theorem qc_1 (n : Fin 9600) :
    val_main_v203 (F := Ideal) x5 (ix2 n 1) = Cert.Cost.y1 (qb x5 n) := by
  rw [v203_1, val_main_v196_apply, val_main_v195_apply, val_main_v194_apply, val_main_cst_25_apply,
    val_main_v188_apply, val_main_v190_apply,
    show idx_main_v188 (ix2 n 0) = ix2 n 1 from funext fun a => Fin.ext (by match a with | ⟨0, _⟩ => rfl | ⟨1, _⟩ => rfl),
    show idx_main_v190 (ix2 n 0) = ix2 n 3 from funext fun a => Fin.ext (by match a with | ⟨0, _⟩ => rfl | ⟨1, _⟩ => rfl)]
  rfl

theorem qc_2 (n : Fin 9600) :
    val_main_v203 (F := Ideal) x5 (ix2 n 2) = Cert.Cost.x2 (qb x5 n) := by
  rw [v203_2, val_main_v199_apply, val_main_v198_apply, val_main_v197_apply, val_main_cst_26_apply,
    val_main_v187_apply, val_main_v189_apply,
    show idx_main_v187 (ix2 n 0) = ix2 n 0 from funext fun a => Fin.ext (by match a with | ⟨0, _⟩ => rfl | ⟨1, _⟩ => rfl),
    show idx_main_v189 (ix2 n 0) = ix2 n 2 from funext fun a => Fin.ext (by match a with | ⟨0, _⟩ => rfl | ⟨1, _⟩ => rfl)]
  rfl

theorem qc_3 (n : Fin 9600) :
    val_main_v203 (F := Ideal) x5 (ix2 n 3) = Cert.Cost.y2 (qb x5 n) := by
  rw [v203_3, val_main_v202_apply, val_main_v201_apply, val_main_v200_apply, val_main_cst_27_apply,
    val_main_v188_apply, val_main_v190_apply,
    show idx_main_v188 (ix2 n 0) = ix2 n 1 from funext fun a => Fin.ext (by match a with | ⟨0, _⟩ => rfl | ⟨1, _⟩ => rfl),
    show idx_main_v190 (ix2 n 0) = ix2 n 3 from funext fun a => Fin.ext (by match a with | ⟨0, _⟩ => rfl | ⟨1, _⟩ => rfl)]
  rfl

theorem tc_0 (n : Fin 2048) :
    val_main_v220 (F := Ideal) x7 (ix2 n 0) = Cert.Cost.x1 (tb x7 n) := by
  rw [v220_0, val_main_v210_apply, val_main_v209_apply, val_main_v208_apply, val_main_cst_28_apply,
    val_main_v204_apply, val_main_v206_apply,
    show idx_main_v204 (ix2 n 0) = ix2 n 0 from funext fun a => Fin.ext (by match a with | ⟨0, _⟩ => rfl | ⟨1, _⟩ => rfl),
    show idx_main_v206 (ix2 n 0) = ix2 n 2 from funext fun a => Fin.ext (by match a with | ⟨0, _⟩ => rfl | ⟨1, _⟩ => rfl)]
  rfl

theorem tc_1 (n : Fin 2048) :
    val_main_v220 (F := Ideal) x7 (ix2 n 1) = Cert.Cost.y1 (tb x7 n) := by
  rw [v220_1, val_main_v213_apply, val_main_v212_apply, val_main_v211_apply, val_main_cst_29_apply,
    val_main_v205_apply, val_main_v207_apply,
    show idx_main_v205 (ix2 n 0) = ix2 n 1 from funext fun a => Fin.ext (by match a with | ⟨0, _⟩ => rfl | ⟨1, _⟩ => rfl),
    show idx_main_v207 (ix2 n 0) = ix2 n 3 from funext fun a => Fin.ext (by match a with | ⟨0, _⟩ => rfl | ⟨1, _⟩ => rfl)]
  rfl

theorem tc_2 (n : Fin 2048) :
    val_main_v220 (F := Ideal) x7 (ix2 n 2) = Cert.Cost.x2 (tb x7 n) := by
  rw [v220_2, val_main_v216_apply, val_main_v215_apply, val_main_v214_apply, val_main_cst_30_apply,
    val_main_v204_apply, val_main_v206_apply,
    show idx_main_v204 (ix2 n 0) = ix2 n 0 from funext fun a => Fin.ext (by match a with | ⟨0, _⟩ => rfl | ⟨1, _⟩ => rfl),
    show idx_main_v206 (ix2 n 0) = ix2 n 2 from funext fun a => Fin.ext (by match a with | ⟨0, _⟩ => rfl | ⟨1, _⟩ => rfl)]
  rfl

theorem tc_3 (n : Fin 2048) :
    val_main_v220 (F := Ideal) x7 (ix2 n 3) = Cert.Cost.y2 (tb x7 n) := by
  rw [v220_3, val_main_v219_apply, val_main_v218_apply, val_main_v217_apply, val_main_cst_31_apply,
    val_main_v205_apply, val_main_v207_apply,
    show idx_main_v205 (ix2 n 0) = ix2 n 1 from funext fun a => Fin.ext (by match a with | ⟨0, _⟩ => rfl | ⟨1, _⟩ => rfl),
    show idx_main_v207 (ix2 n 0) = ix2 n 3 from funext fun a => Fin.ext (by match a with | ⟨0, _⟩ => rfl | ⟨1, _⟩ => rfl)]
  rfl

theorem qarea (n : Fin 9600) :
    val_main_v231 (F := Ideal) x5 (ix1 n) = Cert.Cost.area (qb x5 n) := by
  rw [val_main_v231_apply, val_main_v225_apply, val_main_v230_apply,
    val_main_v222_apply, val_main_v224_apply, val_main_v227_apply, val_main_v229_apply,
    val_main_v221_apply, val_main_v223_apply, val_main_v226_apply, val_main_v228_apply,
    show idx_main_v221 (idx_main_v222 (ix1 n)) = ix2 n 2 from funext fun a => Fin.ext (by match a with | ⟨0, _⟩ => exact Nat.div_one _ | ⟨1, _⟩ => rfl),
    show idx_main_v223 (idx_main_v224 (ix1 n)) = ix2 n 0 from funext fun a => Fin.ext (by match a with | ⟨0, _⟩ => exact Nat.div_one _ | ⟨1, _⟩ => rfl),
    show idx_main_v226 (idx_main_v227 (ix1 n)) = ix2 n 3 from funext fun a => Fin.ext (by match a with | ⟨0, _⟩ => exact Nat.div_one _ | ⟨1, _⟩ => rfl),
    show idx_main_v228 (idx_main_v229 (ix1 n)) = ix2 n 1 from funext fun a => Fin.ext (by match a with | ⟨0, _⟩ => exact Nat.div_one _ | ⟨1, _⟩ => rfl),
    qc_0, qc_1, qc_2, qc_3]
  rfl

theorem tarea (n : Fin 2048) :
    val_main_v242 (F := Ideal) x7 (ix1 n) = Cert.Cost.area (tb x7 n) := by
  rw [val_main_v242_apply, val_main_v236_apply, val_main_v241_apply,
    val_main_v233_apply, val_main_v235_apply, val_main_v238_apply, val_main_v240_apply,
    val_main_v232_apply, val_main_v234_apply, val_main_v237_apply, val_main_v239_apply,
    show idx_main_v232 (idx_main_v233 (ix1 n)) = ix2 n 2 from funext fun a => Fin.ext (by match a with | ⟨0, _⟩ => exact Nat.div_one _ | ⟨1, _⟩ => rfl),
    show idx_main_v234 (idx_main_v235 (ix1 n)) = ix2 n 0 from funext fun a => Fin.ext (by match a with | ⟨0, _⟩ => exact Nat.div_one _ | ⟨1, _⟩ => rfl),
    show idx_main_v237 (idx_main_v238 (ix1 n)) = ix2 n 3 from funext fun a => Fin.ext (by match a with | ⟨0, _⟩ => exact Nat.div_one _ | ⟨1, _⟩ => rfl),
    show idx_main_v239 (idx_main_v240 (ix1 n)) = ix2 n 1 from funext fun a => Fin.ext (by match a with | ⟨0, _⟩ => exact Nat.div_one _ | ⟨1, _⟩ => rfl),
    tc_0, tc_1, tc_2, tc_3]
  rfl

theorem v247_0 (r : Fin 9600) (t : Fin 2048) :
    val_main_v247 (F := Ideal) x5 (ix3 r t 0) = Cert.Cost.x1 (qb x5 r) := by
  rw [val_main_v247_apply, val_main_v244_apply, val_main_v243_apply,
    show idx_main_v243 (idx_main_v244 (idx_main_v247 (ix3 r t 0))) = ix2 r 0 from funext fun a => Fin.ext (by match a with | ⟨0, _⟩ => rfl | ⟨1, _⟩ => rfl),
    qc_0]

theorem v247_1 (r : Fin 9600) (t : Fin 2048) :
    val_main_v247 (F := Ideal) x5 (ix3 r t 1) = Cert.Cost.y1 (qb x5 r) := by
  rw [val_main_v247_apply, val_main_v244_apply, val_main_v243_apply,
    show idx_main_v243 (idx_main_v244 (idx_main_v247 (ix3 r t 1))) = ix2 r 1 from funext fun a => Fin.ext (by match a with | ⟨0, _⟩ => rfl | ⟨1, _⟩ => rfl),
    qc_1]

theorem v248_0 (r : Fin 9600) (t : Fin 2048) :
    val_main_v248 (F := Ideal) x7 (ix3 r t 0) = Cert.Cost.x1 (tb x7 t) := by
  rw [val_main_v248_apply, val_main_v246_apply, val_main_v245_apply,
    show idx_main_v245 (idx_main_v246 (idx_main_v248 (ix3 r t 0))) = ix2 t 0 from funext fun a => Fin.ext (by match a with | ⟨0, _⟩ => rfl | ⟨1, _⟩ => rfl),
    tc_0]

theorem v248_1 (r : Fin 9600) (t : Fin 2048) :
    val_main_v248 (F := Ideal) x7 (ix3 r t 1) = Cert.Cost.y1 (tb x7 t) := by
  rw [val_main_v248_apply, val_main_v246_apply, val_main_v245_apply,
    show idx_main_v245 (idx_main_v246 (idx_main_v248 (ix3 r t 1))) = ix2 t 1 from funext fun a => Fin.ext (by match a with | ⟨0, _⟩ => rfl | ⟨1, _⟩ => rfl),
    tc_1]

theorem v254_0 (r : Fin 9600) (t : Fin 2048) :
    val_main_v254 (F := Ideal) x5 (ix3 r t 0) = Cert.Cost.x2 (qb x5 r) := by
  rw [val_main_v254_apply, val_main_v251_apply, val_main_v250_apply,
    show idx_main_v250 (idx_main_v251 (idx_main_v254 (ix3 r t 0))) = ix2 r 2 from funext fun a => Fin.ext (by match a with | ⟨0, _⟩ => rfl | ⟨1, _⟩ => rfl),
    qc_2]

theorem v254_1 (r : Fin 9600) (t : Fin 2048) :
    val_main_v254 (F := Ideal) x5 (ix3 r t 1) = Cert.Cost.y2 (qb x5 r) := by
  rw [val_main_v254_apply, val_main_v251_apply, val_main_v250_apply,
    show idx_main_v250 (idx_main_v251 (idx_main_v254 (ix3 r t 1))) = ix2 r 3 from funext fun a => Fin.ext (by match a with | ⟨0, _⟩ => rfl | ⟨1, _⟩ => rfl),
    qc_3]

theorem v255_0 (r : Fin 9600) (t : Fin 2048) :
    val_main_v255 (F := Ideal) x7 (ix3 r t 0) = Cert.Cost.x2 (tb x7 t) := by
  rw [val_main_v255_apply, val_main_v253_apply, val_main_v252_apply,
    show idx_main_v252 (idx_main_v253 (idx_main_v255 (ix3 r t 0))) = ix2 t 2 from funext fun a => Fin.ext (by match a with | ⟨0, _⟩ => rfl | ⟨1, _⟩ => rfl),
    tc_2]

theorem v255_1 (r : Fin 9600) (t : Fin 2048) :
    val_main_v255 (F := Ideal) x7 (ix3 r t 1) = Cert.Cost.y2 (tb x7 t) := by
  rw [val_main_v255_apply, val_main_v253_apply, val_main_v252_apply,
    show idx_main_v252 (idx_main_v253 (idx_main_v255 (ix3 r t 1))) = ix2 t 3 from funext fun a => Fin.ext (by match a with | ⟨0, _⟩ => rfl | ⟨1, _⟩ => rfl),
    tc_3]

theorem v275_0 (r : Fin 9600) (t : Fin 2048) :
    val_main_v275 (F := Ideal) x5 (ix3 r t 0) = Cert.Cost.x1 (qb x5 r) := by
  rw [val_main_v275_apply, val_main_v272_apply, val_main_v271_apply,
    show idx_main_v271 (idx_main_v272 (idx_main_v275 (ix3 r t 0))) = ix2 r 0 from funext fun a => Fin.ext (by match a with | ⟨0, _⟩ => rfl | ⟨1, _⟩ => rfl),
    qc_0]

theorem v275_1 (r : Fin 9600) (t : Fin 2048) :
    val_main_v275 (F := Ideal) x5 (ix3 r t 1) = Cert.Cost.y1 (qb x5 r) := by
  rw [val_main_v275_apply, val_main_v272_apply, val_main_v271_apply,
    show idx_main_v271 (idx_main_v272 (idx_main_v275 (ix3 r t 1))) = ix2 r 1 from funext fun a => Fin.ext (by match a with | ⟨0, _⟩ => rfl | ⟨1, _⟩ => rfl),
    qc_1]

theorem v276_0 (r : Fin 9600) (t : Fin 2048) :
    val_main_v276 (F := Ideal) x7 (ix3 r t 0) = Cert.Cost.x1 (tb x7 t) := by
  rw [val_main_v276_apply, val_main_v274_apply, val_main_v273_apply,
    show idx_main_v273 (idx_main_v274 (idx_main_v276 (ix3 r t 0))) = ix2 t 0 from funext fun a => Fin.ext (by match a with | ⟨0, _⟩ => rfl | ⟨1, _⟩ => rfl),
    tc_0]

theorem v276_1 (r : Fin 9600) (t : Fin 2048) :
    val_main_v276 (F := Ideal) x7 (ix3 r t 1) = Cert.Cost.y1 (tb x7 t) := by
  rw [val_main_v276_apply, val_main_v274_apply, val_main_v273_apply,
    show idx_main_v273 (idx_main_v274 (idx_main_v276 (ix3 r t 1))) = ix2 t 1 from funext fun a => Fin.ext (by match a with | ⟨0, _⟩ => rfl | ⟨1, _⟩ => rfl),
    tc_1]

theorem v282_0 (r : Fin 9600) (t : Fin 2048) :
    val_main_v282 (F := Ideal) x5 (ix3 r t 0) = Cert.Cost.x2 (qb x5 r) := by
  rw [val_main_v282_apply, val_main_v279_apply, val_main_v278_apply,
    show idx_main_v278 (idx_main_v279 (idx_main_v282 (ix3 r t 0))) = ix2 r 2 from funext fun a => Fin.ext (by match a with | ⟨0, _⟩ => rfl | ⟨1, _⟩ => rfl),
    qc_2]

theorem v282_1 (r : Fin 9600) (t : Fin 2048) :
    val_main_v282 (F := Ideal) x5 (ix3 r t 1) = Cert.Cost.y2 (qb x5 r) := by
  rw [val_main_v282_apply, val_main_v279_apply, val_main_v278_apply,
    show idx_main_v278 (idx_main_v279 (idx_main_v282 (ix3 r t 1))) = ix2 r 3 from funext fun a => Fin.ext (by match a with | ⟨0, _⟩ => rfl | ⟨1, _⟩ => rfl),
    qc_3]

theorem v283_0 (r : Fin 9600) (t : Fin 2048) :
    val_main_v283 (F := Ideal) x7 (ix3 r t 0) = Cert.Cost.x2 (tb x7 t) := by
  rw [val_main_v283_apply, val_main_v281_apply, val_main_v280_apply,
    show idx_main_v280 (idx_main_v281 (idx_main_v283 (ix3 r t 0))) = ix2 t 2 from funext fun a => Fin.ext (by match a with | ⟨0, _⟩ => rfl | ⟨1, _⟩ => rfl),
    tc_2]

theorem v283_1 (r : Fin 9600) (t : Fin 2048) :
    val_main_v283 (F := Ideal) x7 (ix3 r t 1) = Cert.Cost.y2 (tb x7 t) := by
  rw [val_main_v283_apply, val_main_v281_apply, val_main_v280_apply,
    show idx_main_v280 (idx_main_v281 (idx_main_v283 (ix3 r t 1))) = ix2 t 3 from funext fun a => Fin.ext (by match a with | ⟨0, _⟩ => rfl | ⟨1, _⟩ => rfl),
    tc_3]

theorem v258_0 (r : Fin 9600) (t : Fin 2048) :
    val_main_v258 (F := Ideal) x5 x7 (ix3 r t 0)
      = Cert.Cost.clip0 (min (Cert.Cost.x2 (qb x5 r)) (Cert.Cost.x2 (tb x7 t)) - max (Cert.Cost.x1 (qb x5 r)) (Cert.Cost.x1 (tb x7 t))) := by
  rw [val_main_v258_apply, val_main_call3_v1_apply, val_main_call3_v0_apply, val_main_cst_32_apply,
    val_main_v257_apply, val_main_v256_apply, val_main_v249_apply, v254_0, v255_0, v247_0, v248_0]
  rfl

theorem v258_1 (r : Fin 9600) (t : Fin 2048) :
    val_main_v258 (F := Ideal) x5 x7 (ix3 r t 1)
      = Cert.Cost.clip0 (min (Cert.Cost.y2 (qb x5 r)) (Cert.Cost.y2 (tb x7 t)) - max (Cert.Cost.y1 (qb x5 r)) (Cert.Cost.y1 (tb x7 t))) := by
  rw [val_main_v258_apply, val_main_call3_v1_apply, val_main_call3_v0_apply, val_main_cst_32_apply,
    val_main_v257_apply, val_main_v256_apply, val_main_v249_apply, v254_1, v255_1, v247_1, v248_1]
  rfl

theorem v286_0 (r : Fin 9600) (t : Fin 2048) :
    val_main_v286 (F := Ideal) x5 x7 (ix3 r t 0)
      = Cert.Cost.clip0 (max (Cert.Cost.x2 (qb x5 r)) (Cert.Cost.x2 (tb x7 t)) - min (Cert.Cost.x1 (qb x5 r)) (Cert.Cost.x1 (tb x7 t))) := by
  rw [val_main_v286_apply, val_main_call4_v1_apply, val_main_call4_v0_apply, val_main_cst_33_apply,
    val_main_v285_apply, val_main_v284_apply, val_main_v277_apply, v282_0, v283_0, v275_0, v276_0]
  rfl

theorem v286_1 (r : Fin 9600) (t : Fin 2048) :
    val_main_v286 (F := Ideal) x5 x7 (ix3 r t 1)
      = Cert.Cost.clip0 (max (Cert.Cost.y2 (qb x5 r)) (Cert.Cost.y2 (tb x7 t)) - min (Cert.Cost.y1 (qb x5 r)) (Cert.Cost.y1 (tb x7 t))) := by
  rw [val_main_v286_apply, val_main_call4_v1_apply, val_main_call4_v0_apply, val_main_cst_33_apply,
    val_main_v285_apply, val_main_v284_apply, val_main_v277_apply, v282_1, v283_1, v275_1, v276_1]
  rfl

theorem v263_at (r : Fin 9600) (t : Fin 2048) :
    val_main_v263 (F := Ideal) x5 x7 (ix2 r t) = Cert.Cost.inter (qb x5 r) (tb x7 t) := by
  rw [val_main_v263_apply, val_main_v260_apply, val_main_v259_apply, val_main_v262_apply, val_main_v261_apply,
    show idx_main_v259 (idx_main_v260 (ix2 r t)) = ix3 r t 0 from funext fun a => Fin.ext (by match a with
      | ⟨0, _⟩ => show (r.val * 2048 + t.val) / 2048 = r.val; omega
      | ⟨1, _⟩ => show (r.val * 2048 + t.val) / 1 % 2048 = t.val; omega
      | ⟨2, _⟩ => rfl),
    show idx_main_v261 (idx_main_v262 (ix2 r t)) = ix3 r t 1 from funext fun a => Fin.ext (by match a with
      | ⟨0, _⟩ => show (r.val * 2048 + t.val) / 2048 = r.val; omega
      | ⟨1, _⟩ => show (r.val * 2048 + t.val) / 1 % 2048 = t.val; omega
      | ⟨2, _⟩ => rfl),
    v258_0, v258_1]
  rfl

theorem v291_at (r : Fin 9600) (t : Fin 2048) :
    val_main_v291 (F := Ideal) x5 x7 (ix2 r t) = Cert.Cost.hull (qb x5 r) (tb x7 t) := by
  rw [val_main_v291_apply, val_main_v288_apply, val_main_v287_apply, val_main_v290_apply, val_main_v289_apply,
    show idx_main_v287 (idx_main_v288 (ix2 r t)) = ix3 r t 0 from funext fun a => Fin.ext (by match a with
      | ⟨0, _⟩ => show (r.val * 2048 + t.val) / 2048 = r.val; omega
      | ⟨1, _⟩ => show (r.val * 2048 + t.val) / 1 % 2048 = t.val; omega
      | ⟨2, _⟩ => rfl),
    show idx_main_v289 (idx_main_v290 (ix2 r t)) = ix3 r t 1 from funext fun a => Fin.ext (by match a with
      | ⟨0, _⟩ => show (r.val * 2048 + t.val) / 2048 = r.val; omega
      | ⟨1, _⟩ => show (r.val * 2048 + t.val) / 1 % 2048 = t.val; omega
      | ⟨2, _⟩ => rfl),
    v286_0, v286_1]
  rfl

theorem v269_at (r : Fin 9600) (t : Fin 2048) :
    val_main_v269 (F := Ideal) x5 x7 (ix2 r t) = Cert.Cost.union (qb x5 r) (tb x7 t) := by
  rw [val_main_v269_apply, val_main_v268_apply, val_main_v266_apply, val_main_v264_apply, val_main_v267_apply,
    val_main_v265_apply,
    show idx_main_v264 (idx_main_v266 (ix2 r t)) = ix1 r from funext fun a => Fin.ext (by match a with | ⟨0, _⟩ => rfl),
    show idx_main_v265 (idx_main_v267 (ix2 r t)) = ix1 t from funext fun a => Fin.ext (by match a with | ⟨0, _⟩ => rfl),
    qarea, tarea, v263_at]
  rfl

theorem giou1 (r : Fin 9600) (t : Fin 2048) :
    val_main_v294 (F := Ideal) x5 x7 (ix2 r t)
      = Cert.Cost.giou (fun d => val_main_v167 (F := Ideal) x5 (ix2 r d)) (fun d => val_main_v169 (F := Ideal) x7 (ix2 t d)) := by
  rw [val_main_v294_apply, val_main_v270_apply, val_main_v293_apply, val_main_v292_apply, v263_at, v269_at, v291_at]
  rfl

end Cert.ReferenceIdeal.RefVal.BoxSub

end
-- ==== Proof.RValue.lean ====
import proofs.«408227_j14096082666122_3_alg».proof.Proof.RefRead
import proofs.«408227_j14096082666122_3_alg».proof.Proof.Spec
import proofs.«408227_j14096082666122_3_alg».proof.Proof.RSoftmax
import proofs.«408227_j14096082666122_3_alg».proof.Proof.RGather
import proofs.«408227_j14096082666122_3_alg».proof.Proof.RBoxObj
import proofs.«408227_j14096082666122_3_alg».proof.Proof.RBoxSub
import Idealize.ShloMosaic.PureOps.Ideal
import Idealize.ShloMosaic.Lib.ValueIdx

noncomputable section

open Cert.ReferenceIdeal Cert.ReferenceIdeal.Gen Cert.ReferenceIdeal.ReadP Idealize.ShloMosaic Idealize.ShloMosaic.TcCoe Idealize.ShloMosaic.ValueIdx

namespace Cert.ReferenceIdeal.RefVal

/-- With labels in range the reference's matrix is the matching cost, entry by entry. -/
theorem cost_eq (x0 : (⟨S6x32x300x151, .f32⟩ : BufTy).Contents (Elt Ideal)) (x1 : (⟨S6x32x300x4, .f32⟩ : BufTy).Contents (Elt Ideal)) (x2 : (⟨S32x64, .i32⟩ : BufTy).Contents (Elt Ideal)) (x3 : (⟨S32x64x4, .f32⟩ : BufTy).Contents (Elt Ideal))
    (x4 : (⟨S6x32x300x151, .f32⟩ : BufTy).Contents (Elt Ideal)) (x5 : (⟨S6x32x300x4, .f32⟩ : BufTy).Contents (Elt Ideal)) (x6 : (⟨S32x64, .i32⟩ : BufTy).Contents (Elt Ideal)) (x7 : (⟨S32x64x4, .f32⟩ : BufTy).Contents (Elt Ideal))
    (x8 : (⟨S6x32x300x51, .f32⟩ : BufTy).Contents (Elt Ideal)) (x9 : (⟨S32x64, .i32⟩ : BufTy).Contents (Elt Ideal))
    (hL0 : ∀ i, 0 ≤ (x2 i).toInt ∧ (x2 i).toInt < 151) (hL1 : ∀ i, 0 ≤ (x6 i).toInt ∧ (x6 i).toInt < 151)
    (hL2 : ∀ i, 0 ≤ (x9 i).toInt ∧ (x9 i).toInt < 51) (r : Fin 9600) (t : Fin 2048) :
    val_main_v330 (F := Ideal) x0 x1 x2 x3 x4 x5 x6 x7 x8 x9 (ix2 r t)
      = Cert.Cost.costAt (val_main_v2 (F := Ideal) x0) (val_main_v16 (F := Ideal) x1) (val_main_v17 (F := Ideal) x2) (val_main_v18 (F := Ideal) x3)
          (val_main_v153 (F := Ideal) x4) (val_main_v167 (F := Ideal) x5) (val_main_v168 (F := Ideal) x6) (val_main_v169 (F := Ideal) x7)
          (val_main_v307 (F := Ideal) x8) (val_main_v319 (F := Ideal) x9) r t := by
  have h17 : 0 ≤ (val_main_v17 (F := Ideal) x2 (ix1 t)).toInt ∧ (val_main_v17 (F := Ideal) x2 (ix1 t)).toInt < 151 := by
    rw [val_main_v17_apply]; exact hL0 _
  have h168 : 0 ≤ (val_main_v168 (F := Ideal) x6 (ix1 t)).toInt ∧ (val_main_v168 (F := Ideal) x6 (ix1 t)).toInt < 151 := by
    rw [val_main_v168_apply]; exact hL1 _
  have h319 : 0 ≤ (val_main_v319 (F := Ideal) x9 (ix1 t)).toInt ∧ (val_main_v319 (F := Ideal) x9 (ix1 t)).toInt < 51 := by
    rw [val_main_v319_apply]; exact hL2 _
  rw [val_main_v330_apply, val_main_v304_apply, val_main_v150_apply, val_main_v147_apply, val_main_v144_apply, val_main_v146_apply,
    val_main_v149_apply, val_main_v142_apply, val_main_v303_apply, val_main_v300_apply, val_main_v297_apply, val_main_v299_apply,
    val_main_v302_apply, val_main_v295_apply, val_main_v329_apply,
    val_main_v143_apply, val_main_cst_14_apply, val_main_v145_apply, val_main_cst_15_apply, val_main_v148_apply, val_main_cst_16_apply,
    val_main_v296_apply, val_main_cst_34_apply, val_main_v298_apply, val_main_cst_35_apply, val_main_v301_apply, val_main_cst_36_apply,
    val_main_v328_apply, val_main_cst_42_apply,
    Gather.class0 x0 x2 r t h17, Softmax.probs0, BoxObj.dist0, BoxObj.giou0,
    Gather.class1 x4 x6 r t h168, Softmax.probs1, BoxSub.dist1, BoxSub.giou1,
    Gather.class2 x8 x9 r t h319, Softmax.probs2]
  simp only [Ideal.addf_def, Ideal.mulf_def, Ideal.hostNegf_def, Ideal.negf_def, Ideal.ofBits_def]
  unfold Cert.Cost.costAt Cert.Cost.cellG Cert.Cost.total Cert.Cost.branch
  simp only [mul_neg, ← sub_eq_add_neg]

end Cert.ReferenceIdeal.RefVal

end
-- ==== Proof.PreLabels.lean ====
import proofs.«408227_j14096082666122_3_alg».proof.Pre_finite_inputs
import Idealize.ShloMosaic.Lib.ReduceAll
import Idealize.ShloMosaic.Lib.StableHlo.Predicate
import Idealize.ShloMosaic.Lib.IdealHost
import Idealize.ShloMosaic.Lib.ValueIdx

namespace Cert.PreLabels

open Cert.Pre_finite_inputs Idealize.ShloMosaic Idealize.ShloMosaic.ValueIdx

instance : Subsingleton S_.Idx := ⟨fun a b => funext fun d => d.elim0⟩

theorem range_of_bits (x lo hi : BitVec 32)
    (h : IntOp.andi (IntOp.cmpi .sge x lo) (IntOp.cmpi .slt x hi) = 1#1) :
    lo.toInt ≤ x.toInt ∧ x.toInt < hi.toInt := by
  obtain ⟨h1, h2⟩ := IntOp.andi_eq_one.1 h
  unfold IntOp.cmpi at h1 h2
  rw [StableHlo.Predicate.ofBool_eq_one_iff] at h1 h2
  exact ⟨BitVec.sle_iff_toInt_le.1 h1, BitVec.slt_iff_toInt_lt.1 h2⟩

theorem range_of_all [Facts] (a : IVec S32x64 32) (lo hi : BitVec 32)
    (h : Host.reduce IntOp.andi
          (andi (cmpi .sge a (broadcastInDim S32x64 ![] Facts.bcast_S_S32x64 (constantI S_ 32 lo)))
                (cmpi .slt a (broadcastInDim S32x64 ![] Facts.bcast_S_S32x64 (constantI S_ 32 hi))))
          (constantI S_ 1 1#1) Facts.reducesTo_S32x64_S_d0_1 Facts.h_S_ ix0 = 1#1) (i : S32x64.Idx) :
    lo.toInt ≤ (a i).toInt ∧ (a i).toInt < hi.toInt := by
  have e := Host.reduce_andi_all _ _ _ _ _ h i
  exact range_of_bits (a i) lo hi e

/-- The precondition's last three conjuncts bound every label by its class count. -/
theorem labels_of_pre [Facts] (a0 : FVec Ideal S6x32x300x151 .f32) (a1 : FVec Ideal S6x32x300x4 .f32) (a2 : IVec S32x64 32) (a3 : FVec Ideal S32x64x4 .f32)
    (a4 : FVec Ideal S6x32x300x151 .f32) (a5 : FVec Ideal S6x32x300x4 .f32) (a6 : IVec S32x64 32) (a7 : FVec Ideal S32x64x4 .f32)
    (a8 : FVec Ideal S6x32x300x51 .f32) (a9 : IVec S32x64 32)
    (h : fn (F := Ideal) a0 a1 a2 a3 a4 a5 a6 a7 a8 a9 = fun _ => 1#1) :
    (∀ i, 0 ≤ (a2 i).toInt ∧ (a2 i).toInt < 151) ∧ (∀ i, 0 ≤ (a6 i).toInt ∧ (a6 i).toInt < 151) ∧ (∀ i, 0 ≤ (a9 i).toInt ∧ (a9 i).toInt < 51) := by
  have h0 := congrFun h ix0
  unfold fn fn_part1 fn_part2 fn_part3 at h0
  dsimp only at h0

  obtain ⟨h01, hL2⟩ := IntOp.andi_eq_one.1 h0
  obtain ⟨h0', hL1⟩ := IntOp.andi_eq_one.1 h01
  obtain ⟨_, hL0⟩ := IntOp.andi_eq_one.1 h0'
  have z : (0#32).toInt = 0 := by decide
  have c151 : (151#32).toInt = 151 := by decide
  have c51 : (51#32).toInt = 51 := by decide
  refine ⟨fun i => ?_, fun i => ?_, fun i => ?_⟩
  · have := range_of_all a2 0#32 151#32 hL0 i
    rwa [z, c151] at this
  · have := range_of_all a6 0#32 151#32 hL1 i
    rwa [z, c151] at this
  · have := range_of_all a9 0#32 51#32 hL2 i
    rwa [z, c51] at this

end Cert.PreLabels
-- ==== Proof.Link.lean ====
import proofs.«408227_j14096082666122_3_alg».proof.Defs
import proofs.«408227_j14096082666122_3_alg».proof.Proof.KLink
import proofs.«408227_j14096082666122_3_alg».proof.Proof.RValue
import proofs.«408227_j14096082666122_3_alg».proof.Proof.PreLabels
import proofs.«408227_j14096082666122_3_alg».proof.Proof.Gen.Pre_finite_inputs

noncomputable section

namespace Cert.Proof

open Idealize.ShloMosaic Idealize.ShloMosaic.TcCoe Idealize.SL.Sem Idealize.ShloMosaic.ValueIdx

/-- Reference and kernel matrices agree entry by entry: both are the matching cost of the flattened inputs. -/
theorem matrix_eq (m : (ℓ : Loc Cert.KernelIdeal.nD Cert.KernelIdeal.τ Cert.KernelIdeal.sig) → Buf (Elt Ideal) ℓ) (hpre : Cert.Pre_KernelIdeal m) (c : Dev Cert.KernelIdeal.nD) :
    Cert.ReferenceIdeal.ReadP.val_main_v330 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Val.Gfull m c := by
  obtain ⟨hL0, hL1, hL2⟩ := Cert.PreLabels.labels_of_pre _ _ _ _ _ _ _ _ _ _ (hpre c)
  funext i
  obtain ⟨r, t, rfl⟩ : ∃ (r : Fin 9600) (t : Fin 2048), i = ix2 r t := ⟨i 0, i 1, eq_ix2 i⟩
  rw [Cert.ReferenceIdeal.RefVal.cost_eq _ _ _ _ _ _ _ _ _ _ hL0 hL1 hL2 r t,
    Cert.KernelIdeal.Val.Gfull_eq m c (fun t => by rw [Cert.KernelIdeal.HostVal.V_v19 m c]; exact hL0 _)
      (fun t => by rw [Cert.KernelIdeal.HostVal.V_v20 m c]; exact hL1 _) (fun t => by rw [Cert.KernelIdeal.HostVal.V_v21 m c]; exact hL2 _) r t,
    Cert.KernelIdeal.HostVal.V_v2 m c, Cert.KernelIdeal.HostVal.V_v5 m c, Cert.KernelIdeal.HostVal.V_v8 m c, Cert.KernelIdeal.HostVal.V_v11 m c, Cert.KernelIdeal.HostVal.V_v14 m c,
    Cert.KernelIdeal.HostVal.V_v15 m c, Cert.KernelIdeal.HostVal.V_v17 m c, Cert.KernelIdeal.HostVal.V_v19 m c, Cert.KernelIdeal.HostVal.V_v20 m c, Cert.KernelIdeal.HostVal.V_v21 m c]
  rfl

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) :
    Cert.ReferenceIdeal.ReadP.val_main_v331 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      = shapeCast Cert.KernelIdeal.S32x300x2048 (Cert.KernelIdeal.Val.Gfull m c) Cert.KernelIdeal.Facts₀.shapeCasts_S9600x2048_S32x300x2048 := by
  obtain ⟨e0, e1, e2, e3, e4, e5, e6, e7, e8, e9⟩ := hagree
  rw [e0, e1, e2, e3, e4, e5, e6, e7, e8, e9]
  unfold Cert.ReferenceIdeal.ReadP.val_main_v331
  rw [matrix_eq m hpre c]

end Cert.Proof

end
-- ==== Proof.RefRunH1.lean ====
import proofs.«408227_j14096082666122_3_alg».proof.Proof.RefRead
import Idealize.ShloMosaic.Lib.StableHlo.Run
import Idealize.ShloMosaic.Lib.Pipeline.Regions

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S6x32x300x151, .f32⟩ : BufTy).Contents (Elt F)} {x1 : (⟨S6x32x300x4, .f32⟩ : BufTy).Contents (Elt F)}
  {x2 : (⟨S32x64, .i32⟩ : BufTy).Contents (Elt F)} {x3 : (⟨S32x64x4, .f32⟩ : BufTy).Contents (Elt F)}
  {x4 : (⟨S6x32x300x151, .f32⟩ : BufTy).Contents (Elt F)} {x5 : (⟨S6x32x300x4, .f32⟩ : BufTy).Contents (Elt F)}
  {x6 : (⟨S32x64, .i32⟩ : BufTy).Contents (Elt F)} {x7 : (⟨S32x64x4, .f32⟩ : BufTy).Contents (Elt F)}
  {x8 : (⟨S6x32x300x51, .f32⟩ : BufTy).Contents (Elt F)} {x9 : (⟨S32x64, .i32⟩ : BufTy).Contents (Elt F)}
variable (V : Valuation τ sig (Elt F))

abbrev ops0 : List (HloOp τ sig (Elt F)) :=
  [ StableHlo.unary main_arg0 main_v0 ((extractStridedSlice S1x32x300x151 ![5, 0, 0, 0] · slices_S6x32x300x151_S1x32x300x151_5_0_0_0) : (⟨S6x32x300x151, .f32⟩ : BufTy).Contents (Elt F) → (⟨S1x32x300x151, .f32⟩ : BufTy).Contents (Elt F)),
    StableHlo.reshape main_v0 main_v1 rfl shapeCasts_S1x32x300x151_S32x300x151,
    StableHlo.reshape main_v1 main_v2 rfl shapeCasts_S32x300x151_S9600x151,
    StableHlo.nullary main_cst (constant S_ .f32 0xFF800000#32),
    StableHlo.binary main_v2 main_cst main_v3 ((fun x v => Host.reduce FloatOps.maximumf x v reducesTo_S9600x151_S9600_d1 h_S_) : (⟨S9600x151, .f32⟩ : BufTy).Contents (Elt F) → (⟨S_, .f32⟩ : BufTy).Contents (Elt F) → (⟨S9600, .f32⟩ : BufTy).Contents (Elt F)),
    StableHlo.nullary main_cst_0 (constant S_ .f32 0xFF800000#32),
    StableHlo.unary main_cst_0 main_v4 (broadcastInDim S9600 ![] bcast_S_S9600 : (⟨S_, .f32⟩ : BufTy).Contents (Elt F) → (⟨S9600, .f32⟩ : BufTy).Contents (Elt F)),
    StableHlo.binary main_v4 main_v3 main_v5 (maximumf : (⟨S9600, .f32⟩ : BufTy).Contents (Elt F) → (⟨S9600, .f32⟩ : BufTy).Contents (Elt F) → (⟨S9600, .f32⟩ : BufTy).Contents (Elt F)),
    StableHlo.unary main_v5 main_v6 (broadcastInDim S9600x1 ![0] bcast_S9600_S9600x1_0 : (⟨S9600, .f32⟩ : BufTy).Contents (Elt F) → (⟨S9600x1, .f32⟩ : BufTy).Contents (Elt F)),
    StableHlo.unary main_v6 main_v7 (broadcastInDim S9600x151 ![0, 1] bcast_S9600x1_S9600x151_0_1 : (⟨S9600x1, .f32⟩ : BufTy).Contents (Elt F) → (⟨S9600x151, .f32⟩ : BufTy).Contents (Elt F)),
    StableHlo.binary main_v2 main_v7 main_v8 (subf : (⟨S9600x151, .f32⟩ : BufTy).Contents (Elt F) → (⟨S9600x151, .f32⟩ : BufTy).Contents (Elt F) → (⟨S9600x151, .f32⟩ : BufTy).Contents (Elt F)),
    StableHlo.unary main_v8 main_v9 (Host.exp : (⟨S9600x151, .f32⟩ : BufTy).Contents (Elt F) → (⟨S9600x151, .f32⟩ : BufTy).Contents (Elt F)),
    StableHlo.nullary main_cst_1 (constant S_ .f32 0x00000000#32),
    StableHlo.binary main_v9 main_cst_1 main_v10 ((fun x v => Host.reduceAdd x v reducesTo_S9600x151_S9600_d1 h_S_) : (⟨S9600x151, .f32⟩ : BufTy).Contents (Elt F) → (⟨S_, .f32⟩ : BufTy).Contents (Elt F) → (⟨S9600, .f32⟩ : BufTy).Contents (Elt F)),
    StableHlo.unary main_v10 main_v11 (broadcastInDim S9600x1 ![0] bcast_S9600_S9600x1_0 : (⟨S9600, .f32⟩ : BufTy).Contents (Elt F) → (⟨S9600x1, .f32⟩ : BufTy).Contents (Elt F)),
    StableHlo.unary main_v11 main_v12 (broadcastInDim S9600x151 ![0, 1] bcast_S9600x1_S9600x151_0_1 : (⟨S9600x1, .f32⟩ : BufTy).Contents (Elt F) → (⟨S9600x151, .f32⟩ : BufTy).Contents (Elt F)),
    StableHlo.binary main_v9 main_v12 main_v13 (Host.divf : (⟨S9600x151, .f32⟩ : BufTy).Contents (Elt F) → (⟨S9600x151, .f32⟩ : BufTy).Contents (Elt F) → (⟨S9600x151, .f32⟩ : BufTy).Contents (Elt F)),
    StableHlo.unary main_arg1 main_v14 ((extractStridedSlice S1x32x300x4 ![5, 0, 0, 0] · slices_S6x32x300x4_S1x32x300x4_5_0_0_0) : (⟨S6x32x300x4, .f32⟩ : BufTy).Contents (Elt F) → (⟨S1x32x300x4, .f32⟩ : BufTy).Contents (Elt F)),
    StableHlo.reshape main_v14 main_v15 rfl shapeCasts_S1x32x300x4_S32x300x4,
    StableHlo.reshape main_v15 main_v16 rfl shapeCasts_S32x300x4_S9600x4,
    StableHlo.reshape main_arg2 main_v17 rfl shapeCasts_S32x64_S2048,
    StableHlo.reshape main_arg3 main_v18 rfl shapeCasts_S32x64x4_S2048x4,
    StableHlo.nullary main_c (constantI S_ 32 0#32),
    StableHlo.unary main_c main_v19 (broadcastInDim S2048 ![] bcast_S_S2048 : (⟨S_, .i32⟩ : BufTy).Contents (Elt F) → (⟨S2048, .i32⟩ : BufTy).Contents (Elt F)),
    StableHlo.binary main_v17 main_v19 main_v20 (cmpi .slt : (⟨S2048, .i32⟩ : BufTy).Contents (Elt F) → (⟨S2048, .i32⟩ : BufTy).Contents (Elt F) → (⟨S2048, .i1⟩ : BufTy).Contents (Elt F)),
    StableHlo.nullary main_c_2 (constantI S_ 32 151#32),
    StableHlo.unary main_c_2 main_v21 (broadcastInDim S2048 ![] bcast_S_S2048 : (⟨S_, .i32⟩ : BufTy).Contents (Elt F) → (⟨S2048, .i32⟩ : BufTy).Contents (Elt F)),
    StableHlo.binary main_v17 main_v21 main_v22 (addi : (⟨S2048, .i32⟩ : BufTy).Contents (Elt F) → (⟨S2048, .i32⟩ : BufTy).Contents (Elt F) → (⟨S2048, .i32⟩ : BufTy).Contents (Elt F)),
    StableHlo.ternary main_v20 main_v22 main_v17 main_v23 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v23 main_v24 (broadcastInDim S2048x1 ![0] bcast_S2048_S2048x1_0 : (⟨S2048, .i32⟩ : BufTy).Contents (Elt F) → (⟨S2048x1, .i32⟩ : BufTy).Contents (Elt F)) ]

abbrev ops0_W : List (Ref sig .tc) := [main_v0, main_v1, main_v2, main_cst, main_v3, main_cst_0, main_v4, main_v5, main_v6, main_v7, main_v8, main_v9, main_cst_1, main_v10, main_v11, main_v12, main_v13, main_v14, main_v15, main_v16, main_v17, main_v18, main_c, main_v19, main_v20, main_c_2, main_v21, main_v22, main_v23, main_v24]
theorem ops0_writes : (ops0 (F := F)).Forall fun op => op.writes ⊆ (ops0_W.map (Proc.devRef (τ := τ) .tc)).toFinset := by
  simp only [List.Forall, unary_writes, reshape_writes, nullary_writes, binary_writes, ternary_writes, Finset.singleton_subset_iff, List.mem_toFinset]
  and_intros <;> exact List.mem_map_of_mem (by decide)

theorem stage0
    (a0 : V (Proc.devRef .tc main_arg0) = x0)
    (a1 : V (Proc.devRef .tc main_arg1) = x1)
    (a3 : V (Proc.devRef .tc main_arg3) = x3)
    (a2 : V (Proc.devRef .tc main_arg2) = x2)
    :
    after ops0 V (Proc.devRef .tc main_v13) = val_main_v13 x0
    ∧ after ops0 V (Proc.devRef .tc main_v16) = val_main_v16 x1
    ∧ after ops0 V (Proc.devRef .tc main_v18) = val_main_v18 x3
    ∧ after ops0 V (Proc.devRef .tc main_v24) = val_main_v24 x2 := by
  after_results_simp
  rw [a0, a1, a3, a2]
  exact ⟨rfl, rfl, rfl, rfl⟩

abbrev ops1 : List (HloOp τ sig (Elt F)) :=
  [ StableHlo.binary main_v13 main_v24 main_v25 ((fun x i => Host.gather gather_S9600x151_S2048x1_S9600x2048_0_1_n_n_1_1_96001 x i) : (⟨S9600x151, .f32⟩ : BufTy).Contents (Elt F) → (⟨S2048x1, .i32⟩ : BufTy).Contents (Elt F) → (⟨S9600x2048, .f32⟩ : BufTy).Contents (Elt F)),
    StableHlo.unary main_v25 main_v26 (Host.negf : (⟨S9600x2048, .f32⟩ : BufTy).Contents (Elt F) → (⟨S9600x2048, .f32⟩ : BufTy).Contents (Elt F)),
    StableHlo.unary main_v16 main_v27 (broadcastInDim S9600x1x4 ![0, 2] bcast_S9600x4_S9600x1x4_0_2 : (⟨S9600x4, .f32⟩ : BufTy).Contents (Elt F) → (⟨S9600x1x4, .f32⟩ : BufTy).Contents (Elt F)),
    StableHlo.unary main_v18 main_v28 (broadcastInDim S1x2048x4 ![1, 2] bcast_S2048x4_S1x2048x4_1_2 : (⟨S2048x4, .f32⟩ : BufTy).Contents (Elt F) → (⟨S1x2048x4, .f32⟩ : BufTy).Contents (Elt F)),
    StableHlo.unary main_v27 main_v29 (broadcastInDim S9600x2048x4 ![0, 1, 2] bcast_S9600x1x4_S9600x2048x4_0_1_2 : (⟨S9600x1x4, .f32⟩ : BufTy).Contents (Elt F) → (⟨S9600x2048x4, .f32⟩ : BufTy).Contents (Elt F)),
    StableHlo.unary main_v28 main_v30 (broadcastInDim S9600x2048x4 ![0, 1, 2] bcast_S1x2048x4_S9600x2048x4_0_1_2 : (⟨S1x2048x4, .f32⟩ : BufTy).Contents (Elt F) → (⟨S9600x2048x4, .f32⟩ : BufTy).Contents (Elt F)),
    StableHlo.binary main_v29 main_v30 main_v31 (subf : (⟨S9600x2048x4, .f32⟩ : BufTy).Contents (Elt F) → (⟨S9600x2048x4, .f32⟩ : BufTy).Contents (Elt F) → (⟨S9600x2048x4, .f32⟩ : BufTy).Contents (Elt F)),
    StableHlo.unary main_v31 main_v32 (Host.absf : (⟨S9600x2048x4, .f32⟩ : BufTy).Contents (Elt F) → (⟨S9600x2048x4, .f32⟩ : BufTy).Contents (Elt F)),
    StableHlo.nullary main_cst_3 (constant S_ .f32 0x00000000#32),
    StableHlo.binary main_v32 main_cst_3 main_v33 ((fun x v => Host.reduceAdd x v reducesTo_S9600x2048x4_S9600x2048_d2 h_S_) : (⟨S9600x2048x4, .f32⟩ : BufTy).Contents (Elt F) → (⟨S_, .f32⟩ : BufTy).Contents (Elt F) → (⟨S9600x2048, .f32⟩ : BufTy).Contents (Elt F)),
    StableHlo.unary main_v16 main_v34 ((extractStridedSlice S9600x1 ![0, 0] · slices_S9600x4_S9600x1_0_0) : (⟨S9600x4, .f32⟩ : BufTy).Contents (Elt F) → (⟨S9600x1, .f32⟩ : BufTy).Contents (Elt F)),
    StableHlo.unary main_v16 main_v35 ((extractStridedSlice S9600x1 ![0, 1] · slices_S9600x4_S9600x1_0_1) : (⟨S9600x4, .f32⟩ : BufTy).Contents (Elt F) → (⟨S9600x1, .f32⟩ : BufTy).Contents (Elt F)),
    StableHlo.unary main_v16 main_v36 ((extractStridedSlice S9600x1 ![0, 2] · slices_S9600x4_S9600x1_0_2) : (⟨S9600x4, .f32⟩ : BufTy).Contents (Elt F) → (⟨S9600x1, .f32⟩ : BufTy).Contents (Elt F)),
    StableHlo.unary main_v16 main_v37 ((extractStridedSlice S9600x1 ![0, 3] · slices_S9600x4_S9600x1_0_3) : (⟨S9600x4, .f32⟩ : BufTy).Contents (Elt F) → (⟨S9600x1, .f32⟩ : BufTy).Contents (Elt F)),
    StableHlo.nullary main_cst_4 (constant S_ .f32 0x3F000000#32),
    StableHlo.unary main_cst_4 main_v38 (broadcastInDim S9600x1 ![] bcast_S_S9600x1 : (⟨S_, .f32⟩ : BufTy).Contents (Elt F) → (⟨S9600x1, .f32⟩ : BufTy).Contents (Elt F)),
    StableHlo.binary main_v38 main_v36 main_v39 (mulf : (⟨S9600x1, .f32⟩ : BufTy).Contents (Elt F) → (⟨S9600x1, .f32⟩ : BufTy).Contents (Elt F) → (⟨S9600x1, .f32⟩ : BufTy).Contents (Elt F)),
    StableHlo.binary main_v34 main_v39 main_v40 (subf : (⟨S9600x1, .f32⟩ : BufTy).Contents (Elt F) → (⟨S9600x1, .f32⟩ : BufTy).Contents (Elt F) → (⟨S9600x1, .f32⟩ : BufTy).Contents (Elt F)),
    StableHlo.nullary main_cst_5 (constant S_ .f32 0x3F000000#32),
    StableHlo.unary main_cst_5 main_v41 (broadcastInDim S9600x1 ![] bcast_S_S9600x1 : (⟨S_, .f32⟩ : BufTy).Contents (Elt F) → (⟨S9600x1, .f32⟩ : BufTy).Contents (Elt F)),
    StableHlo.binary main_v41 main_v37 main_v42 (mulf : (⟨S9600x1, .f32⟩ : BufTy).Contents (Elt F) → (⟨S9600x1, .f32⟩ : BufTy).Contents (Elt F) → (⟨S9600x1, .f32⟩ : BufTy).Contents (Elt F)),
    StableHlo.binary main_v35 main_v42 main_v43 (subf : (⟨S9600x1, .f32⟩ : BufTy).Contents (Elt F) → (⟨S9600x1, .f32⟩ : BufTy).Contents (Elt F) → (⟨S9600x1, .f32⟩ : BufTy).Contents (Elt F)),
    StableHlo.nullary main_cst_6 (constant S_ .f32 0x3F000000#32),
    StableHlo.unary main_cst_6 main_v44 (broadcastInDim S9600x1 ![] bcast_S_S9600x1 : (⟨S_, .f32⟩ : BufTy).Contents (Elt F) → (⟨S9600x1, .f32⟩ : BufTy).Contents (Elt F)),
    StableHlo.binary main_v44 main_v36 main_v45 (mulf : (⟨S9600x1, .f32⟩ : BufTy).Contents (Elt F) → (⟨S9600x1, .f32⟩ : BufTy).Contents (Elt F) → (⟨S9600x1, .f32⟩ : BufTy).Contents (Elt F)),
    StableHlo.binary main_v34 main_v45 main_v46 (addf : (⟨S9600x1, .f32⟩ : BufTy).Contents (Elt F) → (⟨S9600x1, .f32⟩ : BufTy).Contents (Elt F) → (⟨S9600x1, .f32⟩ : BufTy).Contents (Elt F)),
    StableHlo.nullary main_cst_7 (constant S_ .f32 0x3F000000#32),
    StableHlo.unary main_cst_7 main_v47 (broadcastInDim S9600x1 ![] bcast_S_S9600x1 : (⟨S_, .f32⟩ : BufTy).Contents (Elt F) → (⟨S9600x1, .f32⟩ : BufTy).Contents (Elt F)),
    StableHlo.binary main_v47 main_v37 main_v48 (mulf : (⟨S9600x1, .f32⟩ : BufTy).Contents (Elt F) → (⟨S9600x1, .f32⟩ : BufTy).Contents (Elt F) → (⟨S9600x1, .f32⟩ : BufTy).Contents (Elt F)),
    StableHlo.binary main_v35 main_v48 main_v49 (addf : (⟨S9600x1, .f32⟩ : BufTy).Contents (Elt F) → (⟨S9600x1, .f32⟩ : BufTy).Contents (Elt F) → (⟨S9600x1, .f32⟩ : BufTy).Contents (Elt F)) ]

abbrev ops1_W : List (Ref sig .tc) := [main_v25, main_v26, main_v27, main_v28, main_v29, main_v30, main_v31, main_v32, main_cst_3, main_v33, main_v34, main_v35, main_v36, main_v37, main_cst_4, main_v38, main_v39, main_v40, main_cst_5, main_v41, main_v42, main_v43, main_cst_6, main_v44, main_v45, main_v46, main_cst_7, main_v47, main_v48, main_v49]
theorem ops1_writes : (ops1 (F := F)).Forall fun op => op.writes ⊆ (ops1_W.map (Proc.devRef (τ := τ) .tc)).toFinset := by
  simp only [List.Forall, binary_writes, unary_writes, nullary_writes, Finset.singleton_subset_iff, List.mem_toFinset]
  and_intros <;> exact List.mem_map_of_mem (by decide)

theorem stage1
    (h_main_v13 : V (Proc.devRef .tc main_v13) = val_main_v13 x0)
    (h_main_v24 : V (Proc.devRef .tc main_v24) = val_main_v24 x2)
    (h_main_v16 : V (Proc.devRef .tc main_v16) = val_main_v16 x1)
    (h_main_v18 : V (Proc.devRef .tc main_v18) = val_main_v18 x3)
    :
    after ops1 V (Proc.devRef .tc main_v26) = val_main_v26 x0 x2
    ∧ after ops1 V (Proc.devRef .tc main_v33) = val_main_v33 x1 x3
    ∧ after ops1 V (Proc.devRef .tc main_v40) = val_main_v40 x1
    ∧ after ops1 V (Proc.devRef .tc main_v43) = val_main_v43 x1
    ∧ after ops1 V (Proc.devRef .tc main_v46) = val_main_v46 x1
    ∧ after ops1 V (Proc.devRef .tc main_v49) = val_main_v49 x1 := by
  after_results_simp
  rw [h_main_v13, h_main_v24, h_main_v16, h_main_v18]
  exact ⟨rfl, rfl, rfl, rfl, rfl, rfl⟩

theorem part0_eq (d : Dev nD) : main_part0 (F := F) d = seq (ops0 ++ (ops1)) := by
  chain_rfl

end Cert.ReferenceIdeal.RunH

end
-- ==== Proof.RefRunH2.lean ====
import proofs.«408227_j14096082666122_3_alg».proof.Proof.RefRead
import Idealize.ShloMosaic.Lib.StableHlo.Run
import Idealize.ShloMosaic.Lib.Pipeline.Regions

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S6x32x300x151, .f32⟩ : BufTy).Contents (Elt F)} {x1 : (⟨S6x32x300x4, .f32⟩ : BufTy).Contents (Elt F)}
  {x2 : (⟨S32x64, .i32⟩ : BufTy).Contents (Elt F)} {x3 : (⟨S32x64x4, .f32⟩ : BufTy).Contents (Elt F)}
  {x4 : (⟨S6x32x300x151, .f32⟩ : BufTy).Contents (Elt F)} {x5 : (⟨S6x32x300x4, .f32⟩ : BufTy).Contents (Elt F)}
  {x6 : (⟨S32x64, .i32⟩ : BufTy).Contents (Elt F)} {x7 : (⟨S32x64x4, .f32⟩ : BufTy).Contents (Elt F)}
  {x8 : (⟨S6x32x300x51, .f32⟩ : BufTy).Contents (Elt F)} {x9 : (⟨S32x64, .i32⟩ : BufTy).Contents (Elt F)}
variable (V : Valuation τ sig (Elt F))

abbrev ops2 : List (HloOp τ sig (Elt F)) :=
  [ StableHlo.nary ![main_v40, main_v43, main_v46, main_v49] main_v50 (fun u => concatenate S9600x4 1 [⟨S9600x1, u 0⟩, ⟨S9600x1, u 1⟩, ⟨S9600x1, u 2⟩, ⟨S9600x1, u 3⟩] concatenates_S9600x1_S9600x1_S9600x1_S9600x1_S9600x4_d1),
    StableHlo.unary main_v18 main_v51 ((extractStridedSlice S2048x1 ![0, 0] · slices_S2048x4_S2048x1_0_0) : (⟨S2048x4, .f32⟩ : BufTy).Contents (Elt F) → (⟨S2048x1, .f32⟩ : BufTy).Contents (Elt F)),
    StableHlo.unary main_v18 main_v52 ((extractStridedSlice S2048x1 ![0, 1] · slices_S2048x4_S2048x1_0_1) : (⟨S2048x4, .f32⟩ : BufTy).Contents (Elt F) → (⟨S2048x1, .f32⟩ : BufTy).Contents (Elt F)),
    StableHlo.unary main_v18 main_v53 ((extractStridedSlice S2048x1 ![0, 2] · slices_S2048x4_S2048x1_0_2) : (⟨S2048x4, .f32⟩ : BufTy).Contents (Elt F) → (⟨S2048x1, .f32⟩ : BufTy).Contents (Elt F)),
    StableHlo.unary main_v18 main_v54 ((extractStridedSlice S2048x1 ![0, 3] · slices_S2048x4_S2048x1_0_3) : (⟨S2048x4, .f32⟩ : BufTy).Contents (Elt F) → (⟨S2048x1, .f32⟩ : BufTy).Contents (Elt F)),
    StableHlo.nullary main_cst_8 (constant S_ .f32 0x3F000000#32),
    StableHlo.unary main_cst_8 main_v55 (broadcastInDim S2048x1 ![] bcast_S_S2048x1 : (⟨S_, .f32⟩ : BufTy).Contents (Elt F) → (⟨S2048x1, .f32⟩ : BufTy).Contents (Elt F)),
    StableHlo.binary main_v55 main_v53 main_v56 (mulf : (⟨S2048x1, .f32⟩ : BufTy).Contents (Elt F) → (⟨S2048x1, .f32⟩ : BufTy).Contents (Elt F) → (⟨S2048x1, .f32⟩ : BufTy).Contents (Elt F)),
    StableHlo.binary main_v51 main_v56 main_v57 (subf : (⟨S2048x1, .f32⟩ : BufTy).Contents (Elt F) → (⟨S2048x1, .f32⟩ : BufTy).Contents (Elt F) → (⟨S2048x1, .f32⟩ : BufTy).Contents (Elt F)),
    StableHlo.nullary main_cst_9 (constant S_ .f32 0x3F000000#32),
    StableHlo.unary main_cst_9 main_v58 (broadcastInDim S2048x1 ![] bcast_S_S2048x1 : (⟨S_, .f32⟩ : BufTy).Contents (Elt F) → (⟨S2048x1, .f32⟩ : BufTy).Contents (Elt F)),
    StableHlo.binary main_v58 main_v54 main_v59 (mulf : (⟨S2048x1, .f32⟩ : BufTy).Contents (Elt F) → (⟨S2048x1, .f32⟩ : BufTy).Contents (Elt F) → (⟨S2048x1, .f32⟩ : BufTy).Contents (Elt F)),
    StableHlo.binary main_v52 main_v59 main_v60 (subf : (⟨S2048x1, .f32⟩ : BufTy).Contents (Elt F) → (⟨S2048x1, .f32⟩ : BufTy).Contents (Elt F) → (⟨S2048x1, .f32⟩ : BufTy).Contents (Elt F)),
    StableHlo.nullary main_cst_10 (constant S_ .f32 0x3F000000#32),
    StableHlo.unary main_cst_10 main_v61 (broadcastInDim S2048x1 ![] bcast_S_S2048x1 : (⟨S_, .f32⟩ : BufTy).Contents (Elt F) → (⟨S2048x1, .f32⟩ : BufTy).Contents (Elt F)),
    StableHlo.binary main_v61 main_v53 main_v62 (mulf : (⟨S2048x1, .f32⟩ : BufTy).Contents (Elt F) → (⟨S2048x1, .f32⟩ : BufTy).Contents (Elt F) → (⟨S2048x1, .f32⟩ : BufTy).Contents (Elt F)),
    StableHlo.binary main_v51 main_v62 main_v63 (addf : (⟨S2048x1, .f32⟩ : BufTy).Contents (Elt F) → (⟨S2048x1, .f32⟩ : BufTy).Contents (Elt F) → (⟨S2048x1, .f32⟩ : BufTy).Contents (Elt F)),
    StableHlo.nullary main_cst_11 (constant S_ .f32 0x3F000000#32),
    StableHlo.unary main_cst_11 main_v64 (broadcastInDim S2048x1 ![] bcast_S_S2048x1 : (⟨S_, .f32⟩ : BufTy).Contents (Elt F) → (⟨S2048x1, .f32⟩ : BufTy).Contents (Elt F)),
    StableHlo.binary main_v64 main_v54 main_v65 (mulf : (⟨S2048x1, .f32⟩ : BufTy).Contents (Elt F) → (⟨S2048x1, .f32⟩ : BufTy).Contents (Elt F) → (⟨S2048x1, .f32⟩ : BufTy).Contents (Elt F)),
    StableHlo.binary main_v52 main_v65 main_v66 (addf : (⟨S2048x1, .f32⟩ : BufTy).Contents (Elt F) → (⟨S2048x1, .f32⟩ : BufTy).Contents (Elt F) → (⟨S2048x1, .f32⟩ : BufTy).Contents (Elt F)) ]

abbrev ops2_W : List (Ref sig .tc) := [main_v50, main_v51, main_v52, main_v53, main_v54, main_cst_8, main_v55, main_v56, main_v57, main_cst_9, main_v58, main_v59, main_v60, main_cst_10, main_v61, main_v62, main_v63, main_cst_11, main_v64, main_v65, main_v66]
theorem ops2_writes : (ops2 (F := F)).Forall fun op => op.writes ⊆ (ops2_W.map (Proc.devRef (τ := τ) .tc)).toFinset := by
  simp only [List.Forall, nary_writes, unary_writes, nullary_writes, binary_writes, Finset.singleton_subset_iff, List.mem_toFinset]
  and_intros <;> exact List.mem_map_of_mem (by decide)

theorem stage2
    (h_main_v40 : V (Proc.devRef .tc main_v40) = val_main_v40 x1)
    (h_main_v43 : V (Proc.devRef .tc main_v43) = val_main_v43 x1)
    (h_main_v46 : V (Proc.devRef .tc main_v46) = val_main_v46 x1)
    (h_main_v49 : V (Proc.devRef .tc main_v49) = val_main_v49 x1)
    (h_main_v18 : V (Proc.devRef .tc main_v18) = val_main_v18 x3)
    :
    after ops2 V (Proc.devRef .tc main_v50) = val_main_v50 x1
    ∧ after ops2 V (Proc.devRef .tc main_v57) = val_main_v57 x3
    ∧ after ops2 V (Proc.devRef .tc main_v60) = val_main_v60 x3
    ∧ after ops2 V (Proc.devRef .tc main_v63) = val_main_v63 x3
    ∧ after ops2 V (Proc.devRef .tc main_v66) = val_main_v66 x3 := by
  after_results_simp
  dsimp only [Matrix.cons_val]
  rw [h_main_v40, h_main_v43, h_main_v46, h_main_v49, h_main_v18]
  exact ⟨rfl, rfl, rfl, rfl, rfl⟩

abbrev ops3 : List (HloOp τ sig (Elt F)) :=
  [ StableHlo.nary ![main_v57, main_v60, main_v63, main_v66] main_v67 (fun u => concatenate S2048x4 1 [⟨S2048x1, u 0⟩, ⟨S2048x1, u 1⟩, ⟨S2048x1, u 2⟩, ⟨S2048x1, u 3⟩] concatenates_S2048x1_S2048x1_S2048x1_S2048x1_S2048x4_d1),
    StableHlo.unary main_v50 main_v68 ((extractStridedSlice S9600x1 ![0, 2] · slices_S9600x4_S9600x1_0_2) : (⟨S9600x4, .f32⟩ : BufTy).Contents (Elt F) → (⟨S9600x1, .f32⟩ : BufTy).Contents (Elt F)),
    StableHlo.reshape main_v68 main_v69 rfl shapeCasts_S9600x1_S9600,
    StableHlo.unary main_v50 main_v70 ((extractStridedSlice S9600x1 ![0, 0] · slices_S9600x4_S9600x1_0_0) : (⟨S9600x4, .f32⟩ : BufTy).Contents (Elt F) → (⟨S9600x1, .f32⟩ : BufTy).Contents (Elt F)),
    StableHlo.reshape main_v70 main_v71 rfl shapeCasts_S9600x1_S9600,
    StableHlo.binary main_v69 main_v71 main_v72 (subf : (⟨S9600, .f32⟩ : BufTy).Contents (Elt F) → (⟨S9600, .f32⟩ : BufTy).Contents (Elt F) → (⟨S9600, .f32⟩ : BufTy).Contents (Elt F)),
    StableHlo.unary main_v50 main_v73 ((extractStridedSlice S9600x1 ![0, 3] · slices_S9600x4_S9600x1_0_3) : (⟨S9600x4, .f32⟩ : BufTy).Contents (Elt F) → (⟨S9600x1, .f32⟩ : BufTy).Contents (Elt F)),
    StableHlo.reshape main_v73 main_v74 rfl shapeCasts_S9600x1_S9600,
    StableHlo.unary main_v50 main_v75 ((extractStridedSlice S9600x1 ![0, 1] · slices_S9600x4_S9600x1_0_1) : (⟨S9600x4, .f32⟩ : BufTy).Contents (Elt F) → (⟨S9600x1, .f32⟩ : BufTy).Contents (Elt F)),
    StableHlo.reshape main_v75 main_v76 rfl shapeCasts_S9600x1_S9600,
    StableHlo.binary main_v74 main_v76 main_v77 (subf : (⟨S9600, .f32⟩ : BufTy).Contents (Elt F) → (⟨S9600, .f32⟩ : BufTy).Contents (Elt F) → (⟨S9600, .f32⟩ : BufTy).Contents (Elt F)),
    StableHlo.binary main_v72 main_v77 main_v78 (mulf : (⟨S9600, .f32⟩ : BufTy).Contents (Elt F) → (⟨S9600, .f32⟩ : BufTy).Contents (Elt F) → (⟨S9600, .f32⟩ : BufTy).Contents (Elt F)),
    StableHlo.unary main_v67 main_v79 ((extractStridedSlice S2048x1 ![0, 2] · slices_S2048x4_S2048x1_0_2) : (⟨S2048x4, .f32⟩ : BufTy).Contents (Elt F) → (⟨S2048x1, .f32⟩ : BufTy).Contents (Elt F)),
    StableHlo.reshape main_v79 main_v80 rfl shapeCasts_S2048x1_S2048,
    StableHlo.unary main_v67 main_v81 ((extractStridedSlice S2048x1 ![0, 0] · slices_S2048x4_S2048x1_0_0) : (⟨S2048x4, .f32⟩ : BufTy).Contents (Elt F) → (⟨S2048x1, .f32⟩ : BufTy).Contents (Elt F)),
    StableHlo.reshape main_v81 main_v82 rfl shapeCasts_S2048x1_S2048,
    StableHlo.binary main_v80 main_v82 main_v83 (subf : (⟨S2048, .f32⟩ : BufTy).Contents (Elt F) → (⟨S2048, .f32⟩ : BufTy).Contents (Elt F) → (⟨S2048, .f32⟩ : BufTy).Contents (Elt F)),
    StableHlo.unary main_v67 main_v84 ((extractStridedSlice S2048x1 ![0, 3] · slices_S2048x4_S2048x1_0_3) : (⟨S2048x4, .f32⟩ : BufTy).Contents (Elt F) → (⟨S2048x1, .f32⟩ : BufTy).Contents (Elt F)),
    StableHlo.reshape main_v84 main_v85 rfl shapeCasts_S2048x1_S2048,
    StableHlo.unary main_v67 main_v86 ((extractStridedSlice S2048x1 ![0, 1] · slices_S2048x4_S2048x1_0_1) : (⟨S2048x4, .f32⟩ : BufTy).Contents (Elt F) → (⟨S2048x1, .f32⟩ : BufTy).Contents (Elt F)),
    StableHlo.reshape main_v86 main_v87 rfl shapeCasts_S2048x1_S2048,
    StableHlo.binary main_v85 main_v87 main_v88 (subf : (⟨S2048, .f32⟩ : BufTy).Contents (Elt F) → (⟨S2048, .f32⟩ : BufTy).Contents (Elt F) → (⟨S2048, .f32⟩ : BufTy).Contents (Elt F)),
    StableHlo.binary main_v83 main_v88 main_v89 (mulf : (⟨S2048, .f32⟩ : BufTy).Contents (Elt F) → (⟨S2048, .f32⟩ : BufTy).Contents (Elt F) → (⟨S2048, .f32⟩ : BufTy).Contents (Elt F)),
    StableHlo.unary main_v50 main_v90 ((extractStridedSlice S9600x2 ![0, 0] · slices_S9600x4_S9600x2_0_0) : (⟨S9600x4, .f32⟩ : BufTy).Contents (Elt F) → (⟨S9600x2, .f32⟩ : BufTy).Contents (Elt F)),
    StableHlo.unary main_v90 main_v91 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v67 main_v92 ((extractStridedSlice S2048x2 ![0, 0] · slices_S2048x4_S2048x2_0_0) : (⟨S2048x4, .f32⟩ : BufTy).Contents (Elt F) → (⟨S2048x2, .f32⟩ : BufTy).Contents (Elt F)),
    StableHlo.unary main_v92 main_v93 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v91 main_v94 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v93 main_v95 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v94 main_v95 main_v96 (maximumf : (⟨S9600x2048x2, .f32⟩ : BufTy).Contents (Elt F) → (⟨S9600x2048x2, .f32⟩ : BufTy).Contents (Elt F) → (⟨S9600x2048x2, .f32⟩ : BufTy).Contents (Elt F)) ]

abbrev ops3_W : List (Ref sig .tc) := [main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96]
theorem ops3_writes : (ops3 (F := F)).Forall fun op => op.writes ⊆ (ops3_W.map (Proc.devRef (τ := τ) .tc)).toFinset := by
  simp only [List.Forall, nary_writes, unary_writes, reshape_writes, binary_writes, Finset.singleton_subset_iff, List.mem_toFinset]
  and_intros <;> exact List.mem_map_of_mem (by decide)

theorem stage3
    (h_main_v57 : V (Proc.devRef .tc main_v57) = val_main_v57 x3)
    (h_main_v60 : V (Proc.devRef .tc main_v60) = val_main_v60 x3)
    (h_main_v63 : V (Proc.devRef .tc main_v63) = val_main_v63 x3)
    (h_main_v66 : V (Proc.devRef .tc main_v66) = val_main_v66 x3)
    (h_main_v50 : V (Proc.devRef .tc main_v50) = val_main_v50 x1)
    :
    after ops3 V (Proc.devRef .tc main_v67) = val_main_v67 x3
    ∧ after ops3 V (Proc.devRef .tc main_v78) = val_main_v78 x1
    ∧ after ops3 V (Proc.devRef .tc main_v89) = val_main_v89 x3
    ∧ after ops3 V (Proc.devRef .tc main_v96) = val_main_v96 x1 x3 := by
  after_results_simp
  dsimp only [Matrix.cons_val]
  rw [h_main_v57, h_main_v60, h_main_v63, h_main_v66, h_main_v50]
  exact ⟨rfl, rfl, rfl, rfl⟩

abbrev ops4 : List (HloOp τ sig (Elt F)) :=
  [ StableHlo.unary main_v50 main_v97 ((extractStridedSlice S9600x2 ![0, 2] · slices_S9600x4_S9600x2_0_2) : (⟨S9600x4, .f32⟩ : BufTy).Contents (Elt F) → (⟨S9600x2, .f32⟩ : BufTy).Contents (Elt F)),
    StableHlo.unary main_v97 main_v98 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v67 main_v99 ((extractStridedSlice S2048x2 ![0, 2] · slices_S2048x4_S2048x2_0_2) : (⟨S2048x4, .f32⟩ : BufTy).Contents (Elt F) → (⟨S2048x2, .f32⟩ : BufTy).Contents (Elt F)),
    StableHlo.unary main_v99 main_v100 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v98 main_v101 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v100 main_v102 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v101 main_v102 main_v103 (minimumf : (⟨S9600x2048x2, .f32⟩ : BufTy).Contents (Elt F) → (⟨S9600x2048x2, .f32⟩ : BufTy).Contents (Elt F) → (⟨S9600x2048x2, .f32⟩ : BufTy).Contents (Elt F)),
    StableHlo.binary main_v103 main_v96 main_v104 (subf : (⟨S9600x2048x2, .f32⟩ : BufTy).Contents (Elt F) → (⟨S9600x2048x2, .f32⟩ : BufTy).Contents (Elt F) → (⟨S9600x2048x2, .f32⟩ : BufTy).Contents (Elt F)),
    StableHlo.nullary main_cst_12 (constant S_ .f32 0x00000000#32) ]

abbrev ops4_W : List (Ref sig .tc) := [main_v97, main_v98, main_v99, main_v100, main_v101, main_v102, main_v103, main_v104, main_cst_12]
theorem ops4_writes : (ops4 (F := F)).Forall fun op => op.writes ⊆ (ops4_W.map (Proc.devRef (τ := τ) .tc)).toFinset := by
  simp only [List.Forall, unary_writes, binary_writes, nullary_writes, Finset.singleton_subset_iff, List.mem_toFinset]
  and_intros <;> exact List.mem_map_of_mem (by decide)

theorem stage4
    (h_main_v50 : V (Proc.devRef .tc main_v50) = val_main_v50 x1)
    (h_main_v67 : V (Proc.devRef .tc main_v67) = val_main_v67 x3)
    (h_main_v96 : V (Proc.devRef .tc main_v96) = val_main_v96 x1 x3)
    :
    after ops4 V (Proc.devRef .tc main_v104) = val_main_v104 x1 x3
    ∧ after ops4 V (Proc.devRef .tc main_cst_12) = val_main_cst_12 (F := F) := by
  after_results_simp
  rw [h_main_v50, h_main_v67, h_main_v96]
  exact ⟨rfl, rfl⟩

theorem part1_eq (d : Dev nD) : main_part1 (F := F) d = seq (ops2 ++ (ops3 ++ (ops4))) := by
  chain_rfl

end Cert.ReferenceIdeal.RunH

end
-- ==== Proof.RefRunH3.lean ====
import proofs.«408227_j14096082666122_3_alg».proof.Proof.RefRead
import Idealize.ShloMosaic.Lib.StableHlo.Run
import Idealize.ShloMosaic.Lib.Pipeline.Regions

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S6x32x300x151, .f32⟩ : BufTy).Contents (Elt F)} {x1 : (⟨S6x32x300x4, .f32⟩ : BufTy).Contents (Elt F)}
  {x2 : (⟨S32x64, .i32⟩ : BufTy).Contents (Elt F)} {x3 : (⟨S32x64x4, .f32⟩ : BufTy).Contents (Elt F)}
  {x4 : (⟨S6x32x300x151, .f32⟩ : BufTy).Contents (Elt F)} {x5 : (⟨S6x32x300x4, .f32⟩ : BufTy).Contents (Elt F)}
  {x6 : (⟨S32x64, .i32⟩ : BufTy).Contents (Elt F)} {x7 : (⟨S32x64x4, .f32⟩ : BufTy).Contents (Elt F)}
  {x8 : (⟨S6x32x300x51, .f32⟩ : BufTy).Contents (Elt F)} {x9 : (⟨S32x64, .i32⟩ : BufTy).Contents (Elt F)}
variable (V : Valuation τ sig (Elt F))

abbrev ops5 : List (HloOp τ sig (Elt F)) :=
  [ StableHlo.TRef.unary (.of main_cst_12 : TRef sig ⟨S_, .f32⟩) main_call0.v0 id,
    StableHlo.TRef.unary main_call0.v0 main_call0.v1 (broadcastInDim S9600x2048x2 ![] bcast_S_S9600x2048x2),
    StableHlo.TRef.binary main_call0.v1 (.of main_v104 : TRef sig ⟨S9600x2048x2, .f32⟩) main_call0.v2 maximumf,
    StableHlo.unary main_v105 main_v106 ((extractStridedSlice S9600x2048x1 ![0, 0, 0] · slices_S9600x2048x2_S9600x2048x1_0_0_0) : (⟨S9600x2048x2, .f32⟩ : BufTy).Contents (Elt F) → (⟨S9600x2048x1, .f32⟩ : BufTy).Contents (Elt F)),
    StableHlo.reshape main_v106 main_v107 rfl shapeCasts_S9600x2048x1_S9600x2048,
    StableHlo.unary main_v105 main_v108 ((extractStridedSlice S9600x2048x1 ![0, 0, 1] · slices_S9600x2048x2_S9600x2048x1_0_0_1) : (⟨S9600x2048x2, .f32⟩ : BufTy).Contents (Elt F) → (⟨S9600x2048x1, .f32⟩ : BufTy).Contents (Elt F)),
    StableHlo.reshape main_v108 main_v109 rfl shapeCasts_S9600x2048x1_S9600x2048,
    StableHlo.binary main_v107 main_v109 main_v110 (mulf : (⟨S9600x2048, .f32⟩ : BufTy).Contents (Elt F) → (⟨S9600x2048, .f32⟩ : BufTy).Contents (Elt F) → (⟨S9600x2048, .f32⟩ : BufTy).Contents (Elt F)),
    StableHlo.unary main_v78 main_v111 (broadcastInDim S9600x1 ![0] bcast_S9600_S9600x1_0 : (⟨S9600, .f32⟩ : BufTy).Contents (Elt F) → (⟨S9600x1, .f32⟩ : BufTy).Contents (Elt F)),
    StableHlo.unary main_v89 main_v112 (broadcastInDim S1x2048 ![1] bcast_S2048_S1x2048_1 : (⟨S2048, .f32⟩ : BufTy).Contents (Elt F) → (⟨S1x2048, .f32⟩ : BufTy).Contents (Elt F)),
    StableHlo.unary main_v111 main_v113 (broadcastInDim S9600x2048 ![0, 1] bcast_S9600x1_S9600x2048_0_1 : (⟨S9600x1, .f32⟩ : BufTy).Contents (Elt F) → (⟨S9600x2048, .f32⟩ : BufTy).Contents (Elt F)),
    StableHlo.unary main_v112 main_v114 (broadcastInDim S9600x2048 ![0, 1] bcast_S1x2048_S9600x2048_0_1 : (⟨S1x2048, .f32⟩ : BufTy).Contents (Elt F) → (⟨S9600x2048, .f32⟩ : BufTy).Contents (Elt F)),
    StableHlo.binary main_v113 main_v114 main_v115 (addf : (⟨S9600x2048, .f32⟩ : BufTy).Contents (Elt F) → (⟨S9600x2048, .f32⟩ : BufTy).Contents (Elt F) → (⟨S9600x2048, .f32⟩ : BufTy).Contents (Elt F)),
    StableHlo.binary main_v115 main_v110 main_v116 (subf : (⟨S9600x2048, .f32⟩ : BufTy).Contents (Elt F) → (⟨S9600x2048, .f32⟩ : BufTy).Contents (Elt F) → (⟨S9600x2048, .f32⟩ : BufTy).Contents (Elt F)),
    StableHlo.binary main_v110 main_v116 main_v117 (Host.divf : (⟨S9600x2048, .f32⟩ : BufTy).Contents (Elt F) → (⟨S9600x2048, .f32⟩ : BufTy).Contents (Elt F) → (⟨S9600x2048, .f32⟩ : BufTy).Contents (Elt F)),
    StableHlo.unary main_v50 main_v118 ((extractStridedSlice S9600x2 ![0, 0] · slices_S9600x4_S9600x2_0_0) : (⟨S9600x4, .f32⟩ : BufTy).Contents (Elt F) → (⟨S9600x2, .f32⟩ : BufTy).Contents (Elt F)),
    StableHlo.unary main_v118 main_v119 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v67 main_v120 ((extractStridedSlice S2048x2 ![0, 0] · slices_S2048x4_S2048x2_0_0) : (⟨S2048x4, .f32⟩ : BufTy).Contents (Elt F) → (⟨S2048x2, .f32⟩ : BufTy).Contents (Elt F)),
    StableHlo.unary main_v120 main_v121 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v119 main_v122 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v121 main_v123 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v122 main_v123 main_v124 (minimumf : (⟨S9600x2048x2, .f32⟩ : BufTy).Contents (Elt F) → (⟨S9600x2048x2, .f32⟩ : BufTy).Contents (Elt F) → (⟨S9600x2048x2, .f32⟩ : BufTy).Contents (Elt F)),
    StableHlo.unary main_v50 main_v125 ((extractStridedSlice S9600x2 ![0, 2] · slices_S9600x4_S9600x2_0_2) : (⟨S9600x4, .f32⟩ : BufTy).Contents (Elt F) → (⟨S9600x2, .f32⟩ : BufTy).Contents (Elt F)),
    StableHlo.unary main_v125 main_v126 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v67 main_v127 ((extractStridedSlice S2048x2 ![0, 2] · slices_S2048x4_S2048x2_0_2) : (⟨S2048x4, .f32⟩ : BufTy).Contents (Elt F) → (⟨S2048x2, .f32⟩ : BufTy).Contents (Elt F)),
    StableHlo.unary main_v127 main_v128 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v126 main_v129 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v128 main_v130 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v129 main_v130 main_v131 (maximumf : (⟨S9600x2048x2, .f32⟩ : BufTy).Contents (Elt F) → (⟨S9600x2048x2, .f32⟩ : BufTy).Contents (Elt F) → (⟨S9600x2048x2, .f32⟩ : BufTy).Contents (Elt F)),
    StableHlo.binary main_v131 main_v124 main_v132 (subf : (⟨S9600x2048x2, .f32⟩ : BufTy).Contents (Elt F) → (⟨S9600x2048x2, .f32⟩ : BufTy).Contents (Elt F) → (⟨S9600x2048x2, .f32⟩ : BufTy).Contents (Elt F)) ]

abbrev ops5_W : List (Ref sig .tc) := [main_call0_v0, main_call0_v1, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132]
theorem ops5_writes : (ops5 (F := F)).Forall fun op => op.writes ⊆ (ops5_W.map (Proc.devRef (τ := τ) .tc)).toFinset := by
  simp only [List.Forall, unary_writes, reshape_writes, binary_writes, Finset.singleton_subset_iff, List.mem_toFinset]
  and_intros <;> exact List.mem_map_of_mem (by decide)

theorem stage5
    (h_main_v78 : V (Proc.devRef .tc main_v78) = val_main_v78 x1)
    (h_main_v89 : V (Proc.devRef .tc main_v89) = val_main_v89 x3)
    (h_main_cst_12 : V (Proc.devRef .tc main_cst_12) = val_main_cst_12 (F := F))
    (h_main_v104 : V (Proc.devRef .tc main_v104) = val_main_v104 x1 x3)
    (h_main_v50 : V (Proc.devRef .tc main_v50) = val_main_v50 x1)
    (h_main_v67 : V (Proc.devRef .tc main_v67) = val_main_v67 x3)
    :
    after ops5 V (Proc.devRef .tc main_v116) = val_main_v116 x1 x3
    ∧ after ops5 V (Proc.devRef .tc main_v117) = val_main_v117 x1 x3
    ∧ after ops5 V (Proc.devRef .tc main_v132) = val_main_v132 x1 x3 := by
  after_results_simp
  rw [h_main_v78, h_main_v89, h_main_cst_12, h_main_v104, h_main_v50, h_main_v67]
  exact ⟨rfl, rfl, rfl⟩

abbrev ops6 : List (HloOp τ sig (Elt F)) :=
  [ StableHlo.nullary main_cst_13 (constant S_ .f32 0x00000000#32),
    StableHlo.TRef.unary (.of main_cst_13 : TRef sig ⟨S_, .f32⟩) main_call1.v0 id,
    StableHlo.TRef.unary main_call1.v0 main_call1.v1 (broadcastInDim S9600x2048x2 ![] bcast_S_S9600x2048x2),
    StableHlo.TRef.binary main_call1.v1 (.of main_v132 : TRef sig ⟨S9600x2048x2, .f32⟩) main_call1.v2 maximumf,
    StableHlo.unary main_v133 main_v134 ((extractStridedSlice S9600x2048x1 ![0, 0, 0] · slices_S9600x2048x2_S9600x2048x1_0_0_0) : (⟨S9600x2048x2, .f32⟩ : BufTy).Contents (Elt F) → (⟨S9600x2048x1, .f32⟩ : BufTy).Contents (Elt F)),
    StableHlo.reshape main_v134 main_v135 rfl shapeCasts_S9600x2048x1_S9600x2048,
    StableHlo.unary main_v133 main_v136 ((extractStridedSlice S9600x2048x1 ![0, 0, 1] · slices_S9600x2048x2_S9600x2048x1_0_0_1) : (⟨S9600x2048x2, .f32⟩ : BufTy).Contents (Elt F) → (⟨S9600x2048x1, .f32⟩ : BufTy).Contents (Elt F)),
    StableHlo.reshape main_v136 main_v137 rfl shapeCasts_S9600x2048x1_S9600x2048,
    StableHlo.binary main_v135 main_v137 main_v138 (mulf : (⟨S9600x2048, .f32⟩ : BufTy).Contents (Elt F) → (⟨S9600x2048, .f32⟩ : BufTy).Contents (Elt F) → (⟨S9600x2048, .f32⟩ : BufTy).Contents (Elt F)),
    StableHlo.binary main_v138 main_v116 main_v139 (subf : (⟨S9600x2048, .f32⟩ : BufTy).Contents (Elt F) → (⟨S9600x2048, .f32⟩ : BufTy).Contents (Elt F) → (⟨S9600x2048, .f32⟩ : BufTy).Contents (Elt F)),
    StableHlo.binary main_v139 main_v138 main_v140 (Host.divf : (⟨S9600x2048, .f32⟩ : BufTy).Contents (Elt F) → (⟨S9600x2048, .f32⟩ : BufTy).Contents (Elt F) → (⟨S9600x2048, .f32⟩ : BufTy).Contents (Elt F)),
    StableHlo.binary main_v117 main_v140 main_v141 (subf : (⟨S9600x2048, .f32⟩ : BufTy).Contents (Elt F) → (⟨S9600x2048, .f32⟩ : BufTy).Contents (Elt F) → (⟨S9600x2048, .f32⟩ : BufTy).Contents (Elt F)),
    StableHlo.unary main_v141 main_v142 (Host.negf : (⟨S9600x2048, .f32⟩ : BufTy).Contents (Elt F) → (⟨S9600x2048, .f32⟩ : BufTy).Contents (Elt F)),
    StableHlo.nullary main_cst_14 (constant S_ .f32 0x3F800000#32),
    StableHlo.unary main_cst_14 main_v143 (broadcastInDim S9600x2048 ![] bcast_S_S9600x2048 : (⟨S_, .f32⟩ : BufTy).Contents (Elt F) → (⟨S9600x2048, .f32⟩ : BufTy).Contents (Elt F)),
    StableHlo.binary main_v143 main_v26 main_v144 (mulf : (⟨S9600x2048, .f32⟩ : BufTy).Contents (Elt F) → (⟨S9600x2048, .f32⟩ : BufTy).Contents (Elt F) → (⟨S9600x2048, .f32⟩ : BufTy).Contents (Elt F)),
    StableHlo.nullary main_cst_15 (constant S_ .f32 0x3F800000#32),
    StableHlo.unary main_cst_15 main_v145 (broadcastInDim S9600x2048 ![] bcast_S_S9600x2048 : (⟨S_, .f32⟩ : BufTy).Contents (Elt F) → (⟨S9600x2048, .f32⟩ : BufTy).Contents (Elt F)),
    StableHlo.binary main_v145 main_v33 main_v146 (mulf : (⟨S9600x2048, .f32⟩ : BufTy).Contents (Elt F) → (⟨S9600x2048, .f32⟩ : BufTy).Contents (Elt F) → (⟨S9600x2048, .f32⟩ : BufTy).Contents (Elt F)),
    StableHlo.binary main_v144 main_v146 main_v147 (addf : (⟨S9600x2048, .f32⟩ : BufTy).Contents (Elt F) → (⟨S9600x2048, .f32⟩ : BufTy).Contents (Elt F) → (⟨S9600x2048, .f32⟩ : BufTy).Contents (Elt F)),
    StableHlo.nullary main_cst_16 (constant S_ .f32 0x3F800000#32),
    StableHlo.unary main_cst_16 main_v148 (broadcastInDim S9600x2048 ![] bcast_S_S9600x2048 : (⟨S_, .f32⟩ : BufTy).Contents (Elt F) → (⟨S9600x2048, .f32⟩ : BufTy).Contents (Elt F)),
    StableHlo.binary main_v148 main_v142 main_v149 (mulf : (⟨S9600x2048, .f32⟩ : BufTy).Contents (Elt F) → (⟨S9600x2048, .f32⟩ : BufTy).Contents (Elt F) → (⟨S9600x2048, .f32⟩ : BufTy).Contents (Elt F)),
    StableHlo.binary main_v147 main_v149 main_v150 (addf : (⟨S9600x2048, .f32⟩ : BufTy).Contents (Elt F) → (⟨S9600x2048, .f32⟩ : BufTy).Contents (Elt F) → (⟨S9600x2048, .f32⟩ : BufTy).Contents (Elt F)),
    StableHlo.unary main_arg4 main_v151 ((extractStridedSlice S1x32x300x151 ![5, 0, 0, 0] · slices_S6x32x300x151_S1x32x300x151_5_0_0_0) : (⟨S6x32x300x151, .f32⟩ : BufTy).Contents (Elt F) → (⟨S1x32x300x151, .f32⟩ : BufTy).Contents (Elt F)),
    StableHlo.reshape main_v151 main_v152 rfl shapeCasts_S1x32x300x151_S32x300x151,
    StableHlo.reshape main_v152 main_v153 rfl shapeCasts_S32x300x151_S9600x151,
    StableHlo.nullary main_cst_17 (constant S_ .f32 0xFF800000#32),
    StableHlo.binary main_v153 main_cst_17 main_v154 ((fun x v => Host.reduce FloatOps.maximumf x v reducesTo_S9600x151_S9600_d1 h_S_) : (⟨S9600x151, .f32⟩ : BufTy).Contents (Elt F) → (⟨S_, .f32⟩ : BufTy).Contents (Elt F) → (⟨S9600, .f32⟩ : BufTy).Contents (Elt F)),
    StableHlo.nullary main_cst_18 (constant S_ .f32 0xFF800000#32) ]

abbrev ops6_W : List (Ref sig .tc) := [main_cst_13, main_call1_v0, main_call1_v1, main_v133, main_v134, main_v135, main_v136, main_v137, main_v138, main_v139, main_v140, main_v141, main_v142, main_cst_14, main_v143, main_v144, main_cst_15, main_v145, main_v146, main_v147, main_cst_16, main_v148, main_v149, main_v150, main_v151, main_v152, main_v153, main_cst_17, main_v154, main_cst_18]
theorem ops6_writes : (ops6 (F := F)).Forall fun op => op.writes ⊆ (ops6_W.map (Proc.devRef (τ := τ) .tc)).toFinset := by
  simp only [List.Forall, nullary_writes, unary_writes, reshape_writes, binary_writes, Finset.singleton_subset_iff, List.mem_toFinset]
  and_intros <;> exact List.mem_map_of_mem (by decide)

theorem stage6
    (h_main_v26 : V (Proc.devRef .tc main_v26) = val_main_v26 x0 x2)
    (h_main_v33 : V (Proc.devRef .tc main_v33) = val_main_v33 x1 x3)
    (h_main_v117 : V (Proc.devRef .tc main_v117) = val_main_v117 x1 x3)
    (h_main_v132 : V (Proc.devRef .tc main_v132) = val_main_v132 x1 x3)
    (h_main_v116 : V (Proc.devRef .tc main_v116) = val_main_v116 x1 x3)
    (a4 : V (Proc.devRef .tc main_arg4) = x4)
    :
    after ops6 V (Proc.devRef .tc main_v150) = val_main_v150 x0 x1 x2 x3
    ∧ after ops6 V (Proc.devRef .tc main_v153) = val_main_v153 x4
    ∧ after ops6 V (Proc.devRef .tc main_v154) = val_main_v154 x4
    ∧ after ops6 V (Proc.devRef .tc main_cst_18) = val_main_cst_18 (F := F) := by
  after_results_simp
  rw [h_main_v26, h_main_v33, h_main_v117, h_main_v132, h_main_v116, a4]
  exact ⟨rfl, rfl, rfl, rfl⟩

abbrev ops7 : List (HloOp τ sig (Elt F)) :=
  [ StableHlo.unary main_cst_18 main_v155 (broadcastInDim S9600 ![] bcast_S_S9600 : (⟨S_, .f32⟩ : BufTy).Contents (Elt F) → (⟨S9600, .f32⟩ : BufTy).Contents (Elt F)),
    StableHlo.binary main_v155 main_v154 main_v156 (maximumf : (⟨S9600, .f32⟩ : BufTy).Contents (Elt F) → (⟨S9600, .f32⟩ : BufTy).Contents (Elt F) → (⟨S9600, .f32⟩ : BufTy).Contents (Elt F)),
    StableHlo.unary main_v156 main_v157 (broadcastInDim S9600x1 ![0] bcast_S9600_S9600x1_0 : (⟨S9600, .f32⟩ : BufTy).Contents (Elt F) → (⟨S9600x1, .f32⟩ : BufTy).Contents (Elt F)),
    StableHlo.unary main_v157 main_v158 (broadcastInDim S9600x151 ![0, 1] bcast_S9600x1_S9600x151_0_1 : (⟨S9600x1, .f32⟩ : BufTy).Contents (Elt F) → (⟨S9600x151, .f32⟩ : BufTy).Contents (Elt F)) ]

abbrev ops7_W : List (Ref sig .tc) := [main_v155, main_v156, main_v157, main_v158]
theorem ops7_writes : (ops7 (F := F)).Forall fun op => op.writes ⊆ (ops7_W.map (Proc.devRef (τ := τ) .tc)).toFinset := by
  simp only [List.Forall, unary_writes, binary_writes, Finset.singleton_subset_iff, List.mem_toFinset]
  and_intros <;> exact List.mem_map_of_mem (by decide)

theorem stage7
    (h_main_cst_18 : V (Proc.devRef .tc main_cst_18) = val_main_cst_18 (F := F))
    (h_main_v154 : V (Proc.devRef .tc main_v154) = val_main_v154 x4)
    :
    after ops7 V (Proc.devRef .tc main_v158) = val_main_v158 x4 := by
  after_results_simp
  rw [h_main_cst_18, h_main_v154]
  rfl

theorem part2_eq (d : Dev nD) : main_part2 (F := F) d = seq (ops5 ++ (ops6 ++ (ops7))) := by
  chain_rfl

end Cert.ReferenceIdeal.RunH

end
-- ==== Proof.RefRunH4.lean ====
import proofs.«408227_j14096082666122_3_alg».proof.Proof.RefRead
import Idealize.ShloMosaic.Lib.StableHlo.Run
import Idealize.ShloMosaic.Lib.Pipeline.Regions

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S6x32x300x151, .f32⟩ : BufTy).Contents (Elt F)} {x1 : (⟨S6x32x300x4, .f32⟩ : BufTy).Contents (Elt F)}
  {x2 : (⟨S32x64, .i32⟩ : BufTy).Contents (Elt F)} {x3 : (⟨S32x64x4, .f32⟩ : BufTy).Contents (Elt F)}
  {x4 : (⟨S6x32x300x151, .f32⟩ : BufTy).Contents (Elt F)} {x5 : (⟨S6x32x300x4, .f32⟩ : BufTy).Contents (Elt F)}
  {x6 : (⟨S32x64, .i32⟩ : BufTy).Contents (Elt F)} {x7 : (⟨S32x64x4, .f32⟩ : BufTy).Contents (Elt F)}
  {x8 : (⟨S6x32x300x51, .f32⟩ : BufTy).Contents (Elt F)} {x9 : (⟨S32x64, .i32⟩ : BufTy).Contents (Elt F)}
variable (V : Valuation τ sig (Elt F))

abbrev ops8 : List (HloOp τ sig (Elt F)) :=
  [ StableHlo.binary main_v153 main_v158 main_v159 (subf : (⟨S9600x151, .f32⟩ : BufTy).Contents (Elt F) → (⟨S9600x151, .f32⟩ : BufTy).Contents (Elt F) → (⟨S9600x151, .f32⟩ : BufTy).Contents (Elt F)),
    StableHlo.unary main_v159 main_v160 (Host.exp : (⟨S9600x151, .f32⟩ : BufTy).Contents (Elt F) → (⟨S9600x151, .f32⟩ : BufTy).Contents (Elt F)),
    StableHlo.nullary main_cst_19 (constant S_ .f32 0x00000000#32),
    StableHlo.binary main_v160 main_cst_19 main_v161 ((fun x v => Host.reduceAdd x v reducesTo_S9600x151_S9600_d1 h_S_) : (⟨S9600x151, .f32⟩ : BufTy).Contents (Elt F) → (⟨S_, .f32⟩ : BufTy).Contents (Elt F) → (⟨S9600, .f32⟩ : BufTy).Contents (Elt F)),
    StableHlo.unary main_v161 main_v162 (broadcastInDim S9600x1 ![0] bcast_S9600_S9600x1_0 : (⟨S9600, .f32⟩ : BufTy).Contents (Elt F) → (⟨S9600x1, .f32⟩ : BufTy).Contents (Elt F)),
    StableHlo.unary main_v162 main_v163 (broadcastInDim S9600x151 ![0, 1] bcast_S9600x1_S9600x151_0_1 : (⟨S9600x1, .f32⟩ : BufTy).Contents (Elt F) → (⟨S9600x151, .f32⟩ : BufTy).Contents (Elt F)),
    StableHlo.binary main_v160 main_v163 main_v164 (Host.divf : (⟨S9600x151, .f32⟩ : BufTy).Contents (Elt F) → (⟨S9600x151, .f32⟩ : BufTy).Contents (Elt F) → (⟨S9600x151, .f32⟩ : BufTy).Contents (Elt F)),
    StableHlo.unary main_arg5 main_v165 ((extractStridedSlice S1x32x300x4 ![5, 0, 0, 0] · slices_S6x32x300x4_S1x32x300x4_5_0_0_0) : (⟨S6x32x300x4, .f32⟩ : BufTy).Contents (Elt F) → (⟨S1x32x300x4, .f32⟩ : BufTy).Contents (Elt F)),
    StableHlo.reshape main_v165 main_v166 rfl shapeCasts_S1x32x300x4_S32x300x4,
    StableHlo.reshape main_v166 main_v167 rfl shapeCasts_S32x300x4_S9600x4,
    StableHlo.reshape main_arg6 main_v168 rfl shapeCasts_S32x64_S2048,
    StableHlo.reshape main_arg7 main_v169 rfl shapeCasts_S32x64x4_S2048x4,
    StableHlo.nullary main_c_20 (constantI S_ 32 0#32),
    StableHlo.unary main_c_20 main_v170 (broadcastInDim S2048 ![] bcast_S_S2048 : (⟨S_, .i32⟩ : BufTy).Contents (Elt F) → (⟨S2048, .i32⟩ : BufTy).Contents (Elt F)),
    StableHlo.binary main_v168 main_v170 main_v171 (cmpi .slt : (⟨S2048, .i32⟩ : BufTy).Contents (Elt F) → (⟨S2048, .i32⟩ : BufTy).Contents (Elt F) → (⟨S2048, .i1⟩ : BufTy).Contents (Elt F)),
    StableHlo.nullary main_c_21 (constantI S_ 32 151#32),
    StableHlo.unary main_c_21 main_v172 (broadcastInDim S2048 ![] bcast_S_S2048 : (⟨S_, .i32⟩ : BufTy).Contents (Elt F) → (⟨S2048, .i32⟩ : BufTy).Contents (Elt F)),
    StableHlo.binary main_v168 main_v172 main_v173 (addi : (⟨S2048, .i32⟩ : BufTy).Contents (Elt F) → (⟨S2048, .i32⟩ : BufTy).Contents (Elt F) → (⟨S2048, .i32⟩ : BufTy).Contents (Elt F)),
    StableHlo.ternary main_v171 main_v173 main_v168 main_v174 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v174 main_v175 (broadcastInDim S2048x1 ![0] bcast_S2048_S2048x1_0 : (⟨S2048, .i32⟩ : BufTy).Contents (Elt F) → (⟨S2048x1, .i32⟩ : BufTy).Contents (Elt F)),
    StableHlo.binary main_v164 main_v175 main_v176 ((fun x i => Host.gather gather_S9600x151_S2048x1_S9600x2048_0_1_n_n_1_1_96001 x i) : (⟨S9600x151, .f32⟩ : BufTy).Contents (Elt F) → (⟨S2048x1, .i32⟩ : BufTy).Contents (Elt F) → (⟨S9600x2048, .f32⟩ : BufTy).Contents (Elt F)),
    StableHlo.unary main_v176 main_v177 (Host.negf : (⟨S9600x2048, .f32⟩ : BufTy).Contents (Elt F) → (⟨S9600x2048, .f32⟩ : BufTy).Contents (Elt F)),
    StableHlo.unary main_v167 main_v178 (broadcastInDim S9600x1x4 ![0, 2] bcast_S9600x4_S9600x1x4_0_2 : (⟨S9600x4, .f32⟩ : BufTy).Contents (Elt F) → (⟨S9600x1x4, .f32⟩ : BufTy).Contents (Elt F)),
    StableHlo.unary main_v169 main_v179 (broadcastInDim S1x2048x4 ![1, 2] bcast_S2048x4_S1x2048x4_1_2 : (⟨S2048x4, .f32⟩ : BufTy).Contents (Elt F) → (⟨S1x2048x4, .f32⟩ : BufTy).Contents (Elt F)),
    StableHlo.unary main_v178 main_v180 (broadcastInDim S9600x2048x4 ![0, 1, 2] bcast_S9600x1x4_S9600x2048x4_0_1_2 : (⟨S9600x1x4, .f32⟩ : BufTy).Contents (Elt F) → (⟨S9600x2048x4, .f32⟩ : BufTy).Contents (Elt F)),
    StableHlo.unary main_v179 main_v181 (broadcastInDim S9600x2048x4 ![0, 1, 2] bcast_S1x2048x4_S9600x2048x4_0_1_2 : (⟨S1x2048x4, .f32⟩ : BufTy).Contents (Elt F) → (⟨S9600x2048x4, .f32⟩ : BufTy).Contents (Elt F)),
    StableHlo.binary main_v180 main_v181 main_v182 (subf : (⟨S9600x2048x4, .f32⟩ : BufTy).Contents (Elt F) → (⟨S9600x2048x4, .f32⟩ : BufTy).Contents (Elt F) → (⟨S9600x2048x4, .f32⟩ : BufTy).Contents (Elt F)),
    StableHlo.binary main_v182 main_v182 main_v183 (mulf : (⟨S9600x2048x4, .f32⟩ : BufTy).Contents (Elt F) → (⟨S9600x2048x4, .f32⟩ : BufTy).Contents (Elt F) → (⟨S9600x2048x4, .f32⟩ : BufTy).Contents (Elt F)),
    StableHlo.nullary main_cst_22 (constant S_ .f32 0x00000000#32),
    StableHlo.binary main_v183 main_cst_22 main_v184 ((fun x v => Host.reduceAdd x v reducesTo_S9600x2048x4_S9600x2048_d2 h_S_) : (⟨S9600x2048x4, .f32⟩ : BufTy).Contents (Elt F) → (⟨S_, .f32⟩ : BufTy).Contents (Elt F) → (⟨S9600x2048, .f32⟩ : BufTy).Contents (Elt F)) ]

abbrev ops8_W : List (Ref sig .tc) := [main_v159, main_v160, main_cst_19, main_v161, main_v162, main_v163, main_v164, main_v165, main_v166, main_v167, main_v168, main_v169, main_c_20, main_v170, main_v171, main_c_21, main_v172, main_v173, main_v174, main_v175, main_v176, main_v177, main_v178, main_v179, main_v180, main_v181, main_v182, main_v183, main_cst_22, main_v184]
theorem ops8_writes : (ops8 (F := F)).Forall fun op => op.writes ⊆ (ops8_W.map (Proc.devRef (τ := τ) .tc)).toFinset := by
  simp only [List.Forall, binary_writes, unary_writes, nullary_writes, reshape_writes, ternary_writes, Finset.singleton_subset_iff, List.mem_toFinset]
  and_intros <;> exact List.mem_map_of_mem (by decide)

theorem stage8
    (a5 : V (Proc.devRef .tc main_arg5) = x5)
    (a7 : V (Proc.devRef .tc main_arg7) = x7)
    (h_main_v153 : V (Proc.devRef .tc main_v153) = val_main_v153 x4)
    (h_main_v158 : V (Proc.devRef .tc main_v158) = val_main_v158 x4)
    (a6 : V (Proc.devRef .tc main_arg6) = x6)
    :
    after ops8 V (Proc.devRef .tc main_v167) = val_main_v167 x5
    ∧ after ops8 V (Proc.devRef .tc main_v169) = val_main_v169 x7
    ∧ after ops8 V (Proc.devRef .tc main_v177) = val_main_v177 x4 x6
    ∧ after ops8 V (Proc.devRef .tc main_v184) = val_main_v184 x5 x7 := by
  after_results_simp
  rw [a5, a7, h_main_v153, h_main_v158, a6]
  exact ⟨rfl, rfl, rfl, rfl⟩

abbrev ops9 : List (HloOp τ sig (Elt F)) :=
  [ StableHlo.nullary main_cst_23 (constant S_ .f32 0x0DA24260#32),
    StableHlo.TRef.unary (.of main_cst_23 : TRef sig ⟨S_, .f32⟩) main_call2.v0 id,
    StableHlo.TRef.unary main_call2.v0 main_call2.v1 (broadcastInDim S9600x2048 ![] bcast_S_S9600x2048),
    StableHlo.TRef.binary main_call2.v1 (.of main_v184 : TRef sig ⟨S9600x2048, .f32⟩) main_call2.v2 maximumf,
    StableHlo.unary main_v185 main_v186 (Host.sqrt : (⟨S9600x2048, .f32⟩ : BufTy).Contents (Elt F) → (⟨S9600x2048, .f32⟩ : BufTy).Contents (Elt F)),
    StableHlo.unary main_v167 main_v187 ((extractStridedSlice S9600x1 ![0, 0] · slices_S9600x4_S9600x1_0_0) : (⟨S9600x4, .f32⟩ : BufTy).Contents (Elt F) → (⟨S9600x1, .f32⟩ : BufTy).Contents (Elt F)),
    StableHlo.unary main_v167 main_v188 ((extractStridedSlice S9600x1 ![0, 1] · slices_S9600x4_S9600x1_0_1) : (⟨S9600x4, .f32⟩ : BufTy).Contents (Elt F) → (⟨S9600x1, .f32⟩ : BufTy).Contents (Elt F)),
    StableHlo.unary main_v167 main_v189 ((extractStridedSlice S9600x1 ![0, 2] · slices_S9600x4_S9600x1_0_2) : (⟨S9600x4, .f32⟩ : BufTy).Contents (Elt F) → (⟨S9600x1, .f32⟩ : BufTy).Contents (Elt F)),
    StableHlo.unary main_v167 main_v190 ((extractStridedSlice S9600x1 ![0, 3] · slices_S9600x4_S9600x1_0_3) : (⟨S9600x4, .f32⟩ : BufTy).Contents (Elt F) → (⟨S9600x1, .f32⟩ : BufTy).Contents (Elt F)),
    StableHlo.nullary main_cst_24 (constant S_ .f32 0x3F000000#32),
    StableHlo.unary main_cst_24 main_v191 (broadcastInDim S9600x1 ![] bcast_S_S9600x1 : (⟨S_, .f32⟩ : BufTy).Contents (Elt F) → (⟨S9600x1, .f32⟩ : BufTy).Contents (Elt F)),
    StableHlo.binary main_v191 main_v189 main_v192 (mulf : (⟨S9600x1, .f32⟩ : BufTy).Contents (Elt F) → (⟨S9600x1, .f32⟩ : BufTy).Contents (Elt F) → (⟨S9600x1, .f32⟩ : BufTy).Contents (Elt F)),
    StableHlo.binary main_v187 main_v192 main_v193 (subf : (⟨S9600x1, .f32⟩ : BufTy).Contents (Elt F) → (⟨S9600x1, .f32⟩ : BufTy).Contents (Elt F) → (⟨S9600x1, .f32⟩ : BufTy).Contents (Elt F)),
    StableHlo.nullary main_cst_25 (constant S_ .f32 0x3F000000#32),
    StableHlo.unary main_cst_25 main_v194 (broadcastInDim S9600x1 ![] bcast_S_S9600x1 : (⟨S_, .f32⟩ : BufTy).Contents (Elt F) → (⟨S9600x1, .f32⟩ : BufTy).Contents (Elt F)),
    StableHlo.binary main_v194 main_v190 main_v195 (mulf : (⟨S9600x1, .f32⟩ : BufTy).Contents (Elt F) → (⟨S9600x1, .f32⟩ : BufTy).Contents (Elt F) → (⟨S9600x1, .f32⟩ : BufTy).Contents (Elt F)),
    StableHlo.binary main_v188 main_v195 main_v196 (subf : (⟨S9600x1, .f32⟩ : BufTy).Contents (Elt F) → (⟨S9600x1, .f32⟩ : BufTy).Contents (Elt F) → (⟨S9600x1, .f32⟩ : BufTy).Contents (Elt F)),
    StableHlo.nullary main_cst_26 (constant S_ .f32 0x3F000000#32),
    StableHlo.unary main_cst_26 main_v197 (broadcastInDim S9600x1 ![] bcast_S_S9600x1 : (⟨S_, .f32⟩ : BufTy).Contents (Elt F) → (⟨S9600x1, .f32⟩ : BufTy).Contents (Elt F)),
    StableHlo.binary main_v197 main_v189 main_v198 (mulf : (⟨S9600x1, .f32⟩ : BufTy).Contents (Elt F) → (⟨S9600x1, .f32⟩ : BufTy).Contents (Elt F) → (⟨S9600x1, .f32⟩ : BufTy).Contents (Elt F)),
    StableHlo.binary main_v187 main_v198 main_v199 (addf : (⟨S9600x1, .f32⟩ : BufTy).Contents (Elt F) → (⟨S9600x1, .f32⟩ : BufTy).Contents (Elt F) → (⟨S9600x1, .f32⟩ : BufTy).Contents (Elt F)),
    StableHlo.nullary main_cst_27 (constant S_ .f32 0x3F000000#32),
    StableHlo.unary main_cst_27 main_v200 (broadcastInDim S9600x1 ![] bcast_S_S9600x1 : (⟨S_, .f32⟩ : BufTy).Contents (Elt F) → (⟨S9600x1, .f32⟩ : BufTy).Contents (Elt F)),
    StableHlo.binary main_v200 main_v190 main_v201 (mulf : (⟨S9600x1, .f32⟩ : BufTy).Contents (Elt F) → (⟨S9600x1, .f32⟩ : BufTy).Contents (Elt F) → (⟨S9600x1, .f32⟩ : BufTy).Contents (Elt F)),
    StableHlo.binary main_v188 main_v201 main_v202 (addf : (⟨S9600x1, .f32⟩ : BufTy).Contents (Elt F) → (⟨S9600x1, .f32⟩ : BufTy).Contents (Elt F) → (⟨S9600x1, .f32⟩ : BufTy).Contents (Elt F)) ]

abbrev ops9_W : List (Ref sig .tc) := [main_cst_23, main_call2_v0, main_call2_v1, main_v185, main_v186, main_v187, main_v188, main_v189, main_v190, main_cst_24, main_v191, main_v192, main_v193, main_cst_25, main_v194, main_v195, main_v196, main_cst_26, main_v197, main_v198, main_v199, main_cst_27, main_v200, main_v201, main_v202]
theorem ops9_writes : (ops9 (F := F)).Forall fun op => op.writes ⊆ (ops9_W.map (Proc.devRef (τ := τ) .tc)).toFinset := by
  simp only [List.Forall, nullary_writes, unary_writes, binary_writes, Finset.singleton_subset_iff, List.mem_toFinset]
  and_intros <;> exact List.mem_map_of_mem (by decide)

theorem stage9
    (h_main_v184 : V (Proc.devRef .tc main_v184) = val_main_v184 x5 x7)
    (h_main_v167 : V (Proc.devRef .tc main_v167) = val_main_v167 x5)
    :
    after ops9 V (Proc.devRef .tc main_v186) = val_main_v186 x5 x7
    ∧ after ops9 V (Proc.devRef .tc main_v193) = val_main_v193 x5
    ∧ after ops9 V (Proc.devRef .tc main_v196) = val_main_v196 x5
    ∧ after ops9 V (Proc.devRef .tc main_v199) = val_main_v199 x5
    ∧ after ops9 V (Proc.devRef .tc main_v202) = val_main_v202 x5 := by
  after_results_simp
  rw [h_main_v184, h_main_v167]
  exact ⟨rfl, rfl, rfl, rfl, rfl⟩

abbrev ops10 : List (HloOp τ sig (Elt F)) :=
  [ StableHlo.nary ![main_v193, main_v196, main_v199, main_v202] main_v203 (fun u => concatenate S9600x4 1 [⟨S9600x1, u 0⟩, ⟨S9600x1, u 1⟩, ⟨S9600x1, u 2⟩, ⟨S9600x1, u 3⟩] concatenates_S9600x1_S9600x1_S9600x1_S9600x1_S9600x4_d1),
    StableHlo.unary main_v169 main_v204 ((extractStridedSlice S2048x1 ![0, 0] · slices_S2048x4_S2048x1_0_0) : (⟨S2048x4, .f32⟩ : BufTy).Contents (Elt F) → (⟨S2048x1, .f32⟩ : BufTy).Contents (Elt F)),
    StableHlo.unary main_v169 main_v205 ((extractStridedSlice S2048x1 ![0, 1] · slices_S2048x4_S2048x1_0_1) : (⟨S2048x4, .f32⟩ : BufTy).Contents (Elt F) → (⟨S2048x1, .f32⟩ : BufTy).Contents (Elt F)),
    StableHlo.unary main_v169 main_v206 ((extractStridedSlice S2048x1 ![0, 2] · slices_S2048x4_S2048x1_0_2) : (⟨S2048x4, .f32⟩ : BufTy).Contents (Elt F) → (⟨S2048x1, .f32⟩ : BufTy).Contents (Elt F)),
    StableHlo.unary main_v169 main_v207 ((extractStridedSlice S2048x1 ![0, 3] · slices_S2048x4_S2048x1_0_3) : (⟨S2048x4, .f32⟩ : BufTy).Contents (Elt F) → (⟨S2048x1, .f32⟩ : BufTy).Contents (Elt F)),
    StableHlo.nullary main_cst_28 (constant S_ .f32 0x3F000000#32),
    StableHlo.unary main_cst_28 main_v208 (broadcastInDim S2048x1 ![] bcast_S_S2048x1 : (⟨S_, .f32⟩ : BufTy).Contents (Elt F) → (⟨S2048x1, .f32⟩ : BufTy).Contents (Elt F)) ]

abbrev ops10_W : List (Ref sig .tc) := [main_v203, main_v204, main_v205, main_v206, main_v207, main_cst_28, main_v208]
theorem ops10_writes : (ops10 (F := F)).Forall fun op => op.writes ⊆ (ops10_W.map (Proc.devRef (τ := τ) .tc)).toFinset := by
  simp only [List.Forall, nary_writes, unary_writes, nullary_writes, Finset.singleton_subset_iff, List.mem_toFinset]
  and_intros <;> exact List.mem_map_of_mem (by decide)

theorem stage10
    (h_main_v193 : V (Proc.devRef .tc main_v193) = val_main_v193 x5)
    (h_main_v196 : V (Proc.devRef .tc main_v196) = val_main_v196 x5)
    (h_main_v199 : V (Proc.devRef .tc main_v199) = val_main_v199 x5)
    (h_main_v202 : V (Proc.devRef .tc main_v202) = val_main_v202 x5)
    (h_main_v169 : V (Proc.devRef .tc main_v169) = val_main_v169 x7)
    :
    after ops10 V (Proc.devRef .tc main_v203) = val_main_v203 x5
    ∧ after ops10 V (Proc.devRef .tc main_v204) = val_main_v204 x7
    ∧ after ops10 V (Proc.devRef .tc main_v205) = val_main_v205 x7
    ∧ after ops10 V (Proc.devRef .tc main_v206) = val_main_v206 x7
    ∧ after ops10 V (Proc.devRef .tc main_v207) = val_main_v207 x7
    ∧ after ops10 V (Proc.devRef .tc main_v208) = val_main_v208 (F := F) := by
  after_results_simp
  dsimp only [Matrix.cons_val]
  rw [h_main_v193, h_main_v196, h_main_v199, h_main_v202, h_main_v169]
  exact ⟨rfl, rfl, rfl, rfl, rfl, rfl⟩

theorem part3_eq (d : Dev nD) : main_part3 (F := F) d = seq (ops8 ++ (ops9 ++ (ops10))) := by
  chain_rfl

end Cert.ReferenceIdeal.RunH

end
-- ==== Proof.RefRunH5.lean ====
import proofs.«408227_j14096082666122_3_alg».proof.Proof.RefRead
import Idealize.ShloMosaic.Lib.StableHlo.Run
import Idealize.ShloMosaic.Lib.Pipeline.Regions

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S6x32x300x151, .f32⟩ : BufTy).Contents (Elt F)} {x1 : (⟨S6x32x300x4, .f32⟩ : BufTy).Contents (Elt F)}
  {x2 : (⟨S32x64, .i32⟩ : BufTy).Contents (Elt F)} {x3 : (⟨S32x64x4, .f32⟩ : BufTy).Contents (Elt F)}
  {x4 : (⟨S6x32x300x151, .f32⟩ : BufTy).Contents (Elt F)} {x5 : (⟨S6x32x300x4, .f32⟩ : BufTy).Contents (Elt F)}
  {x6 : (⟨S32x64, .i32⟩ : BufTy).Contents (Elt F)} {x7 : (⟨S32x64x4, .f32⟩ : BufTy).Contents (Elt F)}
  {x8 : (⟨S6x32x300x51, .f32⟩ : BufTy).Contents (Elt F)} {x9 : (⟨S32x64, .i32⟩ : BufTy).Contents (Elt F)}
variable (V : Valuation τ sig (Elt F))

abbrev ops11 : List (HloOp τ sig (Elt F)) :=
  [ StableHlo.binary main_v208 main_v206 main_v209 (mulf : (⟨S2048x1, .f32⟩ : BufTy).Contents (Elt F) → (⟨S2048x1, .f32⟩ : BufTy).Contents (Elt F) → (⟨S2048x1, .f32⟩ : BufTy).Contents (Elt F)),
    StableHlo.binary main_v204 main_v209 main_v210 (subf : (⟨S2048x1, .f32⟩ : BufTy).Contents (Elt F) → (⟨S2048x1, .f32⟩ : BufTy).Contents (Elt F) → (⟨S2048x1, .f32⟩ : BufTy).Contents (Elt F)),
    StableHlo.nullary main_cst_29 (constant S_ .f32 0x3F000000#32),
    StableHlo.unary main_cst_29 main_v211 (broadcastInDim S2048x1 ![] bcast_S_S2048x1 : (⟨S_, .f32⟩ : BufTy).Contents (Elt F) → (⟨S2048x1, .f32⟩ : BufTy).Contents (Elt F)),
    StableHlo.binary main_v211 main_v207 main_v212 (mulf : (⟨S2048x1, .f32⟩ : BufTy).Contents (Elt F) → (⟨S2048x1, .f32⟩ : BufTy).Contents (Elt F) → (⟨S2048x1, .f32⟩ : BufTy).Contents (Elt F)),
    StableHlo.binary main_v205 main_v212 main_v213 (subf : (⟨S2048x1, .f32⟩ : BufTy).Contents (Elt F) → (⟨S2048x1, .f32⟩ : BufTy).Contents (Elt F) → (⟨S2048x1, .f32⟩ : BufTy).Contents (Elt F)),
    StableHlo.nullary main_cst_30 (constant S_ .f32 0x3F000000#32),
    StableHlo.unary main_cst_30 main_v214 (broadcastInDim S2048x1 ![] bcast_S_S2048x1 : (⟨S_, .f32⟩ : BufTy).Contents (Elt F) → (⟨S2048x1, .f32⟩ : BufTy).Contents (Elt F)),
    StableHlo.binary main_v214 main_v206 main_v215 (mulf : (⟨S2048x1, .f32⟩ : BufTy).Contents (Elt F) → (⟨S2048x1, .f32⟩ : BufTy).Contents (Elt F) → (⟨S2048x1, .f32⟩ : BufTy).Contents (Elt F)),
    StableHlo.binary main_v204 main_v215 main_v216 (addf : (⟨S2048x1, .f32⟩ : BufTy).Contents (Elt F) → (⟨S2048x1, .f32⟩ : BufTy).Contents (Elt F) → (⟨S2048x1, .f32⟩ : BufTy).Contents (Elt F)),
    StableHlo.nullary main_cst_31 (constant S_ .f32 0x3F000000#32),
    StableHlo.unary main_cst_31 main_v217 (broadcastInDim S2048x1 ![] bcast_S_S2048x1 : (⟨S_, .f32⟩ : BufTy).Contents (Elt F) → (⟨S2048x1, .f32⟩ : BufTy).Contents (Elt F)),
    StableHlo.binary main_v217 main_v207 main_v218 (mulf : (⟨S2048x1, .f32⟩ : BufTy).Contents (Elt F) → (⟨S2048x1, .f32⟩ : BufTy).Contents (Elt F) → (⟨S2048x1, .f32⟩ : BufTy).Contents (Elt F)),
    StableHlo.binary main_v205 main_v218 main_v219 (addf : (⟨S2048x1, .f32⟩ : BufTy).Contents (Elt F) → (⟨S2048x1, .f32⟩ : BufTy).Contents (Elt F) → (⟨S2048x1, .f32⟩ : BufTy).Contents (Elt F)) ]

abbrev ops11_W : List (Ref sig .tc) := [main_v209, main_v210, main_cst_29, main_v211, main_v212, main_v213, main_cst_30, main_v214, main_v215, main_v216, main_cst_31, main_v217, main_v218, main_v219]
theorem ops11_writes : (ops11 (F := F)).Forall fun op => op.writes ⊆ (ops11_W.map (Proc.devRef (τ := τ) .tc)).toFinset := by
  simp only [List.Forall, binary_writes, nullary_writes, unary_writes, Finset.singleton_subset_iff, List.mem_toFinset]
  and_intros <;> exact List.mem_map_of_mem (by decide)

theorem stage11
    (h_main_v204 : V (Proc.devRef .tc main_v204) = val_main_v204 x7)
    (h_main_v208 : V (Proc.devRef .tc main_v208) = val_main_v208 (F := F))
    (h_main_v206 : V (Proc.devRef .tc main_v206) = val_main_v206 x7)
    (h_main_v205 : V (Proc.devRef .tc main_v205) = val_main_v205 x7)
    (h_main_v207 : V (Proc.devRef .tc main_v207) = val_main_v207 x7)
    :
    after ops11 V (Proc.devRef .tc main_v210) = val_main_v210 x7
    ∧ after ops11 V (Proc.devRef .tc main_v213) = val_main_v213 x7
    ∧ after ops11 V (Proc.devRef .tc main_v216) = val_main_v216 x7
    ∧ after ops11 V (Proc.devRef .tc main_v219) = val_main_v219 x7 := by
  after_results_simp
  rw [h_main_v204, h_main_v208, h_main_v206, h_main_v205, h_main_v207]
  exact ⟨rfl, rfl, rfl, rfl⟩

abbrev ops12 : List (HloOp τ sig (Elt F)) :=
  [ StableHlo.nary ![main_v210, main_v213, main_v216, main_v219] main_v220 (fun u => concatenate S2048x4 1 [⟨S2048x1, u 0⟩, ⟨S2048x1, u 1⟩, ⟨S2048x1, u 2⟩, ⟨S2048x1, u 3⟩] concatenates_S2048x1_S2048x1_S2048x1_S2048x1_S2048x4_d1),
    StableHlo.unary main_v203 main_v221 ((extractStridedSlice S9600x1 ![0, 2] · slices_S9600x4_S9600x1_0_2) : (⟨S9600x4, .f32⟩ : BufTy).Contents (Elt F) → (⟨S9600x1, .f32⟩ : BufTy).Contents (Elt F)),
    StableHlo.reshape main_v221 main_v222 rfl shapeCasts_S9600x1_S9600,
    StableHlo.unary main_v203 main_v223 ((extractStridedSlice S9600x1 ![0, 0] · slices_S9600x4_S9600x1_0_0) : (⟨S9600x4, .f32⟩ : BufTy).Contents (Elt F) → (⟨S9600x1, .f32⟩ : BufTy).Contents (Elt F)),
    StableHlo.reshape main_v223 main_v224 rfl shapeCasts_S9600x1_S9600,
    StableHlo.binary main_v222 main_v224 main_v225 (subf : (⟨S9600, .f32⟩ : BufTy).Contents (Elt F) → (⟨S9600, .f32⟩ : BufTy).Contents (Elt F) → (⟨S9600, .f32⟩ : BufTy).Contents (Elt F)),
    StableHlo.unary main_v203 main_v226 ((extractStridedSlice S9600x1 ![0, 3] · slices_S9600x4_S9600x1_0_3) : (⟨S9600x4, .f32⟩ : BufTy).Contents (Elt F) → (⟨S9600x1, .f32⟩ : BufTy).Contents (Elt F)),
    StableHlo.reshape main_v226 main_v227 rfl shapeCasts_S9600x1_S9600,
    StableHlo.unary main_v203 main_v228 ((extractStridedSlice S9600x1 ![0, 1] · slices_S9600x4_S9600x1_0_1) : (⟨S9600x4, .f32⟩ : BufTy).Contents (Elt F) → (⟨S9600x1, .f32⟩ : BufTy).Contents (Elt F)),
    StableHlo.reshape main_v228 main_v229 rfl shapeCasts_S9600x1_S9600,
    StableHlo.binary main_v227 main_v229 main_v230 (subf : (⟨S9600, .f32⟩ : BufTy).Contents (Elt F) → (⟨S9600, .f32⟩ : BufTy).Contents (Elt F) → (⟨S9600, .f32⟩ : BufTy).Contents (Elt F)),
    StableHlo.binary main_v225 main_v230 main_v231 (mulf : (⟨S9600, .f32⟩ : BufTy).Contents (Elt F) → (⟨S9600, .f32⟩ : BufTy).Contents (Elt F) → (⟨S9600, .f32⟩ : BufTy).Contents (Elt F)),
    StableHlo.unary main_v220 main_v232 ((extractStridedSlice S2048x1 ![0, 2] · slices_S2048x4_S2048x1_0_2) : (⟨S2048x4, .f32⟩ : BufTy).Contents (Elt F) → (⟨S2048x1, .f32⟩ : BufTy).Contents (Elt F)),
    StableHlo.reshape main_v232 main_v233 rfl shapeCasts_S2048x1_S2048,
    StableHlo.unary main_v220 main_v234 ((extractStridedSlice S2048x1 ![0, 0] · slices_S2048x4_S2048x1_0_0) : (⟨S2048x4, .f32⟩ : BufTy).Contents (Elt F) → (⟨S2048x1, .f32⟩ : BufTy).Contents (Elt F)),
    StableHlo.reshape main_v234 main_v235 rfl shapeCasts_S2048x1_S2048,
    StableHlo.binary main_v233 main_v235 main_v236 (subf : (⟨S2048, .f32⟩ : BufTy).Contents (Elt F) → (⟨S2048, .f32⟩ : BufTy).Contents (Elt F) → (⟨S2048, .f32⟩ : BufTy).Contents (Elt F)),
    StableHlo.unary main_v220 main_v237 ((extractStridedSlice S2048x1 ![0, 3] · slices_S2048x4_S2048x1_0_3) : (⟨S2048x4, .f32⟩ : BufTy).Contents (Elt F) → (⟨S2048x1, .f32⟩ : BufTy).Contents (Elt F)),
    StableHlo.reshape main_v237 main_v238 rfl shapeCasts_S2048x1_S2048,
    StableHlo.unary main_v220 main_v239 ((extractStridedSlice S2048x1 ![0, 1] · slices_S2048x4_S2048x1_0_1) : (⟨S2048x4, .f32⟩ : BufTy).Contents (Elt F) → (⟨S2048x1, .f32⟩ : BufTy).Contents (Elt F)),
    StableHlo.reshape main_v239 main_v240 rfl shapeCasts_S2048x1_S2048,
    StableHlo.binary main_v238 main_v240 main_v241 (subf : (⟨S2048, .f32⟩ : BufTy).Contents (Elt F) → (⟨S2048, .f32⟩ : BufTy).Contents (Elt F) → (⟨S2048, .f32⟩ : BufTy).Contents (Elt F)),
    StableHlo.binary main_v236 main_v241 main_v242 (mulf : (⟨S2048, .f32⟩ : BufTy).Contents (Elt F) → (⟨S2048, .f32⟩ : BufTy).Contents (Elt F) → (⟨S2048, .f32⟩ : BufTy).Contents (Elt F)),
    StableHlo.unary main_v203 main_v243 ((extractStridedSlice S9600x2 ![0, 0] · slices_S9600x4_S9600x2_0_0) : (⟨S9600x4, .f32⟩ : BufTy).Contents (Elt F) → (⟨S9600x2, .f32⟩ : BufTy).Contents (Elt F)),
    StableHlo.unary main_v243 main_v244 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v220 main_v245 ((extractStridedSlice S2048x2 ![0, 0] · slices_S2048x4_S2048x2_0_0) : (⟨S2048x4, .f32⟩ : BufTy).Contents (Elt F) → (⟨S2048x2, .f32⟩ : BufTy).Contents (Elt F)),
    StableHlo.unary main_v245 main_v246 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v244 main_v247 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v246 main_v248 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v247 main_v248 main_v249 (maximumf : (⟨S9600x2048x2, .f32⟩ : BufTy).Contents (Elt F) → (⟨S9600x2048x2, .f32⟩ : BufTy).Contents (Elt F) → (⟨S9600x2048x2, .f32⟩ : BufTy).Contents (Elt F)) ]

abbrev ops12_W : List (Ref sig .tc) := [main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249]
theorem ops12_writes : (ops12 (F := F)).Forall fun op => op.writes ⊆ (ops12_W.map (Proc.devRef (τ := τ) .tc)).toFinset := by
  simp only [List.Forall, nary_writes, unary_writes, reshape_writes, binary_writes, Finset.singleton_subset_iff, List.mem_toFinset]
  and_intros <;> exact List.mem_map_of_mem (by decide)

theorem stage12
    (h_main_v210 : V (Proc.devRef .tc main_v210) = val_main_v210 x7)
    (h_main_v213 : V (Proc.devRef .tc main_v213) = val_main_v213 x7)
    (h_main_v216 : V (Proc.devRef .tc main_v216) = val_main_v216 x7)
    (h_main_v219 : V (Proc.devRef .tc main_v219) = val_main_v219 x7)
    (h_main_v203 : V (Proc.devRef .tc main_v203) = val_main_v203 x5)
    :
    after ops12 V (Proc.devRef .tc main_v220) = val_main_v220 x7
    ∧ after ops12 V (Proc.devRef .tc main_v231) = val_main_v231 x5
    ∧ after ops12 V (Proc.devRef .tc main_v242) = val_main_v242 x7
    ∧ after ops12 V (Proc.devRef .tc main_v249) = val_main_v249 x5 x7 := by
  after_results_simp
  dsimp only [Matrix.cons_val]
  rw [h_main_v210, h_main_v213, h_main_v216, h_main_v219, h_main_v203]
  exact ⟨rfl, rfl, rfl, rfl⟩

abbrev ops13 : List (HloOp τ sig (Elt F)) :=
  [ StableHlo.unary main_v203 main_v250 ((extractStridedSlice S9600x2 ![0, 2] · slices_S9600x4_S9600x2_0_2) : (⟨S9600x4, .f32⟩ : BufTy).Contents (Elt F) → (⟨S9600x2, .f32⟩ : BufTy).Contents (Elt F)),
    StableHlo.unary main_v250 main_v251 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v220 main_v252 ((extractStridedSlice S2048x2 ![0, 2] · slices_S2048x4_S2048x2_0_2) : (⟨S2048x4, .f32⟩ : BufTy).Contents (Elt F) → (⟨S2048x2, .f32⟩ : BufTy).Contents (Elt F)),
    StableHlo.unary main_v252 main_v253 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v251 main_v254 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v253 main_v255 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v254 main_v255 main_v256 (minimumf : (⟨S9600x2048x2, .f32⟩ : BufTy).Contents (Elt F) → (⟨S9600x2048x2, .f32⟩ : BufTy).Contents (Elt F) → (⟨S9600x2048x2, .f32⟩ : BufTy).Contents (Elt F)),
    StableHlo.binary main_v256 main_v249 main_v257 (subf : (⟨S9600x2048x2, .f32⟩ : BufTy).Contents (Elt F) → (⟨S9600x2048x2, .f32⟩ : BufTy).Contents (Elt F) → (⟨S9600x2048x2, .f32⟩ : BufTy).Contents (Elt F)),
    StableHlo.nullary main_cst_32 (constant S_ .f32 0x00000000#32),
    StableHlo.TRef.unary (.of main_cst_32 : TRef sig ⟨S_, .f32⟩) main_call3.v0 id,
    StableHlo.TRef.unary main_call3.v0 main_call3.v1 (broadcastInDim S9600x2048x2 ![] bcast_S_S9600x2048x2),
    StableHlo.TRef.binary main_call3.v1 (.of main_v257 : TRef sig ⟨S9600x2048x2, .f32⟩) main_call3.v2 maximumf,
    StableHlo.unary main_v258 main_v259 ((extractStridedSlice S9600x2048x1 ![0, 0, 0] · slices_S9600x2048x2_S9600x2048x1_0_0_0) : (⟨S9600x2048x2, .f32⟩ : BufTy).Contents (Elt F) → (⟨S9600x2048x1, .f32⟩ : BufTy).Contents (Elt F)),
    StableHlo.reshape main_v259 main_v260 rfl shapeCasts_S9600x2048x1_S9600x2048,
    StableHlo.unary main_v258 main_v261 ((extractStridedSlice S9600x2048x1 ![0, 0, 1] · slices_S9600x2048x2_S9600x2048x1_0_0_1) : (⟨S9600x2048x2, .f32⟩ : BufTy).Contents (Elt F) → (⟨S9600x2048x1, .f32⟩ : BufTy).Contents (Elt F)),
    StableHlo.reshape main_v261 main_v262 rfl shapeCasts_S9600x2048x1_S9600x2048,
    StableHlo.binary main_v260 main_v262 main_v263 (mulf : (⟨S9600x2048, .f32⟩ : BufTy).Contents (Elt F) → (⟨S9600x2048, .f32⟩ : BufTy).Contents (Elt F) → (⟨S9600x2048, .f32⟩ : BufTy).Contents (Elt F)),
    StableHlo.unary main_v231 main_v264 (broadcastInDim S9600x1 ![0] bcast_S9600_S9600x1_0 : (⟨S9600, .f32⟩ : BufTy).Contents (Elt F) → (⟨S9600x1, .f32⟩ : BufTy).Contents (Elt F)) ]

abbrev ops13_W : List (Ref sig .tc) := [main_v250, main_v251, main_v252, main_v253, main_v254, main_v255, main_v256, main_v257, main_cst_32, main_call3_v0, main_call3_v1, main_v258, main_v259, main_v260, main_v261, main_v262, main_v263, main_v264]
theorem ops13_writes : (ops13 (F := F)).Forall fun op => op.writes ⊆ (ops13_W.map (Proc.devRef (τ := τ) .tc)).toFinset := by
  simp only [List.Forall, unary_writes, binary_writes, nullary_writes, reshape_writes, Finset.singleton_subset_iff, List.mem_toFinset]
  and_intros <;> exact List.mem_map_of_mem (by decide)

theorem stage13
    (h_main_v203 : V (Proc.devRef .tc main_v203) = val_main_v203 x5)
    (h_main_v220 : V (Proc.devRef .tc main_v220) = val_main_v220 x7)
    (h_main_v249 : V (Proc.devRef .tc main_v249) = val_main_v249 x5 x7)
    (h_main_v231 : V (Proc.devRef .tc main_v231) = val_main_v231 x5)
    :
    after ops13 V (Proc.devRef .tc main_v263) = val_main_v263 x5 x7
    ∧ after ops13 V (Proc.devRef .tc main_v264) = val_main_v264 x5 := by
  after_results_simp
  rw [h_main_v203, h_main_v220, h_main_v249, h_main_v231]
  exact ⟨rfl, rfl⟩

theorem part4_eq (d : Dev nD) : main_part4 (F := F) d = seq (ops11 ++ (ops12 ++ (ops13))) := by
  chain_rfl

end Cert.ReferenceIdeal.RunH

end
-- ==== Proof.RefRunH6.lean ====
import proofs.«408227_j14096082666122_3_alg».proof.Proof.RefRead
import Idealize.ShloMosaic.Lib.StableHlo.Run
import Idealize.ShloMosaic.Lib.Pipeline.Regions

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S6x32x300x151, .f32⟩ : BufTy).Contents (Elt F)} {x1 : (⟨S6x32x300x4, .f32⟩ : BufTy).Contents (Elt F)}
  {x2 : (⟨S32x64, .i32⟩ : BufTy).Contents (Elt F)} {x3 : (⟨S32x64x4, .f32⟩ : BufTy).Contents (Elt F)}
  {x4 : (⟨S6x32x300x151, .f32⟩ : BufTy).Contents (Elt F)} {x5 : (⟨S6x32x300x4, .f32⟩ : BufTy).Contents (Elt F)}
  {x6 : (⟨S32x64, .i32⟩ : BufTy).Contents (Elt F)} {x7 : (⟨S32x64x4, .f32⟩ : BufTy).Contents (Elt F)}
  {x8 : (⟨S6x32x300x51, .f32⟩ : BufTy).Contents (Elt F)} {x9 : (⟨S32x64, .i32⟩ : BufTy).Contents (Elt F)}
variable (V : Valuation τ sig (Elt F))

abbrev ops14 : List (HloOp τ sig (Elt F)) :=
  [ StableHlo.unary main_v242 main_v265 (broadcastInDim S1x2048 ![1] bcast_S2048_S1x2048_1 : (⟨S2048, .f32⟩ : BufTy).Contents (Elt F) → (⟨S1x2048, .f32⟩ : BufTy).Contents (Elt F)),
    StableHlo.unary main_v264 main_v266 (broadcastInDim S9600x2048 ![0, 1] bcast_S9600x1_S9600x2048_0_1 : (⟨S9600x1, .f32⟩ : BufTy).Contents (Elt F) → (⟨S9600x2048, .f32⟩ : BufTy).Contents (Elt F)),
    StableHlo.unary main_v265 main_v267 (broadcastInDim S9600x2048 ![0, 1] bcast_S1x2048_S9600x2048_0_1 : (⟨S1x2048, .f32⟩ : BufTy).Contents (Elt F) → (⟨S9600x2048, .f32⟩ : BufTy).Contents (Elt F)),
    StableHlo.binary main_v266 main_v267 main_v268 (addf : (⟨S9600x2048, .f32⟩ : BufTy).Contents (Elt F) → (⟨S9600x2048, .f32⟩ : BufTy).Contents (Elt F) → (⟨S9600x2048, .f32⟩ : BufTy).Contents (Elt F)),
    StableHlo.binary main_v268 main_v263 main_v269 (subf : (⟨S9600x2048, .f32⟩ : BufTy).Contents (Elt F) → (⟨S9600x2048, .f32⟩ : BufTy).Contents (Elt F) → (⟨S9600x2048, .f32⟩ : BufTy).Contents (Elt F)),
    StableHlo.binary main_v263 main_v269 main_v270 (Host.divf : (⟨S9600x2048, .f32⟩ : BufTy).Contents (Elt F) → (⟨S9600x2048, .f32⟩ : BufTy).Contents (Elt F) → (⟨S9600x2048, .f32⟩ : BufTy).Contents (Elt F)),
    StableHlo.unary main_v203 main_v271 ((extractStridedSlice S9600x2 ![0, 0] · slices_S9600x4_S9600x2_0_0) : (⟨S9600x4, .f32⟩ : BufTy).Contents (Elt F) → (⟨S9600x2, .f32⟩ : BufTy).Contents (Elt F)),
    StableHlo.unary main_v271 main_v272 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v220 main_v273 ((extractStridedSlice S2048x2 ![0, 0] · slices_S2048x4_S2048x2_0_0) : (⟨S2048x4, .f32⟩ : BufTy).Contents (Elt F) → (⟨S2048x2, .f32⟩ : BufTy).Contents (Elt F)),
    StableHlo.unary main_v273 main_v274 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v272 main_v275 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v274 main_v276 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v275 main_v276 main_v277 (minimumf : (⟨S9600x2048x2, .f32⟩ : BufTy).Contents (Elt F) → (⟨S9600x2048x2, .f32⟩ : BufTy).Contents (Elt F) → (⟨S9600x2048x2, .f32⟩ : BufTy).Contents (Elt F)),
    StableHlo.unary main_v203 main_v278 ((extractStridedSlice S9600x2 ![0, 2] · slices_S9600x4_S9600x2_0_2) : (⟨S9600x4, .f32⟩ : BufTy).Contents (Elt F) → (⟨S9600x2, .f32⟩ : BufTy).Contents (Elt F)),
    StableHlo.unary main_v278 main_v279 (broadcastInDim S9600x1x2 ![0, 2] bcast_S9600x2_S9600x1x2_0_2 : (⟨S9600x2, .f32⟩ : BufTy).Contents (Elt F) → (⟨S9600x1x2, .f32⟩ : BufTy).Contents (Elt F)),
    StableHlo.unary main_v220 main_v280 ((extractStridedSlice S2048x2 ![0, 2] · slices_S2048x4_S2048x2_0_2) : (⟨S2048x4, .f32⟩ : BufTy).Contents (Elt F) → (⟨S2048x2, .f32⟩ : BufTy).Contents (Elt F)),
    StableHlo.unary main_v280 main_v281 (broadcastInDim S1x2048x2 ![1, 2] bcast_S2048x2_S1x2048x2_1_2 : (⟨S2048x2, .f32⟩ : BufTy).Contents (Elt F) → (⟨S1x2048x2, .f32⟩ : BufTy).Contents (Elt F)),
    StableHlo.unary main_v279 main_v282 (broadcastInDim S9600x2048x2 ![0, 1, 2] bcast_S9600x1x2_S9600x2048x2_0_1_2 : (⟨S9600x1x2, .f32⟩ : BufTy).Contents (Elt F) → (⟨S9600x2048x2, .f32⟩ : BufTy).Contents (Elt F)),
    StableHlo.unary main_v281 main_v283 (broadcastInDim S9600x2048x2 ![0, 1, 2] bcast_S1x2048x2_S9600x2048x2_0_1_2 : (⟨S1x2048x2, .f32⟩ : BufTy).Contents (Elt F) → (⟨S9600x2048x2, .f32⟩ : BufTy).Contents (Elt F)),
    StableHlo.binary main_v282 main_v283 main_v284 (maximumf : (⟨S9600x2048x2, .f32⟩ : BufTy).Contents (Elt F) → (⟨S9600x2048x2, .f32⟩ : BufTy).Contents (Elt F) → (⟨S9600x2048x2, .f32⟩ : BufTy).Contents (Elt F)),
    StableHlo.binary main_v284 main_v277 main_v285 (subf : (⟨S9600x2048x2, .f32⟩ : BufTy).Contents (Elt F) → (⟨S9600x2048x2, .f32⟩ : BufTy).Contents (Elt F) → (⟨S9600x2048x2, .f32⟩ : BufTy).Contents (Elt F)),
    StableHlo.nullary main_cst_33 (constant S_ .f32 0x00000000#32),
    StableHlo.TRef.unary (.of main_cst_33 : TRef sig ⟨S_, .f32⟩) main_call4.v0 id,
    StableHlo.TRef.unary main_call4.v0 main_call4.v1 (broadcastInDim S9600x2048x2 ![] bcast_S_S9600x2048x2),
    StableHlo.TRef.binary main_call4.v1 (.of main_v285 : TRef sig ⟨S9600x2048x2, .f32⟩) main_call4.v2 maximumf,
    StableHlo.unary main_v286 main_v287 ((extractStridedSlice S9600x2048x1 ![0, 0, 0] · slices_S9600x2048x2_S9600x2048x1_0_0_0) : (⟨S9600x2048x2, .f32⟩ : BufTy).Contents (Elt F) → (⟨S9600x2048x1, .f32⟩ : BufTy).Contents (Elt F)),
    StableHlo.reshape main_v287 main_v288 rfl shapeCasts_S9600x2048x1_S9600x2048,
    StableHlo.unary main_v286 main_v289 ((extractStridedSlice S9600x2048x1 ![0, 0, 1] · slices_S9600x2048x2_S9600x2048x1_0_0_1) : (⟨S9600x2048x2, .f32⟩ : BufTy).Contents (Elt F) → (⟨S9600x2048x1, .f32⟩ : BufTy).Contents (Elt F)),
    StableHlo.reshape main_v289 main_v290 rfl shapeCasts_S9600x2048x1_S9600x2048,
    StableHlo.binary main_v288 main_v290 main_v291 (mulf : (⟨S9600x2048, .f32⟩ : BufTy).Contents (Elt F) → (⟨S9600x2048, .f32⟩ : BufTy).Contents (Elt F) → (⟨S9600x2048, .f32⟩ : BufTy).Contents (Elt F)) ]

abbrev ops14_W : List (Ref sig .tc) := [main_v265, main_v266, main_v267, main_v268, main_v269, main_v270, main_v271, main_v272, main_v273, main_v274, main_v275, main_v276, main_v277, main_v278, main_v279, main_v280, main_v281, main_v282, main_v283, main_v284, main_v285, main_cst_33, main_call4_v0, main_call4_v1, main_v286, main_v287, main_v288, main_v289, main_v290, main_v291]
theorem ops14_writes : (ops14 (F := F)).Forall fun op => op.writes ⊆ (ops14_W.map (Proc.devRef (τ := τ) .tc)).toFinset := by
  simp only [List.Forall, unary_writes, binary_writes, nullary_writes, reshape_writes, Finset.singleton_subset_iff, List.mem_toFinset]
  and_intros <;> exact List.mem_map_of_mem (by decide)

theorem stage14
    (h_main_v264 : V (Proc.devRef .tc main_v264) = val_main_v264 x5)
    (h_main_v242 : V (Proc.devRef .tc main_v242) = val_main_v242 x7)
    (h_main_v263 : V (Proc.devRef .tc main_v263) = val_main_v263 x5 x7)
    (h_main_v203 : V (Proc.devRef .tc main_v203) = val_main_v203 x5)
    (h_main_v220 : V (Proc.devRef .tc main_v220) = val_main_v220 x7)
    :
    after ops14 V (Proc.devRef .tc main_v269) = val_main_v269 x5 x7
    ∧ after ops14 V (Proc.devRef .tc main_v270) = val_main_v270 x5 x7
    ∧ after ops14 V (Proc.devRef .tc main_v291) = val_main_v291 x5 x7 := by
  after_results_simp
  rw [h_main_v264, h_main_v242, h_main_v263, h_main_v203, h_main_v220]
  exact ⟨rfl, rfl, rfl⟩

abbrev ops15 : List (HloOp τ sig (Elt F)) :=
  [ StableHlo.binary main_v291 main_v269 main_v292 (subf : (⟨S9600x2048, .f32⟩ : BufTy).Contents (Elt F) → (⟨S9600x2048, .f32⟩ : BufTy).Contents (Elt F) → (⟨S9600x2048, .f32⟩ : BufTy).Contents (Elt F)),
    StableHlo.binary main_v292 main_v291 main_v293 (Host.divf : (⟨S9600x2048, .f32⟩ : BufTy).Contents (Elt F) → (⟨S9600x2048, .f32⟩ : BufTy).Contents (Elt F) → (⟨S9600x2048, .f32⟩ : BufTy).Contents (Elt F)),
    StableHlo.binary main_v270 main_v293 main_v294 (subf : (⟨S9600x2048, .f32⟩ : BufTy).Contents (Elt F) → (⟨S9600x2048, .f32⟩ : BufTy).Contents (Elt F) → (⟨S9600x2048, .f32⟩ : BufTy).Contents (Elt F)),
    StableHlo.unary main_v294 main_v295 (Host.negf : (⟨S9600x2048, .f32⟩ : BufTy).Contents (Elt F) → (⟨S9600x2048, .f32⟩ : BufTy).Contents (Elt F)),
    StableHlo.nullary main_cst_34 (constant S_ .f32 0x3F800000#32),
    StableHlo.unary main_cst_34 main_v296 (broadcastInDim S9600x2048 ![] bcast_S_S9600x2048 : (⟨S_, .f32⟩ : BufTy).Contents (Elt F) → (⟨S9600x2048, .f32⟩ : BufTy).Contents (Elt F)),
    StableHlo.binary main_v296 main_v177 main_v297 (mulf : (⟨S9600x2048, .f32⟩ : BufTy).Contents (Elt F) → (⟨S9600x2048, .f32⟩ : BufTy).Contents (Elt F) → (⟨S9600x2048, .f32⟩ : BufTy).Contents (Elt F)),
    StableHlo.nullary main_cst_35 (constant S_ .f32 0x3F800000#32),
    StableHlo.unary main_cst_35 main_v298 (broadcastInDim S9600x2048 ![] bcast_S_S9600x2048 : (⟨S_, .f32⟩ : BufTy).Contents (Elt F) → (⟨S9600x2048, .f32⟩ : BufTy).Contents (Elt F)),
    StableHlo.binary main_v298 main_v186 main_v299 (mulf : (⟨S9600x2048, .f32⟩ : BufTy).Contents (Elt F) → (⟨S9600x2048, .f32⟩ : BufTy).Contents (Elt F) → (⟨S9600x2048, .f32⟩ : BufTy).Contents (Elt F)),
    StableHlo.binary main_v297 main_v299 main_v300 (addf : (⟨S9600x2048, .f32⟩ : BufTy).Contents (Elt F) → (⟨S9600x2048, .f32⟩ : BufTy).Contents (Elt F) → (⟨S9600x2048, .f32⟩ : BufTy).Contents (Elt F)),
    StableHlo.nullary main_cst_36 (constant S_ .f32 0x3F800000#32),
    StableHlo.unary main_cst_36 main_v301 (broadcastInDim S9600x2048 ![] bcast_S_S9600x2048 : (⟨S_, .f32⟩ : BufTy).Contents (Elt F) → (⟨S9600x2048, .f32⟩ : BufTy).Contents (Elt F)),
    StableHlo.binary main_v301 main_v295 main_v302 (mulf : (⟨S9600x2048, .f32⟩ : BufTy).Contents (Elt F) → (⟨S9600x2048, .f32⟩ : BufTy).Contents (Elt F) → (⟨S9600x2048, .f32⟩ : BufTy).Contents (Elt F)),
    StableHlo.binary main_v300 main_v302 main_v303 (addf : (⟨S9600x2048, .f32⟩ : BufTy).Contents (Elt F) → (⟨S9600x2048, .f32⟩ : BufTy).Contents (Elt F) → (⟨S9600x2048, .f32⟩ : BufTy).Contents (Elt F)),
    StableHlo.binary main_v150 main_v303 main_v304 (addf : (⟨S9600x2048, .f32⟩ : BufTy).Contents (Elt F) → (⟨S9600x2048, .f32⟩ : BufTy).Contents (Elt F) → (⟨S9600x2048, .f32⟩ : BufTy).Contents (Elt F)),
    StableHlo.unary main_arg8 main_v305 ((extractStridedSlice S1x32x300x51 ![5, 0, 0, 0] · slices_S6x32x300x51_S1x32x300x51_5_0_0_0) : (⟨S6x32x300x51, .f32⟩ : BufTy).Contents (Elt F) → (⟨S1x32x300x51, .f32⟩ : BufTy).Contents (Elt F)),
    StableHlo.reshape main_v305 main_v306 rfl shapeCasts_S1x32x300x51_S32x300x51,
    StableHlo.reshape main_v306 main_v307 rfl shapeCasts_S32x300x51_S9600x51,
    StableHlo.nullary main_cst_37 (constant S_ .f32 0xFF800000#32),
    StableHlo.binary main_v307 main_cst_37 main_v308 ((fun x v => Host.reduce FloatOps.maximumf x v reducesTo_S9600x51_S9600_d1 h_S_) : (⟨S9600x51, .f32⟩ : BufTy).Contents (Elt F) → (⟨S_, .f32⟩ : BufTy).Contents (Elt F) → (⟨S9600, .f32⟩ : BufTy).Contents (Elt F)),
    StableHlo.nullary main_cst_38 (constant S_ .f32 0xFF800000#32),
    StableHlo.unary main_cst_38 main_v309 (broadcastInDim S9600 ![] bcast_S_S9600 : (⟨S_, .f32⟩ : BufTy).Contents (Elt F) → (⟨S9600, .f32⟩ : BufTy).Contents (Elt F)),
    StableHlo.binary main_v309 main_v308 main_v310 (maximumf : (⟨S9600, .f32⟩ : BufTy).Contents (Elt F) → (⟨S9600, .f32⟩ : BufTy).Contents (Elt F) → (⟨S9600, .f32⟩ : BufTy).Contents (Elt F)),
    StableHlo.unary main_v310 main_v311 (broadcastInDim S9600x1 ![0] bcast_S9600_S9600x1_0 : (⟨S9600, .f32⟩ : BufTy).Contents (Elt F) → (⟨S9600x1, .f32⟩ : BufTy).Contents (Elt F)),
    StableHlo.unary main_v311 main_v312 (broadcastInDim S9600x51 ![0, 1] bcast_S9600x1_S9600x51_0_1 : (⟨S9600x1, .f32⟩ : BufTy).Contents (Elt F) → (⟨S9600x51, .f32⟩ : BufTy).Contents (Elt F)),
    StableHlo.binary main_v307 main_v312 main_v313 (subf : (⟨S9600x51, .f32⟩ : BufTy).Contents (Elt F) → (⟨S9600x51, .f32⟩ : BufTy).Contents (Elt F) → (⟨S9600x51, .f32⟩ : BufTy).Contents (Elt F)),
    StableHlo.unary main_v313 main_v314 (Host.exp : (⟨S9600x51, .f32⟩ : BufTy).Contents (Elt F) → (⟨S9600x51, .f32⟩ : BufTy).Contents (Elt F)),
    StableHlo.nullary main_cst_39 (constant S_ .f32 0x00000000#32),
    StableHlo.binary main_v314 main_cst_39 main_v315 ((fun x v => Host.reduceAdd x v reducesTo_S9600x51_S9600_d1 h_S_) : (⟨S9600x51, .f32⟩ : BufTy).Contents (Elt F) → (⟨S_, .f32⟩ : BufTy).Contents (Elt F) → (⟨S9600, .f32⟩ : BufTy).Contents (Elt F)) ]

abbrev ops15_W : List (Ref sig .tc) := [main_v292, main_v293, main_v294, main_v295, main_cst_34, main_v296, main_v297, main_cst_35, main_v298, main_v299, main_v300, main_cst_36, main_v301, main_v302, main_v303, main_v304, main_v305, main_v306, main_v307, main_cst_37, main_v308, main_cst_38, main_v309, main_v310, main_v311, main_v312, main_v313, main_v314, main_cst_39, main_v315]
theorem ops15_writes : (ops15 (F := F)).Forall fun op => op.writes ⊆ (ops15_W.map (Proc.devRef (τ := τ) .tc)).toFinset := by
  simp only [List.Forall, binary_writes, unary_writes, nullary_writes, reshape_writes, Finset.singleton_subset_iff, List.mem_toFinset]
  and_intros <;> exact List.mem_map_of_mem (by decide)

theorem stage15
    (h_main_v150 : V (Proc.devRef .tc main_v150) = val_main_v150 x0 x1 x2 x3)
    (h_main_v177 : V (Proc.devRef .tc main_v177) = val_main_v177 x4 x6)
    (h_main_v186 : V (Proc.devRef .tc main_v186) = val_main_v186 x5 x7)
    (h_main_v270 : V (Proc.devRef .tc main_v270) = val_main_v270 x5 x7)
    (h_main_v291 : V (Proc.devRef .tc main_v291) = val_main_v291 x5 x7)
    (h_main_v269 : V (Proc.devRef .tc main_v269) = val_main_v269 x5 x7)
    (a8 : V (Proc.devRef .tc main_arg8) = x8)
    :
    after ops15 V (Proc.devRef .tc main_v304) = val_main_v304 x0 x1 x2 x3 x4 x5 x6 x7
    ∧ after ops15 V (Proc.devRef .tc main_v314) = val_main_v314 x8
    ∧ after ops15 V (Proc.devRef .tc main_v315) = val_main_v315 x8 := by
  after_results_simp
  rw [h_main_v150, h_main_v177, h_main_v186, h_main_v270, h_main_v291, h_main_v269, a8]
  exact ⟨rfl, rfl, rfl⟩

abbrev ops16 : List (HloOp τ sig (Elt F)) :=
  [ StableHlo.unary main_v315 main_v316 (broadcastInDim S9600x1 ![0] bcast_S9600_S9600x1_0 : (⟨S9600, .f32⟩ : BufTy).Contents (Elt F) → (⟨S9600x1, .f32⟩ : BufTy).Contents (Elt F)),
    StableHlo.unary main_v316 main_v317 (broadcastInDim S9600x51 ![0, 1] bcast_S9600x1_S9600x51_0_1 : (⟨S9600x1, .f32⟩ : BufTy).Contents (Elt F) → (⟨S9600x51, .f32⟩ : BufTy).Contents (Elt F)) ]

abbrev ops16_W : List (Ref sig .tc) := [main_v316, main_v317]
theorem ops16_writes : (ops16 (F := F)).Forall fun op => op.writes ⊆ (ops16_W.map (Proc.devRef (τ := τ) .tc)).toFinset := by
  simp only [List.Forall, unary_writes, Finset.singleton_subset_iff, List.mem_toFinset]
  and_intros <;> exact List.mem_map_of_mem (by decide)

theorem stage16
    (h_main_v315 : V (Proc.devRef .tc main_v315) = val_main_v315 x8)
    :
    after ops16 V (Proc.devRef .tc main_v317) = val_main_v317 x8 := by
  after_results_simp
  rw [h_main_v315]
  rfl

theorem part5_eq (d : Dev nD) : main_part5 (F := F) d = seq (ops14 ++ (ops15 ++ (ops16))) := by
  chain_rfl

end Cert.ReferenceIdeal.RunH

end
-- ==== Proof.RefRunH7.lean ====
import proofs.«408227_j14096082666122_3_alg».proof.Proof.RefRead
import Idealize.ShloMosaic.Lib.StableHlo.Run
import Idealize.ShloMosaic.Lib.Pipeline.Regions

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S6x32x300x151, .f32⟩ : BufTy).Contents (Elt F)} {x1 : (⟨S6x32x300x4, .f32⟩ : BufTy).Contents (Elt F)}
  {x2 : (⟨S32x64, .i32⟩ : BufTy).Contents (Elt F)} {x3 : (⟨S32x64x4, .f32⟩ : BufTy).Contents (Elt F)}
  {x4 : (⟨S6x32x300x151, .f32⟩ : BufTy).Contents (Elt F)} {x5 : (⟨S6x32x300x4, .f32⟩ : BufTy).Contents (Elt F)}
  {x6 : (⟨S32x64, .i32⟩ : BufTy).Contents (Elt F)} {x7 : (⟨S32x64x4, .f32⟩ : BufTy).Contents (Elt F)}
  {x8 : (⟨S6x32x300x51, .f32⟩ : BufTy).Contents (Elt F)} {x9 : (⟨S32x64, .i32⟩ : BufTy).Contents (Elt F)}
variable (V : Valuation τ sig (Elt F))

abbrev ops17 : List (HloOp τ sig (Elt F)) :=
  [ StableHlo.binary main_v314 main_v317 main_v318 (Host.divf : (⟨S9600x51, .f32⟩ : BufTy).Contents (Elt F) → (⟨S9600x51, .f32⟩ : BufTy).Contents (Elt F) → (⟨S9600x51, .f32⟩ : BufTy).Contents (Elt F)),
    StableHlo.reshape main_arg9 main_v319 rfl shapeCasts_S32x64_S2048,
    StableHlo.nullary main_c_40 (constantI S_ 32 0#32),
    StableHlo.unary main_c_40 main_v320 (broadcastInDim S2048 ![] bcast_S_S2048 : (⟨S_, .i32⟩ : BufTy).Contents (Elt F) → (⟨S2048, .i32⟩ : BufTy).Contents (Elt F)),
    StableHlo.binary main_v319 main_v320 main_v321 (cmpi .slt : (⟨S2048, .i32⟩ : BufTy).Contents (Elt F) → (⟨S2048, .i32⟩ : BufTy).Contents (Elt F) → (⟨S2048, .i1⟩ : BufTy).Contents (Elt F)),
    StableHlo.nullary main_c_41 (constantI S_ 32 51#32),
    StableHlo.unary main_c_41 main_v322 (broadcastInDim S2048 ![] bcast_S_S2048 : (⟨S_, .i32⟩ : BufTy).Contents (Elt F) → (⟨S2048, .i32⟩ : BufTy).Contents (Elt F)),
    StableHlo.binary main_v319 main_v322 main_v323 (addi : (⟨S2048, .i32⟩ : BufTy).Contents (Elt F) → (⟨S2048, .i32⟩ : BufTy).Contents (Elt F) → (⟨S2048, .i32⟩ : BufTy).Contents (Elt F)),
    StableHlo.ternary main_v321 main_v323 main_v319 main_v324 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v324 main_v325 (broadcastInDim S2048x1 ![0] bcast_S2048_S2048x1_0 : (⟨S2048, .i32⟩ : BufTy).Contents (Elt F) → (⟨S2048x1, .i32⟩ : BufTy).Contents (Elt F)),
    StableHlo.binary main_v318 main_v325 main_v326 ((fun x i => Host.gather gather_S9600x51_S2048x1_S9600x2048_0_1_n_n_1_1_96001 x i) : (⟨S9600x51, .f32⟩ : BufTy).Contents (Elt F) → (⟨S2048x1, .i32⟩ : BufTy).Contents (Elt F) → (⟨S9600x2048, .f32⟩ : BufTy).Contents (Elt F)),
    StableHlo.unary main_v326 main_v327 (Host.negf : (⟨S9600x2048, .f32⟩ : BufTy).Contents (Elt F) → (⟨S9600x2048, .f32⟩ : BufTy).Contents (Elt F)),
    StableHlo.nullary main_cst_42 (constant S_ .f32 0x3F800000#32),
    StableHlo.unary main_cst_42 main_v328 (broadcastInDim S9600x2048 ![] bcast_S_S9600x2048 : (⟨S_, .f32⟩ : BufTy).Contents (Elt F) → (⟨S9600x2048, .f32⟩ : BufTy).Contents (Elt F)),
    StableHlo.binary main_v328 main_v327 main_v329 (mulf : (⟨S9600x2048, .f32⟩ : BufTy).Contents (Elt F) → (⟨S9600x2048, .f32⟩ : BufTy).Contents (Elt F) → (⟨S9600x2048, .f32⟩ : BufTy).Contents (Elt F)),
    StableHlo.binary main_v304 main_v329 main_v330 (addf : (⟨S9600x2048, .f32⟩ : BufTy).Contents (Elt F) → (⟨S9600x2048, .f32⟩ : BufTy).Contents (Elt F) → (⟨S9600x2048, .f32⟩ : BufTy).Contents (Elt F)),
    StableHlo.reshape main_v330 main_v331 rfl shapeCasts_S9600x2048_S32x300x2048 ]

abbrev ops17_W : List (Ref sig .tc) := [main_v318, main_v319, main_c_40, main_v320, main_v321, main_c_41, main_v322, main_v323, main_v324, main_v325, main_v326, main_v327, main_cst_42, main_v328, main_v329, main_v330, main_v331]
theorem ops17_writes : (ops17 (F := F)).Forall fun op => op.writes ⊆ (ops17_W.map (Proc.devRef (τ := τ) .tc)).toFinset := by
  simp only [List.Forall, binary_writes, reshape_writes, nullary_writes, unary_writes, ternary_writes, Finset.singleton_subset_iff, List.mem_toFinset]
  and_intros <;> exact List.mem_map_of_mem (by decide)

theorem stage17
    (h_main_v304 : V (Proc.devRef .tc main_v304) = val_main_v304 x0 x1 x2 x3 x4 x5 x6 x7)
    (h_main_v314 : V (Proc.devRef .tc main_v314) = val_main_v314 x8)
    (h_main_v317 : V (Proc.devRef .tc main_v317) = val_main_v317 x8)
    (a9 : V (Proc.devRef .tc main_arg9) = x9)
    :
    after ops17 V (Proc.devRef .tc main_v331) = val_main_v331 x0 x1 x2 x3 x4 x5 x6 x7 x8 x9 := by
  after_results_simp
  rw [h_main_v304, h_main_v314, h_main_v317, a9]
  rfl

theorem part6_eq (d : Dev nD) : main_part6 (F := F) d = seq (ops17) := by
  chain_rfl

end Cert.ReferenceIdeal.RunH

end
-- ==== Proof.RefRunH.lean ====
import proofs.«408227_j14096082666122_3_alg».proof.Proof.RefRunH1
import proofs.«408227_j14096082666122_3_alg».proof.Proof.RefRunH2
import proofs.«408227_j14096082666122_3_alg».proof.Proof.RefRunH3
import proofs.«408227_j14096082666122_3_alg».proof.Proof.RefRunH4
import proofs.«408227_j14096082666122_3_alg».proof.Proof.RefRunH5
import proofs.«408227_j14096082666122_3_alg».proof.Proof.RefRunH6
import proofs.«408227_j14096082666122_3_alg».proof.Proof.RefRunH7

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsAll : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ ops17))))))))))))))))

/-- The program runs its operations in order, stretch after stretch. -/
theorem main_eq (d : Dev nD) : main (F := F) d = seq opsAll := by
  unfold main
  rw [part0_eq, part1_eq, part2_eq, part3_eq, part4_eq, part5_eq, part6_eq]
  simp only [opsAll, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll (F := F)).Forall fun op => op.bufs ⊆ tcRefs τ sig := by
  simp only [opsAll, List.forall_append, List.Forall, unary_bufs_sub, reshape_bufs_sub, nullary_bufs_sub, binary_bufs_sub, ternary_bufs_sub, nary_bufs_sub, and_self]

theorem opsAll_fresh : (opsAll (F := F)).Forall fun op => op.fresh = ∅ := by
  simp only [opsAll, List.forall_append, List.Forall]
  and_intros <;> rfl

variable (x0 : (⟨S6x32x300x151, .f32⟩ : BufTy).Contents (Elt F)) (x1 : (⟨S6x32x300x4, .f32⟩ : BufTy).Contents (Elt F))
  (x2 : (⟨S32x64, .i32⟩ : BufTy).Contents (Elt F)) (x3 : (⟨S32x64x4, .f32⟩ : BufTy).Contents (Elt F))
  (x4 : (⟨S6x32x300x151, .f32⟩ : BufTy).Contents (Elt F)) (x5 : (⟨S6x32x300x4, .f32⟩ : BufTy).Contents (Elt F))
  (x6 : (⟨S32x64, .i32⟩ : BufTy).Contents (Elt F)) (x7 : (⟨S32x64x4, .f32⟩ : BufTy).Contents (Elt F))
  (x8 : (⟨S6x32x300x51, .f32⟩ : BufTy).Contents (Elt F)) (x9 : (⟨S32x64, .i32⟩ : BufTy).Contents (Elt F))

/-- The ten arguments hold `x0 … x9` in `V`. -/
structure ArgsAt (V : Valuation τ sig (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9

variable {x0 x1 x2 x3 x4 x5 x6 x7 x8 x9}

/-- What the operations do not write keeps its contents. -/
theorem kept {ops : List (HloOp τ sig (Elt F))} {W : List (Ref sig .tc)} {V : Valuation τ sig (Elt F)} {r : Ref sig .tc} {t}
    (hw : ops.Forall fun op => op.writes ⊆ (W.map (Proc.devRef (τ := τ) .tc)).toFinset) (hr : r ∉ W)
    (h : V (Proc.devRef .tc r) = t) : after ops V (Proc.devRef .tc r) = t :=
  (after_of_writes_sub ops V hw hr).trans h

/-- Operations that write no argument leave the arguments as they were. -/
theorem ArgsAt.step {ops : List (HloOp τ sig (Elt F))} {W : List (Ref sig .tc)} {V : Valuation τ sig (Elt F)} (a : ArgsAt x0 x1 x2 x3 x4 x5 x6 x7 x8 x9 V)
    (hw : ops.Forall fun op => op.writes ⊆ (W.map (Proc.devRef (τ := τ) .tc)).toFinset)
    (hn : ∀ r ∈ [main_arg0, main_arg1, main_arg2, main_arg3, main_arg4, main_arg5, main_arg6, main_arg7, main_arg8, main_arg9], r ∉ W) :
    ArgsAt x0 x1 x2 x3 x4 x5 x6 x7 x8 x9 (after ops V) :=
  ⟨kept hw (hn _ (by decide)) a.a0, kept hw (hn _ (by decide)) a.a1, kept hw (hn _ (by decide)) a.a2, kept hw (hn _ (by decide)) a.a3,
    kept hw (hn _ (by decide)) a.a4, kept hw (hn _ (by decide)) a.a5, kept hw (hn _ (by decide)) a.a6, kept hw (hn _ (by decide)) a.a7,
    kept hw (hn _ (by decide)) a.a8, kept hw (hn _ (by decide)) a.a9⟩

/-- Feeding each stretch what the earlier ones left, the result ends at its closed-form value and the arguments are untouched. -/
theorem result (V : Valuation τ sig (Elt F)) (a : ArgsAt x0 x1 x2 x3 x4 x5 x6 x7 x8 x9 V) :
    after opsAll V (Proc.devRef .tc main_v331) = val_main_v331 x0 x1 x2 x3 x4 x5 x6 x7 x8 x9 ∧ ArgsAt x0 x1 x2 x3 x4 x5 x6 x7 x8 x9 (after opsAll V) := by
  simp only [opsAll, after_append]
  obtain ⟨h13, h16, h18, h24⟩ := stage0 V a.a0 a.a1 a.a3 a.a2
  have a := a.step ops0_writes (by decide)
  obtain ⟨h26, h33, h40, h43, h46, h49⟩ := stage1 _ h13 h24 h16 h18
  have h18 := kept ops1_writes (by decide) h18
  have a := a.step ops1_writes (by decide)
  obtain ⟨h50, h57, h60, h63, h66⟩ := stage2 _ h40 h43 h46 h49 h18
  have h26 := kept ops2_writes (by decide) h26
  have h33 := kept ops2_writes (by decide) h33
  have a := a.step ops2_writes (by decide)
  obtain ⟨h67, h78, h89, h96⟩ := stage3 _ h57 h60 h63 h66 h50
  have h26 := kept ops3_writes (by decide) h26
  have h33 := kept ops3_writes (by decide) h33
  have h50 := kept ops3_writes (by decide) h50
  have a := a.step ops3_writes (by decide)
  obtain ⟨h104, hc12⟩ := stage4 _ h50 h67 h96
  have h26 := kept ops4_writes (by decide) h26
  have h33 := kept ops4_writes (by decide) h33
  have h50 := kept ops4_writes (by decide) h50
  have h67 := kept ops4_writes (by decide) h67
  have h78 := kept ops4_writes (by decide) h78
  have h89 := kept ops4_writes (by decide) h89
  have a := a.step ops4_writes (by decide)
  obtain ⟨h116, h117, h132⟩ := stage5 _ h78 h89 hc12 h104 h50 h67
  have h26 := kept ops5_writes (by decide) h26
  have h33 := kept ops5_writes (by decide) h33
  have a := a.step ops5_writes (by decide)
  obtain ⟨h150, h153, h154, hc18⟩ := stage6 _ h26 h33 h117 h132 h116 a.a4
  have a := a.step ops6_writes (by decide)
  have h158 := stage7 _ hc18 h154
  have h150 := kept ops7_writes (by decide) h150
  have h153 := kept ops7_writes (by decide) h153
  have a := a.step ops7_writes (by decide)
  obtain ⟨h167, h169, h177, h184⟩ := stage8 _ a.a5 a.a7 h153 h158 a.a6
  have h150 := kept ops8_writes (by decide) h150
  have a := a.step ops8_writes (by decide)
  obtain ⟨h186, h193, h196, h199, h202⟩ := stage9 _ h184 h167
  have h150 := kept ops9_writes (by decide) h150
  have h169 := kept ops9_writes (by decide) h169
  have h177 := kept ops9_writes (by decide) h177
  have a := a.step ops9_writes (by decide)
  obtain ⟨h203, h204, h205, h206, h207, h208⟩ := stage10 _ h193 h196 h199 h202 h169
  have h150 := kept ops10_writes (by decide) h150
  have h177 := kept ops10_writes (by decide) h177
  have h186 := kept ops10_writes (by decide) h186
  have a := a.step ops10_writes (by decide)
  obtain ⟨h210, h213, h216, h219⟩ := stage11 _ h204 h208 h206 h205 h207
  have h150 := kept ops11_writes (by decide) h150
  have h177 := kept ops11_writes (by decide) h177
  have h186 := kept ops11_writes (by decide) h186
  have h203 := kept ops11_writes (by decide) h203
  have a := a.step ops11_writes (by decide)
  obtain ⟨h220, h231, h242, h249⟩ := stage12 _ h210 h213 h216 h219 h203
  have h150 := kept ops12_writes (by decide) h150
  have h177 := kept ops12_writes (by decide) h177
  have h186 := kept ops12_writes (by decide) h186
  have h203 := kept ops12_writes (by decide) h203
  have a := a.step ops12_writes (by decide)
  obtain ⟨h263, h264⟩ := stage13 _ h203 h220 h249 h231
  have h150 := kept ops13_writes (by decide) h150
  have h177 := kept ops13_writes (by decide) h177
  have h186 := kept ops13_writes (by decide) h186
  have h203 := kept ops13_writes (by decide) h203
  have h220 := kept ops13_writes (by decide) h220
  have h242 := kept ops13_writes (by decide) h242
  have a := a.step ops13_writes (by decide)
  obtain ⟨h269, h270, h291⟩ := stage14 _ h264 h242 h263 h203 h220
  have h150 := kept ops14_writes (by decide) h150
  have h177 := kept ops14_writes (by decide) h177
  have h186 := kept ops14_writes (by decide) h186
  have a := a.step ops14_writes (by decide)
  obtain ⟨h304, h314, h315⟩ := stage15 _ h150 h177 h186 h270 h291 h269 a.a8
  have a := a.step ops15_writes (by decide)
  have h317 := stage16 _ h315
  have h304 := kept ops16_writes (by decide) h304
  have h314 := kept ops16_writes (by decide) h314
  have a := a.step ops16_writes (by decide)
  have h331 := stage17 _ h304 h314 h317 a.a9
  have a := a.step ops17_writes (by decide)
  exact ⟨h331, a⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v331) = val_main_v331 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨p, a⟩ := result (launchContents m c) ⟨rfl, rfl, rfl, rfl, rfl, rfl, rfl, rfl, rfl, rfl⟩
      exact ⟨(h c _).trans p, (h c _).trans a.a0, (h c _).trans a.a1, (h c _).trans a.a2, (h c _).trans a.a3, (h c _).trans a.a4,
        (h c _).trans a.a5, (h c _).trans a.a6, (h c _).trans a.a7, (h c _).trans a.a8, (h c _).trans a.a9⟩)
    (run_seq scopedRefs_eq scopedSems_eq defs main (fun _ => opsAll) main_eq (fun _ => opsAll_sub) m ρ
      (fun _ => List.forall_iff_forall_mem.1 opsAll_fresh))

end Cert.ReferenceIdeal.RunH

end
-- ==== Proof.lean ====
import proofs.«408227_j14096082666122_3_alg».proof.Defs
import proofs.«408227_j14096082666122_3_alg».proof.Proof.Gen.Kernel
import proofs.«408227_j14096082666122_3_alg».proof.Proof.Gen.Kernel.Frame
import proofs.«408227_j14096082666122_3_alg».proof.Proof.Gen.KernelIdeal
import proofs.«408227_j14096082666122_3_alg».proof.Proof.Gen.KernelIdeal.Frame
import proofs.«408227_j14096082666122_3_alg».proof.Proof.Gen.ReferenceIdeal
import proofs.«408227_j14096082666122_3_alg».proof.Proof.Gen.Pre_finite_inputs
import proofs.«408227_j14096082666122_3_alg».proof.Proof.KTile0
import proofs.«408227_j14096082666122_3_alg».proof.Proof.KTile1
import proofs.«408227_j14096082666122_3_alg».proof.Proof.KTile2
import proofs.«408227_j14096082666122_3_alg».proof.Proof.KTile3
import proofs.«408227_j14096082666122_3_alg».proof.Proof.Link
import proofs.«408227_j14096082666122_3_alg».proof.Proof.RefRunH
import Idealize.ShloMosaic.Adequacy
import Idealize.ShloMosaic.Init

noncomputable section

namespace Cert.Proof

open Idealize.ShloMosaic Idealize.SL.Sem

theorem tiles : Cert.KernelIdeal.Tile.TilesRead :=
  ⟨Cert.KernelIdeal.Tile.tile0_apply, Cert.KernelIdeal.Tile.tile1_apply, Cert.KernelIdeal.Tile.tile2_apply,
    Cert.KernelIdeal.Tile.tile3_apply⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

/-- Both programs terminate, and the reshaped matrices they end with are the same array. -/
theorem algebraic : Cert.algebraic_KernelIdeal_ReferenceIdeal := by
  intro m ρ m' ρ' hpre hagree
  refine ⟨fun c => shapeCast Cert.KernelIdeal.S32x300x2048 (Cert.KernelIdeal.Val.Gfull m c)
      Cert.KernelIdeal.Facts₀.shapeCasts_S9600x2048_S32x300x2048, Cert.KernelIdeal.Val.run m tiles ρ, ?_⟩
  exact (θ_run Cert.ReferenceIdeal.defs _ _).mono
    (fun r h c => ⟨(h c).1.trans (result_eq m m' hpre c (hagree c)), (h c).2⟩)
    (Cert.ReferenceIdeal.RunH.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
